-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = Layout.block ⟨4, ![2, 128, 8, 64]⟩ ⟨4, ![2, 512, 8, 64]⟩ 1 4 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨4, ![2, 128, 8, 64]⟩ ⟨4, ![2, 512, 8, 64]⟩ 1 4 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v30) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S2x128x512 : Shape := ⟨3, ![2, 128, 512]⟩
abbrev S512x512 : Shape := ⟨2, ![512, 512]⟩
abbrev S2x128x8x64 : Shape := ⟨4, ![2, 128, 8, 64]⟩
abbrev S_ : Shape := ⟨0, ![]⟩

class Facts : Prop where
  bcast_S_S2x128x512 : S_.BroadcastsInDim S2x128x512 (![] : Fin 0 → Fin S2x128x512.rank)
  reducesTo_S2x128x512_S_d0_1_2 : S2x128x512.ReducesTo [0, 1, 2] S_
  h_S_ : 0 < S_.numel
  bcast_S_S512x512 : S_.BroadcastsInDim S512x512 (![] : Fin 0 → Fin S512x512.rank)
  reducesTo_S512x512_S_d0_1 : S512x512.ReducesTo [0, 1] S_
  bcast_S_S2x128x8x64 : S_.BroadcastsInDim S2x128x8x64 (![] : Fin 0 → Fin S2x128x8x64.rank)
  reducesTo_S2x128x8x64_S_d0_1_2_3 : S2x128x8x64.ReducesTo [0, 1, 2, 3] S_

variable [Facts]

def fn_part1 {F : FTy → Type} [FloatOps F] (main_arg4 : FVec F S2x128x8x64 .f32) (main_v13 : IVec S_ 1) (main_v16 : IVec S2x128x8x64 1) : IVec S_ 1 :=
  let main_c_5 : IVec S_ 1 := constantI S_ 1 1#1
  let main_v17 : IVec S_ 1 := (fun x v => Host.reduce IntOp.andi x v reducesTo_S2x128x8x64_S_d0_1_2_3 h_S_) main_v16 main_c_5
  let main_v18 : IVec S_ 1 := andi main_v13 main_v17
  let main_v19 : FVec F S2x128x8x64 .f32 := Host.absf main_arg4
  let main_cst_6 : FVec F S_ .f32 := constant S_ .f32 0x7F800000#32
  let main_v20 : FVec F S2x128x8x64 .f32 := broadcastInDim S2x128x8x64 ![] bcast_S_S2x128x8x64 main_cst_6
  let main_v21 : IVec S2x128x8x64 1 := cmpf .olt main_v19 main_v20
  let main_c_7 : IVec S_ 1 := constantI S_ 1 1#1
  let main_v22 : IVec S_ 1 := (fun x v => Host.reduce IntOp.andi x v reducesTo_S2x128x8x64_S_d0_1_2_3 h_S_) main_v21 main_c_7
  let main_v23 : IVec S_ 1 := andi main_v18 main_v22
  main_v23

def fn {F : FTy → Type} [FloatOps F] (main_arg0 : FVec F S2x128x512 .f32) (main_arg1 : FVec F S512x512 .f32) (main_arg2 : FVec F S512x512 .f32) (main_arg3 : FVec F S2x128x8x64 .f32) (main_arg4 : FVec F S2x128x8x64 .f32) : IVec S_ 1 :=
  let main_v0 : FVec F S2x128x512 .f32 := Host.absf main_arg0
  let main_cst : FVec F S_ .f32 := constant S_ .f32 0x7F800000#32
  let main_v1 : FVec F S2x128x512 .f32 := broadcastInDim S2x128x512 ![] bcast_S_S2x128x512 main_cst
  let main_v2 : IVec S2x128x512 1 := cmpf .olt main_v0 main_v1
  let main_c : IVec S_ 1 := constantI S_ 1 1#1
  let main_v3 : IVec S_ 1 := (fun x v => Host.reduce IntOp.andi x v reducesTo_S2x128x512_S_d0_1_2 h_S_) main_v2 main_c
  let main_v4 : FVec F S512x512 .f32 := Host.absf main_arg1
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S512x512 .f32 := Host.absf main_arg2
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  let main_v14 : FVec F S2x128x8x64 .f32 := Host.absf main_arg3
  let main_cst_4 : FVec F S_ .f32 := constant S_ .f32 0x7F800000#32
  let main_v15 : FVec F S2x128x8x64 .f32 := broadcastInDim S2x128x8x64 ![] bcast_S_S2x128x8x64 main_cst_4
  let main_v16 : IVec S2x128x8x64 1 := cmpf .olt main_v14 main_v15
  fn_part1 (F := F) main_arg4 main_v13 main_v16
-- ==== Pre_finite_inputs_ReferenceIdeal.lean ====
abbrev S2x128x512 : Shape := ⟨3, ![2, 128, 512]⟩
abbrev S512x512 : Shape := ⟨2, ![512, 512]⟩
abbrev S2x512x8x64 : Shape := ⟨4, ![2, 512, 8, 64]⟩
abbrev S_ : Shape := ⟨0, ![]⟩

class Facts : Prop where
  bcast_S_S2x128x512 : S_.BroadcastsInDim S2x128x512 (![] : Fin 0 → Fin S2x128x512.rank)
  reducesTo_S2x128x512_S_d0_1_2 : S2x128x512.ReducesTo [0, 1, 2] S_
  h_S_ : 0 < S_.numel
  bcast_S_S512x512 : S_.BroadcastsInDim S512x512 (![] : Fin 0 → Fin S512x512.rank)
  reducesTo_S512x512_S_d0_1 : S512x512.ReducesTo [0, 1] S_
  bcast_S_S2x512x8x64 : S_.BroadcastsInDim S2x512x8x64 (![] : Fin 0 → Fin S2x512x8x64.rank)
  reducesTo_S2x512x8x64_S_d0_1_2_3 : S2x512x8x64.ReducesTo [0, 1, 2, 3] S_

variable [Facts]

def fn_part1 {F : FTy → Type} [FloatOps F] (main_arg4 : FVec F S2x512x8x64 .f32) (main_v13 : IVec S_ 1) (main_v16 : IVec S2x512x8x64 1) : IVec S_ 1 :=
  let main_c_5 : IVec S_ 1 := constantI S_ 1 1#1
  let main_v17 : IVec S_ 1 := (fun x v => Host.reduce IntOp.andi x v reducesTo_S2x512x8x64_S_d0_1_2_3 h_S_) main_v16 main_c_5
  let main_v18 : IVec S_ 1 := andi main_v13 main_v17
  let main_v19 : FVec F S2x512x8x64 .f32 := Host.absf main_arg4
  let main_cst_6 : FVec F S_ .f32 := constant S_ .f32 0x7F800000#32
  let main_v20 : FVec F S2x512x8x64 .f32 := broadcastInDim S2x512x8x64 ![] bcast_S_S2x512x8x64 main_cst_6
  let main_v21 : IVec S2x512x8x64 1 := cmpf .olt main_v19 main_v20
  let main_c_7 : IVec S_ 1 := constantI S_ 1 1#1
  let main_v22 : IVec S_ 1 := (fun x v => Host.reduce IntOp.andi x v reducesTo_S2x512x8x64_S_d0_1_2_3 h_S_) main_v21 main_c_7
  let main_v23 : IVec S_ 1 := andi main_v18 main_v22
  main_v23

def fn {F : FTy → Type} [FloatOps F] (main_arg0 : FVec F S2x128x512 .f32) (main_arg1 : FVec F S512x512 .f32) (main_arg2 : FVec F S512x512 .f32) (main_arg3 : FVec F S2x512x8x64 .f32) (main_arg4 : FVec F S2x512x8x64 .f32) : IVec S_ 1 :=
  let main_v0 : FVec F S2x128x512 .f32 := Host.absf main_arg0
  let main_cst : FVec F S_ .f32 := constant S_ .f32 0x7F800000#32
  let main_v1 : FVec F S2x128x512 .f32 := broadcastInDim S2x128x512 ![] bcast_S_S2x128x512 main_cst
  let main_v2 : IVec S2x128x512 1 := cmpf .olt main_v0 main_v1
  let main_c : IVec S_ 1 := constantI S_ 1 1#1
  let main_v3 : IVec S_ 1 := (fun x v => Host.reduce IntOp.andi x v reducesTo_S2x128x512_S_d0_1_2 h_S_) main_v2 main_c
  let main_v4 : FVec F S512x512 .f32 := Host.absf main_arg1
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S512x512 .f32 := Host.absf main_arg2
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  let main_v14 : FVec F S2x512x8x64 .f32 := Host.absf main_arg3
  let main_cst_4 : FVec F S_ .f32 := constant S_ .f32 0x7F800000#32
  let main_v15 : FVec F S2x512x8x64 .f32 := broadcastInDim S2x512x8x64 ![] bcast_S_S2x512x8x64 main_cst_4
  let main_v16 : IVec S2x512x8x64 1 := cmpf .olt main_v14 main_v15
  fn_part1 (F := F) main_arg4 main_v13 main_v16
-- ==== Kernel.lean ====
abbrev S2x128x512 : Shape := ⟨3, ![2, 128, 512]⟩
abbrev S512x512 : Shape := ⟨2, ![512, 512]⟩
abbrev S2x128x8x64 : Shape := ⟨4, ![2, 128, 8, 64]⟩
abbrev S4x2x8x32x64 : Shape := ⟨5, ![4, 2, 8, 32, 64]⟩
abbrev S4x2x8x32 : Shape := ⟨4, ![4, 2, 8, 32]⟩
abbrev S3x2x8x32x64 : Shape := ⟨5, ![3, 2, 8, 32, 64]⟩
abbrev S3x2x8x32 : Shape := ⟨4, ![3, 2, 8, 32]⟩
abbrev S2x32x512 : Shape := ⟨3, ![2, 32, 512]⟩
abbrev S3x2x32x512 : Shape := ⟨4, ![3, 2, 32, 512]⟩
abbrev S2x3x2 : Shape := ⟨3, ![2, 3, 2]⟩
abbrev S3x2 : Shape := ⟨2, ![3, 2]⟩
abbrev S_ : Shape := ⟨0, ![]⟩
abbrev S256x512 : Shape := ⟨2, ![256, 512]⟩
abbrev S1x128x8x64 : Shape := ⟨4, ![1, 128, 8, 64]⟩
abbrev S128x8x64 : Shape := ⟨3, ![128, 8, 64]⟩
abbrev S8x128x64 : Shape := ⟨3, ![8, 128, 64]⟩
abbrev S128x512 : Shape := ⟨2, ![128, 512]⟩
abbrev S8x128x128 : Shape := ⟨3, ![8, 128, 128]⟩
abbrev S8x128 : Shape := ⟨2, ![8, 128]⟩
abbrev S8x4x32x64 : Shape := ⟨4, ![8, 4, 32, 64]⟩
abbrev S4x8x32x64 : Shape := ⟨4, ![4, 8, 32, 64]⟩
abbrev S4x1x8x32x64 : Shape := ⟨5, ![4, 1, 8, 32, 64]⟩
abbrev S8x4x32 : Shape := ⟨3, ![8, 4, 32]⟩
abbrev S4x8x32 : Shape := ⟨3, ![4, 8, 32]⟩
abbrev S4x1x8x32 : Shape := ⟨4, ![4, 1, 8, 32]⟩
abbrev S1x1x1 : Shape := ⟨3, ![1, 1, 1]⟩
abbrev S1x1x8x32x64 : Shape := ⟨5, ![1, 1, 8, 32, 64]⟩
abbrev S8x32x64 : Shape := ⟨3, ![8, 32, 64]⟩
abbrev S1x1x8x32 : Shape := ⟨4, ![1, 1, 8, 32]⟩
abbrev S8x32 : Shape := ⟨2, ![8, 32]⟩
abbrev S1x32x64 : Shape := ⟨3, ![1, 32, 64]⟩
abbrev S32x64 : Shape := ⟨2, ![32, 64]⟩
abbrev S1x32 : Shape := ⟨2, ![1, 32]⟩
abbrev S32 : Shape := ⟨1, ![32]⟩
abbrev S32x1 : Shape := ⟨2, ![32, 1]⟩
abbrev S64x512 : Shape := ⟨2, ![64, 512]⟩
abbrev S32x512 : Shape := ⟨2, ![32, 512]⟩
abbrev S1x32x512 : Shape := ⟨3, ![1, 32, 512]⟩
abbrev S1x1 : Shape := ⟨2, ![1, 1]⟩
abbrev S1x1x32x512 : Shape := ⟨4, ![1, 1, 32, 512]⟩

abbrev nBuf : Space → Nat
  | .hbm => 6
  | .vmem => 12
  | .smem => 0
  | _ => 0

abbrev bufTy : (tb : Table) → Fin (tcTables nBuf tb) → BufTy
  | .hbm, ⟨0, _⟩ => ⟨S2x128x512, .f32⟩
  | .hbm, ⟨1, _⟩ => ⟨S512x512, .f32⟩
  | .hbm, ⟨2, _⟩ => ⟨S512x512, .f32⟩
  | .hbm, ⟨3, _⟩ => ⟨S2x128x8x64, .f32⟩
  | .hbm, ⟨4, _⟩ => ⟨S2x128x8x64, .f32⟩
  | .hbm, ⟨5, _⟩ => ⟨S2x128x512, .f32⟩
  | .local _ .vmem, ⟨0, _⟩ => ⟨S2x128x512, .f32⟩
  | .local _ .vmem, ⟨1, _⟩ => ⟨S512x512, .f32⟩
  | .local _ .vmem, ⟨2, _⟩ => ⟨S512x512, .f32⟩
  | .local _ .vmem, ⟨3, _⟩ => ⟨S2x128x8x64, .f32⟩
  | .local _ .vmem, ⟨4, _⟩ => ⟨S2x128x8x64, .f32⟩
  | .local _ .vmem, ⟨5, _⟩ => ⟨S2x128x512, .f32⟩
  | .local _ .vmem, ⟨6, _⟩ => ⟨S4x2x8x32x64, .bf16⟩
  | .local _ .vmem, ⟨7, _⟩ => ⟨S4x2x8x32, .f32⟩
  | .local _ .vmem, ⟨8, _⟩ => ⟨S3x2x8x32x64, .bf16⟩
  | .local _ .vmem, ⟨9, _⟩ => ⟨S3x2x8x32, .f32⟩
  | .local _ .vmem, ⟨10, _⟩ => ⟨S2x32x512, .bf16⟩
  | .local _ .vmem, ⟨11, _⟩ => ⟨S3x2x32x512, .bf16⟩
  | _, _ => ⟨S2x128x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 1 → Bool
  | ⟨0, _⟩ => false
  | _ => false

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  (ofTc nBuf bufTy 1 42 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_scratch5 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.addi v2 c1_i32_0
  let c4_i32_1 : BitVec 32 := 4#32
  let v5 : BitVec 32 := Scalar.remsi v4 c4_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v8 : BitVec 32 := Scalar.addi v2 c2_i32
  let c4_i32_4 : BitVec 32 := 4#32
  let v9 : BitVec 32 := Scalar.remsi v8 c4_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v12 : BitVec 32 := Scalar.addi v2 c3_i32
  let c4_i32_8 : BitVec 32 := 4#32
  let v13 : BitVec 32 := Scalar.remsi v12 c4_i32_8
  let c1_i32_10 : BitVec 32 := 1#32
  let v14 : BitVec 32 := Scalar.muli v13 c1_i32_10
  let v15 : BitVec 32 := Scalar.addi c0_i32_11 v14
  v15.toNat
def k0_off1 (d0 : Dev nD) (c1_i32_38 : BitVec 32) : Fin 5 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v48 : BitVec 32 := Scalar.addi v2 c1_i32_38
  let c4_i32_39 : BitVec 32 := 4#32
  let v49 : BitVec 32 := Scalar.remsi v48 c4_i32_39
  let c0_i32_40 : BitVec 32 := 0#32
  let c0_i32_54 : BitVec 32 := 0#32
  let c0_i32_55 : BitVec 32 := 0#32
  let c0_i32_56 : BitVec 32 := 0#32
  ![v49.toNat, 0, 0, 0, 0]
def k0_dev4 (d0 : Dev nD) : Nat :=
  let c0_i32_50 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_38 : BitVec 32 := 1#32
  let v48 : BitVec 32 := Scalar.addi v2 c1_i32_38
  let c4_i32_39 : BitVec 32 := 4#32
  let v49 : BitVec 32 := Scalar.remsi v48 c4_i32_39
  let c1_i32_49 : BitVec 32 := 1#32
  let v50 : BitVec 32 := Scalar.muli v49 c1_i32_49
  let v51 : BitVec 32 := Scalar.addi c0_i32_50 v50
  v51.toNat
def k0_off2 (d0 : Dev nD) (c1_i32_38 : BitVec 32) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v48 : BitVec 32 := Scalar.addi v2 c1_i32_38
  let c4_i32_39 : BitVec 32 := 4#32
  let v49 : BitVec 32 := Scalar.remsi v48 c4_i32_39
  let c0_i32_57 : BitVec 32 := 0#32
  let c0_i32_70 : BitVec 32 := 0#32
  let c0_i32_71 : BitVec 32 := 0#32
  ![v49.toNat, 0, 0, 0]
def k0_dev5 (d0 : Dev nD) : Nat :=
  let c0_i32_67 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_38 : BitVec 32 := 1#32
  let v48 : BitVec 32 := Scalar.addi v2 c1_i32_38
  let c4_i32_39 : BitVec 32 := 4#32
  let v49 : BitVec 32 := Scalar.remsi v48 c4_i32_39
  let c1_i32_66 : BitVec 32 := 1#32
  let v60 : BitVec 32 := Scalar.muli v49 c1_i32_66
  let v61 : BitVec 32 := Scalar.addi c0_i32_67 v60
  v61.toNat
def k0_dev6 (d0 : Dev nD) : Nat :=
  let c0_i32_84 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_72 : BitVec 32 := 2#32
  let v70 : BitVec 32 := Scalar.addi v2 c2_i32_72
  let c4_i32_73 : BitVec 32 := 4#32
  let v71 : BitVec 32 := Scalar.remsi v70 c4_i32_73
  let c1_i32_83 : BitVec 32 := 1#32
  let v72 : BitVec 32 := Scalar.muli v71 c1_i32_83
  let v73 : BitVec 32 := Scalar.addi c0_i32_84 v72
  v73.toNat
def k0_dev7 (d0 : Dev nD) : Nat :=
  let c0_i32_101 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_72 : BitVec 32 := 2#32
  let v70 : BitVec 32 := Scalar.addi v2 c2_i32_72
  let c4_i32_73 : BitVec 32 := 4#32
  let v71 : BitVec 32 := Scalar.remsi v70 c4_i32_73
  let c1_i32_100 : BitVec 32 := 1#32
  let v82 : BitVec 32 := Scalar.muli v71 c1_i32_100
  let v83 : BitVec 32 := Scalar.addi c0_i32_101 v82
  v83.toNat
def k0_dev8 (d0 : Dev nD) : Nat :=
  let c0_i32_118 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_106 : BitVec 32 := 3#32
  let v92 : BitVec 32 := Scalar.addi v2 c3_i32_106
  let c4_i32_107 : BitVec 32 := 4#32
  let v93 : BitVec 32 := Scalar.remsi v92 c4_i32_107
  let c1_i32_117 : BitVec 32 := 1#32
  let v94 : BitVec 32 := Scalar.muli v93 c1_i32_117
  let v95 : BitVec 32 := Scalar.addi c0_i32_118 v94
  v95.toNat
def k0_dev9 (d0 : Dev nD) : Nat :=
  let c0_i32_135 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_106 : BitVec 32 := 3#32
  let v92 : BitVec 32 := Scalar.addi v2 c3_i32_106
  let c4_i32_107 : BitVec 32 := 4#32
  let v93 : BitVec 32 := Scalar.remsi v92 c4_i32_107
  let c1_i32_134 : BitVec 32 := 1#32
  let v104 : BitVec 32 := Scalar.muli v93 c1_i32_134
  let v105 : BitVec 32 := Scalar.addi c0_i32_135 v104
  v105.toNat
def k0_off3 (d0 : Dev nD) (c1_i32_160 : BitVec 32) : Fin 5 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v140 : BitVec 32 := Scalar.addi v2 c1_i32_160
  let c4_i32_161 : BitVec 32 := 4#32
  let v141 : BitVec 32 := Scalar.remsi v140 c4_i32_161
  let c1_i32_162 : BitVec 32 := 1#32
  let c0_i32_176 : BitVec 32 := 0#32
  let c0_i32_177 : BitVec 32 := 0#32
  let c0_i32_178 : BitVec 32 := 0#32
  ![v141.toNat, 1, 0, 0, 0]
def k0_dev10 (d0 : Dev nD) : Nat :=
  let c0_i32_172 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_160 : BitVec 32 := 1#32
  let v140 : BitVec 32 := Scalar.addi v2 c1_i32_160
  let c4_i32_161 : BitVec 32 := 4#32
  let v141 : BitVec 32 := Scalar.remsi v140 c4_i32_161
  let c1_i32_171 : BitVec 32 := 1#32
  let v142 : BitVec 32 := Scalar.muli v141 c1_i32_171
  let v143 : BitVec 32 := Scalar.addi c0_i32_172 v142
  v143.toNat
def k0_off4 (d0 : Dev nD) (c1_i32_160 : BitVec 32) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v140 : BitVec 32 := Scalar.addi v2 c1_i32_160
  let c4_i32_161 : BitVec 32 := 4#32
  let v141 : BitVec 32 := Scalar.remsi v140 c4_i32_161
  let c1_i32_179 : BitVec 32 := 1#32
  let c0_i32_192 : BitVec 32 := 0#32
  let c0_i32_193 : BitVec 32 := 0#32
  ![v141.toNat, 1, 0, 0]
def k0_dev11 (d0 : Dev nD) : Nat :=
  let c0_i32_189 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_160 : BitVec 32 := 1#32
  let v140 : BitVec 32 := Scalar.addi v2 c1_i32_160
  let c4_i32_161 : BitVec 32 := 4#32
  let v141 : BitVec 32 := Scalar.remsi v140 c4_i32_161
  let c1_i32_188 : BitVec 32 := 1#32
  let v152 : BitVec 32 := Scalar.muli v141 c1_i32_188
  let v153 : BitVec 32 := Scalar.addi c0_i32_189 v152
  v153.toNat
def k0_dev12 (d0 : Dev nD) : Nat :=
  let c0_i32_206 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_194 : BitVec 32 := 2#32
  let v162 : BitVec 32 := Scalar.addi v2 c2_i32_194
  let c4_i32_195 : BitVec 32 := 4#32
  let v163 : BitVec 32 := Scalar.remsi v162 c4_i32_195
  let c1_i32_205 : BitVec 32 := 1#32
  let v164 : BitVec 32 := Scalar.muli v163 c1_i32_205
  let v165 : BitVec 32 := Scalar.addi c0_i32_206 v164
  v165.toNat
def k0_dev13 (d0 : Dev nD) : Nat :=
  let c0_i32_223 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_194 : BitVec 32 := 2#32
  let v162 : BitVec 32 := Scalar.addi v2 c2_i32_194
  let c4_i32_195 : BitVec 32 := 4#32
  let v163 : BitVec 32 := Scalar.remsi v162 c4_i32_195
  let c1_i32_222 : BitVec 32 := 1#32
  let v174 : BitVec 32 := Scalar.muli v163 c1_i32_222
  let v175 : BitVec 32 := Scalar.addi c0_i32_223 v174
  v175.toNat
def k0_dev14 (d0 : Dev nD) : Nat :=
  let c0_i32_240 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_228 : BitVec 32 := 3#32
  let v184 : BitVec 32 := Scalar.addi v2 c3_i32_228
  let c4_i32_229 : BitVec 32 := 4#32
  let v185 : BitVec 32 := Scalar.remsi v184 c4_i32_229
  let c1_i32_239 : BitVec 32 := 1#32
  let v186 : BitVec 32 := Scalar.muli v185 c1_i32_239
  let v187 : BitVec 32 := Scalar.addi c0_i32_240 v186
  v187.toNat
def k0_dev15 (d0 : Dev nD) : Nat :=
  let c0_i32_257 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_228 : BitVec 32 := 3#32
  let v184 : BitVec 32 := Scalar.addi v2 c3_i32_228
  let c4_i32_229 : BitVec 32 := 4#32
  let v185 : BitVec 32 := Scalar.remsi v184 c4_i32_229
  let c1_i32_256 : BitVec 32 := 1#32
  let v196 : BitVec 32 := Scalar.muli v185 c1_i32_256
  let v197 : BitVec 32 := Scalar.addi c0_i32_257 v196
  v197.toNat
def k0_off5 (d0 : Dev nD) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v256 : Index := Scalar.indexCast v2
  let c0_360 : Index := 0#32
  let c0_361 : Index := 0#32
  let c0_362 : Index := 0#32
  ![v256.toNat, 0, 0, 0]
def k0_off6 (d0 : Dev nD) : Fin 5 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v265 : Index := Scalar.indexCast v2
  let c0_374 : Index := 0#32
  let c0_375 : Index := 0#32
  let c0_376 : Index := 0#32
  let c0_377 : Index := 0#32
  ![v265.toNat, 0, 0, 0, 0]
def k0_off7 (d0 : Dev nD) : Fin 3 → Nat :=
  let c0_405 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c32_i32 : BitVec 32 := 32#32
  let v369 : BitVec 32 := Scalar.muli v2 c32_i32
  let v370 : Index := Scalar.indexCast v369
  let c0_406 : Index := 0#32
  ![0, v370.toNat, 0]
def k0_dev16 (d0 : Dev nD) : Nat :=
  let c0_i32_417 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_407 : BitVec 32 := 1#32
  let v374 : BitVec 32 := Scalar.addi v2 c1_i32_407
  let c4_i32_408 : BitVec 32 := 4#32
  let v375 : BitVec 32 := Scalar.remsi v374 c4_i32_408
  let c1_i32_416 : BitVec 32 := 1#32
  let v376 : BitVec 32 := Scalar.muli v375 c1_i32_416
  let v377 : BitVec 32 := Scalar.addi c0_i32_417 v376
  v377.toNat
def k0_dev17 (d0 : Dev nD) : Nat :=
  let c0_i32_432 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_422 : BitVec 32 := 2#32
  let v386 : BitVec 32 := Scalar.addi v2 c2_i32_422
  let c4_i32_423 : BitVec 32 := 4#32
  let v387 : BitVec 32 := Scalar.remsi v386 c4_i32_423
  let c1_i32_431 : BitVec 32 := 1#32
  let v388 : BitVec 32 := Scalar.muli v387 c1_i32_431
  let v389 : BitVec 32 := Scalar.addi c0_i32_432 v388
  v389.toNat
def k0_dev18 (d0 : Dev nD) : Nat :=
  let c0_i32_447 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_437 : BitVec 32 := 3#32
  let v398 : BitVec 32 := Scalar.addi v2 c3_i32_437
  let c4_i32_438 : BitVec 32 := 4#32
  let v399 : BitVec 32 := Scalar.remsi v398 c4_i32_438
  let c1_i32_446 : BitVec 32 := 1#32
  let v400 : BitVec 32 := Scalar.muli v399 c1_i32_446
  let v401 : BitVec 32 := Scalar.addi c0_i32_447 v400
  v401.toNat
def k0_off8 (d0 : Dev nD) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v458 : Index := Scalar.indexCast v2
  let c1_548 : Index := 1#32
  let c0_549 : Index := 0#32
  let c0_550 : Index := 0#32
  ![v458.toNat, 1, 0, 0]
def k0_off9 (d0 : Dev nD) : Fin 5 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v467 : Index := Scalar.indexCast v2
  let c1_563 : Index := 1#32
  let c0_564 : Index := 0#32
  let c0_565 : Index := 0#32
  let c0_566 : Index := 0#32
  ![v467.toNat, 1, 0, 0, 0]
def k0_off10 (d0 : Dev nD) : Fin 3 → Nat :=
  let c1_595 : Index := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c32_i32_594 : BitVec 32 := 32#32
  let v571 : BitVec 32 := Scalar.muli v2 c32_i32_594
  let v572 : Index := Scalar.indexCast v571
  let c0_596 : Index := 0#32
  ![1, v572.toNat, 0]
def k0_dev19 (d0 : Dev nD) : Nat :=
  let c0_i32_607 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_597 : BitVec 32 := 1#32
  let v576 : BitVec 32 := Scalar.addi v2 c1_i32_597
  let c4_i32_598 : BitVec 32 := 4#32
  let v577 : BitVec 32 := Scalar.remsi v576 c4_i32_598
  let c1_i32_606 : BitVec 32 := 1#32
  let v578 : BitVec 32 := Scalar.muli v577 c1_i32_606
  let v579 : BitVec 32 := Scalar.addi c0_i32_607 v578
  v579.toNat
def k0_dev20 (d0 : Dev nD) : Nat :=
  let c0_i32_622 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_612 : BitVec 32 := 2#32
  let v588 : BitVec 32 := Scalar.addi v2 c2_i32_612
  let c4_i32_613 : BitVec 32 := 4#32
  let v589 : BitVec 32 := Scalar.remsi v588 c4_i32_613
  let c1_i32_621 : BitVec 32 := 1#32
  let v590 : BitVec 32 := Scalar.muli v589 c1_i32_621
  let v591 : BitVec 32 := Scalar.addi c0_i32_622 v590
  v591.toNat
def k0_dev21 (d0 : Dev nD) : Nat :=
  let c0_i32_637 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_627 : BitVec 32 := 3#32
  let v600 : BitVec 32 := Scalar.addi v2 c3_i32_627
  let c4_i32_628 : BitVec 32 := 4#32
  let v601 : BitVec 32 := Scalar.remsi v600 c4_i32_628
  let c1_i32_636 : BitVec 32 := 1#32
  let v602 : BitVec 32 := Scalar.muli v601 c1_i32_636
  let v603 : BitVec 32 := Scalar.addi c0_i32_637 v602
  v603.toNat
def k0_off11 (d0 : Dev nD) (c0_i32_681 : BitVec 32) : Fin 3 → Nat :=
  let c0_689 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v636 : BitVec 32 := Scalar.addi v2 c0_i32_681
  let c1_i32_682 : BitVec 32 := 1#32
  let v637 : BitVec 32 := Scalar.addi v636 c1_i32_682
  let c4_i32_683 : BitVec 32 := 4#32
  let v638 : BitVec 32 := Scalar.remsi v637 c4_i32_683
  let c32_i32_684 : BitVec 32 := 32#32
  let v639 : BitVec 32 := Scalar.muli v638 c32_i32_684
  let v643 : Index := Scalar.indexCast v639
  let c0_690 : Index := 0#32
  ![0, v643.toNat, 0]
def k0_off12 (d0 : Dev nD) (c0_i32_750 : BitVec 32) : Fin 3 → Nat :=
  let c1_758 : Index := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v693 : BitVec 32 := Scalar.addi v2 c0_i32_750
  let c1_i32_751 : BitVec 32 := 1#32
  let v694 : BitVec 32 := Scalar.addi v693 c1_i32_751
  let c4_i32_752 : BitVec 32 := 4#32
  let v695 : BitVec 32 := Scalar.remsi v694 c4_i32_752
  let c32_i32_753 : BitVec 32 := 32#32
  let v696 : BitVec 32 := Scalar.muli v695 c32_i32_753
  let v700 : Index := Scalar.indexCast v696
  let c0_759 : Index := 0#32
  ![1, v700.toNat, 0]
abbrev stage0_0 : Fin 1 → Memref sig .tc .vmem S2x128x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x128x8x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x128x8x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x128x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

class Facts₀ : Prop where
  hamt_1 : (1#32 : BitVec 32).msb = false
  hamt_3 : (3#32 : BitVec 32).msb = false
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S2x128x512_S2x128x512_0_0_0 : ∀ a, (![0, 0, 0] : Fin 3 → Nat) a + S2x128x512.size a ≤ S2x128x512.size a
  h_S2x128x512 : 0 < S2x128x512.numel
  shapeCasts_S2x128x512_S2x128x512 : S2x128x512.ShapeCasts S2x128x512
  shapeCasts_S2x128x512_S256x512 : S2x128x512.ShapeCasts S256x512
  inb_S2x128x8x64_S1x128x8x64_0_0_0_0 : ∀ a, (![0, 0, 0, 0] : Fin 4 → Nat) a + S1x128x8x64.size a ≤ S2x128x8x64.size a
  h_S1x128x8x64 : 0 < S1x128x8x64.numel
  shapeCasts_S1x128x8x64_S128x8x64 : S1x128x8x64.ShapeCasts S128x8x64
  transposes_S128x8x64_p1_0_2_S8x128x64 : S128x8x64.Transposes [1, 0, 2] S8x128x64
  slices_S256x512_o0_0_S128x512 : S256x512.Slices ![0, 0] S128x512
  shapeCasts_S128x512_S128x8x64 : S128x512.ShapeCasts S128x8x64
  reduces_S8x128x128_S8x128 : S8x128x128.Reduces [2] S8x128
  shapeCasts_S8x128x64_S8x4x32x64 : S8x128x64.ShapeCasts S8x4x32x64
  transposes_S8x4x32x64_p1_0_2_3_S4x8x32x64 : S8x4x32x64.Transposes [1, 0, 2, 3] S4x8x32x64
  bitsLt_bf16_f32 : FTy.bits .bf16 < FTy.bits .f32
  inb_S4x2x8x32x64_S4x1x8x32x64_0_0_0_0_0 : ∀ a, (![0, 0, 0, 0, 0] : Fin 5 → Nat) a + S4x1x8x32x64.size a ≤ S4x2x8x32x64.size a
  h_S4x1x8x32x64 : 0 < S4x1x8x32x64.numel
  shapeCasts_S4x1x8x32x64_S4x8x32x64 : S4x1x8x32x64.ShapeCasts S4x8x32x64
  shapeCasts_S4x8x32x64_S4x1x8x32x64 : S4x8x32x64.ShapeCasts S4x1x8x32x64
  packedbf16_S4x2x8x32x64_S4x1x8x32x64_0_0_0_0_0 : (Rect.unit (s := S4x2x8x32x64) ![0, 0, 0, 0, 0] S4x1x8x32x64.size inb_S4x2x8x32x64_S4x1x8x32x64_0_0_0_0_0).PackedRows (EltTy.packing .bf16)
  shapeCasts_S8x128_S8x4x32 : S8x128.ShapeCasts S8x4x32
  transposes_S8x4x32_p1_0_2_S4x8x32 : S8x4x32.Transposes [1, 0, 2] S4x8x32
  inb_S4x2x8x32_S4x1x8x32_0_0_0_0 : ∀ a, (![0, 0, 0, 0] : Fin 4 → Nat) a + S4x1x8x32.size a ≤ S4x2x8x32.size a
  h_S4x1x8x32 : 0 < S4x1x8x32.numel
  shapeCasts_S4x1x8x32_S4x8x32 : S4x1x8x32.ShapeCasts S4x8x32
  shapeCasts_S4x8x32_S4x1x8x32 : S4x8x32.ShapeCasts S4x1x8x32
  inb_S2x3x2_S1x1x1_0_0_0 : ∀ a, (![0, 0, 0] : Fin 3 → Nat) a + S1x1x1.size a ≤ S2x3x2.size a
  squeezes_S1x1x1_S_ : S1x1x1.Squeezes S_
  inb_S2x3x2_S1x1x1_0_2_0 : ∀ a, (![0, 2, 0] : Fin 3 → Nat) a + S1x1x1.size a ≤ S2x3x2.size a
  inb_S3x2x8x32x64_S1x1x8x32x64_2_0_0_0_0 : ∀ a, (![2, 0, 0, 0, 0] : Fin 5 → Nat) a + S1x1x8x32x64.size a ≤ S3x2x8x32x64.size a
  squeezes_S1x1x8x32x64_S8x32x64 : S1x1x8x32x64.Squeezes S8x32x64
  wordsbf16_S3x2x8x32x64_S1x1x8x32x64_2_0_0_0_0 : (Rect.unit (s := S3x2x8x32x64) ![2, 0, 0, 0, 0] S1x1x8x32x64.size inb_S3x2x8x32x64_S1x1x8x32x64_2_0_0_0_0).WholeWords (EltTy.packing .bf16)
  inb_S2x3x2_S1x1x1_1_0_0 : ∀ a, (![1, 0, 0] : Fin 3 → Nat) a + S1x1x1.size a ≤ S2x3x2.size a
  inb_S2x3x2_S1x1x1_1_2_0 : ∀ a, (![1, 2, 0] : Fin 3 → Nat) a + S1x1x1.size a ≤ S2x3x2.size a
  inb_S3x2x8x32_S1x1x8x32_2_0_0_0 : ∀ a, (![2, 0, 0, 0] : Fin 4 → Nat) a + S1x1x8x32.size a ≤ S3x2x8x32.size a
  squeezes_S1x1x8x32_S8x32 : S1x1x8x32.Squeezes S8x32
  inb_S2x3x2_S1x1x1_0_1_0 : ∀ a, (![0, 1, 0] : Fin 3 → Nat) a + S1x1x1.size a ≤ S2x3x2.size a
  inb_S3x2x8x32x64_S1x1x8x32x64_1_0_0_0_0 : ∀ a, (![1, 0, 0, 0, 0] : Fin 5 → Nat) a + S1x1x8x32x64.size a ≤ S3x2x8x32x64.size a
  wordsbf16_S3x2x8x32x64_S1x1x8x32x64_1_0_0_0_0 : (Rect.unit (s := S3x2x8x32x64) ![1, 0, 0, 0, 0] S1x1x8x32x64.size inb_S3x2x8x32x64_S1x1x8x32x64_1_0_0_0_0).WholeWords (EltTy.packing .bf16)
  inb_S2x3x2_S1x1x1_1_1_0 : ∀ a, (![1, 1, 0] : Fin 3 → Nat) a + S1x1x1.size a ≤ S2x3x2.size a
  inb_S3x2x8x32_S1x1x8x32_1_0_0_0 : ∀ a, (![1, 0, 0, 0] : Fin 4 → Nat) a + S1x1x8x32.size a ≤ S3x2x8x32.size a
  inb_S3x2x8x32x64_S1x1x8x32x64_0_0_0_0_0 : ∀ a, (![0, 0, 0, 0, 0] : Fin 5 → Nat) a + S1x1x8x32x64.size a ≤ S3x2x8x32x64.size a
  wordsbf16_S3x2x8x32x64_S1x1x8x32x64_0_0_0_0_0 : (Rect.unit (s := S3x2x8x32x64) ![0, 0, 0, 0, 0] S1x1x8x32x64.size inb_S3x2x8x32x64_S1x1x8x32x64_0_0_0_0_0).WholeWords (EltTy.packing .bf16)
  inb_S3x2x8x32_S1x1x8x32_0_0_0_0 : ∀ a, (![0, 0, 0, 0] : Fin 4 → Nat) a + S1x1x8x32.size a ≤ S3x2x8x32.size a
  inb_S2x128x8x64_S1x128x8x64_1_0_0_0 : ∀ a, (![1, 0, 0, 0] : Fin 4 → Nat) a + S1x128x8x64.size a ≤ S2x128x8x64.size a
  slices_S256x512_o128_0_S128x512 : S256x512.Slices ![128, 0] S128x512
  inb_S4x2x8x32x64_S4x1x8x32x64_0_1_0_0_0 : ∀ a, (![0, 1, 0, 0, 0] : Fin 5 → Nat) a + S4x1x8x32x64.size a ≤ S4x2x8x32x64.size a
  packedbf16_S4x2x8x32x64_S4x1x8x32x64_0_1_0_0_0 : (Rect.unit (s := S4x2x8x32x64) ![0, 1, 0, 0, 0] S4x1x8x32x64.size inb_S4x2x8x32x64_S4x1x8x32x64_0_1_0_0_0).PackedRows (EltTy.packing .bf16)
  inb_S4x2x8x32_S4x1x8x32_0_1_0_0 : ∀ a, (![0, 1, 0, 0] : Fin 4 → Nat) a + S4x1x8x32.size a ≤ S4x2x8x32.size a
  inb_S2x3x2_S1x1x1_0_0_1 : ∀ a, (![0, 0, 1] : Fin 3 → Nat) a + S1x1x1.size a ≤ S2x3x2.size a
  inb_S2x3x2_S1x1x1_0_2_1 : ∀ a, (![0, 2, 1] : Fin 3 → Nat) a + S1x1x1.size a ≤ S2x3x2.size a
  inb_S3x2x8x32x64_S1x1x8x32x64_2_1_0_0_0 : ∀ a, (![2, 1, 0, 0, 0] : Fin 5 → Nat) a + S1x1x8x32x64.size a ≤ S3x2x8x32x64.size a
  wordsbf16_S3x2x8x32x64_S1x1x8x32x64_2_1_0_0_0 : (Rect.unit (s := S3x2x8x32x64) ![2, 1, 0, 0, 0] S1x1x8x32x64.size inb_S3x2x8x32x64_S1x1x8x32x64_2_1_0_0_0).WholeWords (EltTy.packing .bf16)
  inb_S2x3x2_S1x1x1_1_0_1 : ∀ a, (![1, 0, 1] : Fin 3 → Nat) a + S1x1x1.size a ≤ S2x3x2.size a
  inb_S2x3x2_S1x1x1_1_2_1 : ∀ a, (![1, 2, 1] : Fin 3 → Nat) a + S1x1x1.size a ≤ S2x3x2.size a
  inb_S3x2x8x32_S1x1x8x32_2_1_0_0 : ∀ a, (![2, 1, 0, 0] : Fin 4 → Nat) a + S1x1x8x32.size a ≤ S3x2x8x32.size a
  inb_S2x3x2_S1x1x1_0_1_1 : ∀ a, (![0, 1, 1] : Fin 3 → Nat) a + S1x1x1.size a ≤ S2x3x2.size a
  inb_S3x2x8x32x64_S1x1x8x32x64_1_1_0_0_0 : ∀ a, (![1, 1, 0, 0, 0] : Fin 5 → Nat) a + S1x1x8x32x64.size a ≤ S3x2x8x32x64.size a
  wordsbf16_S3x2x8x32x64_S1x1x8x32x64_1_1_0_0_0 : (Rect.unit (s := S3x2x8x32x64) ![1, 1, 0, 0, 0] S1x1x8x32x64.size inb_S3x2x8x32x64_S1x1x8x32x64_1_1_0_0_0).WholeWords (EltTy.packing .bf16)
  inb_S2x3x2_S1x1x1_1_1_1 : ∀ a, (![1, 1, 1] : Fin 3 → Nat) a + S1x1x1.size a ≤ S2x3x2.size a
  inb_S3x2x8x32_S1x1x8x32_1_1_0_0 : ∀ a, (![1, 1, 0, 0] : Fin 4 → Nat) a + S1x1x8x32.size a ≤ S3x2x8x32.size a
  inb_S3x2x8x32x64_S1x1x8x32x64_0_1_0_0_0 : ∀ a, (![0, 1, 0, 0, 0] : Fin 5 → Nat) a + S1x1x8x32x64.size a ≤ S3x2x8x32x64.size a
  wordsbf16_S3x2x8x32x64_S1x1x8x32x64_0_1_0_0_0 : (Rect.unit (s := S3x2x8x32x64) ![0, 1, 0, 0, 0] S1x1x8x32x64.size inb_S3x2x8x32x64_S1x1x8x32x64_0_1_0_0_0).WholeWords (EltTy.packing .bf16)
  inb_S3x2x8x32_S1x1x8x32_0_1_0_0 : ∀ a, (![0, 1, 0, 0] : Fin 4 → Nat) a + S1x1x8x32.size a ≤ S3x2x8x32.size a
  h_S1x1x8x32 : 0 < S1x1x8x32.numel
  shapeCasts_S1x1x8x32_S8x32 : S1x1x8x32.ShapeCasts S8x32
  h_S1x1x8x32x64 : 0 < S1x1x8x32x64.numel
  shapeCasts_S1x1x8x32x64_S8x32x64 : S1x1x8x32x64.ShapeCasts S8x32x64
  slices_S8x32x64_o0_0_0_S1x32x64 : S8x32x64.Slices ![0, 0, 0] S1x32x64
  shapeCasts_S1x32x64_S32x64 : S1x32x64.ShapeCasts S32x64
  slices_S8x32_o0_0_S1x32 : S8x32.Slices ![0, 0] S1x32
  shapeCasts_S1x32_S32 : S1x32.ShapeCasts S32
  shapeCasts_S32_S32x1 : S32.ShapeCasts S32x1
  broadcasts_S32x1_S32x64 : S32x1.Broadcasts S32x64
  slices_S512x512_o0_0_S64x512 : S512x512.Slices ![0, 0] S64x512
  slices_S8x32x64_o1_0_0_S1x32x64 : S8x32x64.Slices ![1, 0, 0] S1x32x64
  slices_S8x32_o1_0_S1x32 : S8x32.Slices ![1, 0] S1x32
  slices_S512x512_o64_0_S64x512 : S512x512.Slices ![64, 0] S64x512
  slices_S8x32x64_o2_0_0_S1x32x64 : S8x32x64.Slices ![2, 0, 0] S1x32x64
  slices_S8x32_o2_0_S1x32 : S8x32.Slices ![2, 0] S1x32
  slices_S512x512_o128_0_S64x512 : S512x512.Slices ![128, 0] S64x512
  slices_S8x32x64_o3_0_0_S1x32x64 : S8x32x64.Slices ![3, 0, 0] S1x32x64
  slices_S8x32_o3_0_S1x32 : S8x32.Slices ![3, 0] S1x32
  slices_S512x512_o192_0_S64x512 : S512x512.Slices ![192, 0] S64x512
  slices_S8x32x64_o4_0_0_S1x32x64 : S8x32x64.Slices ![4, 0, 0] S1x32x64
  slices_S8x32_o4_0_S1x32 : S8x32.Slices ![4, 0] S1x32
  slices_S512x512_o256_0_S64x512 : S512x512.Slices ![256, 0] S64x512
  slices_S8x32x64_o5_0_0_S1x32x64 : S8x32x64.Slices ![5, 0, 0] S1x32x64
  slices_S8x32_o5_0_S1x32 : S8x32.Slices ![5, 0] S1x32
  slices_S512x512_o320_0_S64x512 : S512x512.Slices ![320, 0] S64x512
  slices_S8x32x64_o6_0_0_S1x32x64 : S8x32x64.Slices ![6, 0, 0] S1x32x64
  slices_S8x32_o6_0_S1x32 : S8x32.Slices ![6, 0] S1x32
  slices_S512x512_o384_0_S64x512 : S512x512.Slices ![384, 0] S64x512
  slices_S8x32x64_o7_0_0_S1x32x64 : S8x32x64.Slices ![7, 0, 0] S1x32x64
  slices_S8x32_o7_0_S1x32 : S8x32.Slices ![7, 0] S1x32
  slices_S512x512_o448_0_S64x512 : S512x512.Slices ![448, 0] S64x512
  inb_S2x32x512_S1x32x512_0_0_0 : ∀ a, (![0, 0, 0] : Fin 3 → Nat) a + S1x32x512.size a ≤ S2x32x512.size a
  h_S1x32x512 : 0 < S1x32x512.numel
  shapeCasts_S1x32x512_S32x512 : S1x32x512.ShapeCasts S32x512
  shapeCasts_S32x512_S1x32x512 : S32x512.ShapeCasts S1x32x512
  packedbf16_S2x32x512_S1x32x512_0_0_0 : (Rect.unit (s := S2x32x512) ![0, 0, 0] S1x32x512.size inb_S2x32x512_S1x32x512_0_0_0).PackedRows (EltTy.packing .bf16)
  inb_S3x2_S1x1_0_0 : ∀ a, (![0, 0] : Fin 2 → Nat) a + S1x1.size a ≤ S3x2.size a
  squeezes_S1x1_S_ : S1x1.Squeezes S_
  inb_S3x2_S1x1_2_0 : ∀ a, (![2, 0] : Fin 2 → Nat) a + S1x1.size a ≤ S3x2.size a
  inb_S3x2x32x512_S1x1x32x512_2_0_0_0 : ∀ a, (![2, 0, 0, 0] : Fin 4 → Nat) a + S1x1x32x512.size a ≤ S3x2x32x512.size a
  squeezes_S1x1x32x512_S32x512 : S1x1x32x512.Squeezes S32x512
  squeezes_S1x32x512_S32x512 : S1x32x512.Squeezes S32x512
  wordsbf16_S2x32x512_S1x32x512_0_0_0 : (Rect.unit (s := S2x32x512) ![0, 0, 0] S1x32x512.size inb_S2x32x512_S1x32x512_0_0_0).WholeWords (EltTy.packing .bf16)
  wordsbf16_S3x2x32x512_S1x1x32x512_2_0_0_0 : (Rect.unit (s := S3x2x32x512) ![2, 0, 0, 0] S1x1x32x512.size inb_S3x2x32x512_S1x1x32x512_2_0_0_0).WholeWords (EltTy.packing .bf16)
  inb_S3x2_S1x1_1_0 : ∀ a, (![1, 0] : Fin 2 → Nat) a + S1x1.size a ≤ S3x2.size a
  inb_S3x2x32x512_S1x1x32x512_1_0_0_0 : ∀ a, (![1, 0, 0, 0] : Fin 4 → Nat) a + S1x1x32x512.size a ≤ S3x2x32x512.size a
  wordsbf16_S3x2x32x512_S1x1x32x512_1_0_0_0 : (Rect.unit (s := S3x2x32x512) ![1, 0, 0, 0] S1x1x32x512.size inb_S3x2x32x512_S1x1x32x512_1_0_0_0).WholeWords (EltTy.packing .bf16)
  inb_S3x2x32x512_S1x1x32x512_0_0_0_0 : ∀ a, (![0, 0, 0, 0] : Fin 4 → Nat) a + S1x1x32x512.size a ≤ S3x2x32x512.size a
  wordsbf16_S3x2x32x512_S1x1x32x512_0_0_0_0 : (Rect.unit (s := S3x2x32x512) ![0, 0, 0, 0] S1x1x32x512.size inb_S3x2x32x512_S1x1x32x512_0_0_0_0).WholeWords (EltTy.packing .bf16)
  inb_S2x32x512_S1x32x512_1_0_0 : ∀ a, (![1, 0, 0] : Fin 3 → Nat) a + S1x32x512.size a ≤ S2x32x512.size a
  packedbf16_S2x32x512_S1x32x512_1_0_0 : (Rect.unit (s := S2x32x512) ![1, 0, 0] S1x32x512.size inb_S2x32x512_S1x32x512_1_0_0).PackedRows (EltTy.packing .bf16)
  inb_S3x2_S1x1_0_1 : ∀ a, (![0, 1] : Fin 2 → Nat) a + S1x1.size a ≤ S3x2.size a
  inb_S3x2_S1x1_2_1 : ∀ a, (![2, 1] : Fin 2 → Nat) a + S1x1.size a ≤ S3x2.size a
  inb_S3x2x32x512_S1x1x32x512_2_1_0_0 : ∀ a, (![2, 1, 0, 0] : Fin 4 → Nat) a + S1x1x32x512.size a ≤ S3x2x32x512.size a
  wordsbf16_S2x32x512_S1x32x512_1_0_0 : (Rect.unit (s := S2x32x512) ![1, 0, 0] S1x32x512.size inb_S2x32x512_S1x32x512_1_0_0).WholeWords (EltTy.packing .bf16)
  wordsbf16_S3x2x32x512_S1x1x32x512_2_1_0_0 : (Rect.unit (s := S3x2x32x512) ![2, 1, 0, 0] S1x1x32x512.size inb_S3x2x32x512_S1x1x32x512_2_1_0_0).WholeWords (EltTy.packing .bf16)
  inb_S3x2_S1x1_1_1 : ∀ a, (![1, 1] : Fin 2 → Nat) a + S1x1.size a ≤ S3x2.size a
  inb_S3x2x32x512_S1x1x32x512_1_1_0_0 : ∀ a, (![1, 1, 0, 0] : Fin 4 → Nat) a + S1x1x32x512.size a ≤ S3x2x32x512.size a
  wordsbf16_S3x2x32x512_S1x1x32x512_1_1_0_0 : (Rect.unit (s := S3x2x32x512) ![1, 1, 0, 0] S1x1x32x512.size inb_S3x2x32x512_S1x1x32x512_1_1_0_0).WholeWords (EltTy.packing .bf16)
  inb_S3x2x32x512_S1x1x32x512_0_1_0_0 : ∀ a, (![0, 1, 0, 0] : Fin 4 → Nat) a + S1x1x32x512.size a ≤ S3x2x32x512.size a
  wordsbf16_S3x2x32x512_S1x1x32x512_0_1_0_0 : (Rect.unit (s := S3x2x32x512) ![0, 1, 0, 0] S1x1x32x512.size inb_S3x2x32x512_S1x1x32x512_0_1_0_0).WholeWords (EltTy.packing .bf16)
  h_S1x1x32x512 : 0 < S1x1x32x512.numel
  shapeCasts_S1x1x32x512_S32x512 : S1x1x32x512.ShapeCasts S32x512
  dot_S256x512_S512x512_S256x512_1_0_0_1_n_n_wf : DotDims.WF S256x512 S512x512 S256x512 [1] [0] [0] [1] [] []
  dot_S8x128x64_S8x128x64_S8x128x128_2_2_1_1_0_0_wf : DotDims.WF S8x128x64 S8x128x64 S8x128x128 [2] [2] [1] [1] [0] [0]
  dot_S8x128x128_S8x128x64_S8x128x64_2_1_1_2_0_0_wf : DotDims.WF S8x128x128 S8x128x64 S8x128x64 [2] [1] [1] [2] [0] [0]
  dot_S32x64_S64x512_S32x512_1_0_0_1_n_n_wf : DotDims.WF S32x64 S64x512 S32x512 [1] [0] [0] [1] [] []
  hcc0_scratch6 : 6 + S2x3x2.numel ≤ 42
  hcc0_scratch7 : 18 + S2x3x2.numel ≤ 42
  hcc0_scratch8 : 30 + S3x2.numel ≤ 42
  hcc0_scratch9 : 36 + S3x2.numel ≤ 42
  k0_dev1_lt : ∀ d0 : Dev nD, (k0_dev1 d0) < nD
  k0_dev2_lt : ∀ d0 : Dev nD, (k0_dev2 d0) < nD
  k0_dev3_lt : ∀ d0 : Dev nD, (k0_dev3 d0) < nD
  k0_off1_inb : ∀ d0 : Dev nD, ∀ (r : Fin 3), ∀ a, (k0_off1 d0 (BitVec.ofNat 32 (1 + r.val))) a + S1x1x8x32x64.size a ≤ S4x2x8x32x64.size a
  k0_off1_wordsbf16 : ∀ d0 : Dev nD, ∀ (r : Fin 3), (Rect.unit (s := S4x2x8x32x64) (k0_off1 d0 (BitVec.ofNat 32 (1 + r.val))) S1x1x8x32x64.size (k0_off1_inb d0 r)).WholeWords (EltTy.packing .bf16)
  k0_dev4_lt : ∀ d0 : Dev nD, (k0_dev4 d0) < nD
  k0_off2_inb : ∀ d0 : Dev nD, ∀ (r : Fin 3), ∀ a, (k0_off2 d0 (BitVec.ofNat 32 (1 + r.val))) a + S1x1x8x32.size a ≤ S4x2x8x32.size a
  k0_dev5_lt : ∀ d0 : Dev nD, (k0_dev5 d0) < nD
  k0_dev6_lt : ∀ d0 : Dev nD, (k0_dev6 d0) < nD
  k0_dev7_lt : ∀ d0 : Dev nD, (k0_dev7 d0) < nD
  k0_dev8_lt : ∀ d0 : Dev nD, (k0_dev8 d0) < nD
  k0_dev9_lt : ∀ d0 : Dev nD, (k0_dev9 d0) < nD
  k0_off3_inb : ∀ d0 : Dev nD, ∀ (r : Fin 3), ∀ a, (k0_off3 d0 (BitVec.ofNat 32 (1 + r.val))) a + S1x1x8x32x64.size a ≤ S4x2x8x32x64.size a
  k0_off3_wordsbf16 : ∀ d0 : Dev nD, ∀ (r : Fin 3), (Rect.unit (s := S4x2x8x32x64) (k0_off3 d0 (BitVec.ofNat 32 (1 + r.val))) S1x1x8x32x64.size (k0_off3_inb d0 r)).WholeWords (EltTy.packing .bf16)
  k0_dev10_lt : ∀ d0 : Dev nD, (k0_dev10 d0) < nD
  k0_off4_inb : ∀ d0 : Dev nD, ∀ (r : Fin 3), ∀ a, (k0_off4 d0 (BitVec.ofNat 32 (1 + r.val))) a + S1x1x8x32.size a ≤ S4x2x8x32.size a
  k0_dev11_lt : ∀ d0 : Dev nD, (k0_dev11 d0) < nD
  k0_dev12_lt : ∀ d0 : Dev nD, (k0_dev12 d0) < nD
  k0_dev13_lt : ∀ d0 : Dev nD, (k0_dev13 d0) < nD
  k0_dev14_lt : ∀ d0 : Dev nD, (k0_dev14 d0) < nD
  k0_dev15_lt : ∀ d0 : Dev nD, (k0_dev15 d0) < nD
  k0_off5_inb : ∀ d0 : Dev nD, ∀ a, (k0_off5 d0) a + S1x1x8x32.size a ≤ S4x2x8x32.size a
  k0_off6_inb : ∀ d0 : Dev nD, ∀ a, (k0_off6 d0) a + S1x1x8x32x64.size a ≤ S4x2x8x32x64.size a
  k0_off7_inb : ∀ d0 : Dev nD, ∀ a, (k0_off7 d0) a + S1x32x512.size a ≤ S2x128x512.size a
  k0_dev16_lt : ∀ d0 : Dev nD, (k0_dev16 d0) < nD
  k0_dev17_lt : ∀ d0 : Dev nD, (k0_dev17 d0) < nD
  k0_dev18_lt : ∀ d0 : Dev nD, (k0_dev18 d0) < nD
  k0_off8_inb : ∀ d0 : Dev nD, ∀ a, (k0_off8 d0) a + S1x1x8x32.size a ≤ S4x2x8x32.size a
  k0_off9_inb : ∀ d0 : Dev nD, ∀ a, (k0_off9 d0) a + S1x1x8x32x64.size a ≤ S4x2x8x32x64.size a
  k0_off10_inb : ∀ d0 : Dev nD, ∀ a, (k0_off10 d0) a + S1x32x512.size a ≤ S2x128x512.size a
  k0_dev19_lt : ∀ d0 : Dev nD, (k0_dev19 d0) < nD
  k0_dev20_lt : ∀ d0 : Dev nD, (k0_dev20 d0) < nD
  k0_dev21_lt : ∀ d0 : Dev nD, (k0_dev21 d0) < nD
  k0_off11_inb : ∀ d0 : Dev nD, ∀ (r : Fin 3), ∀ a, (k0_off11 d0 (BitVec.ofNat 32 r.val)) a + S1x32x512.size a ≤ S2x128x512.size a
  k0_off12_inb : ∀ d0 : Dev nD, ∀ (r : Fin 3), ∀ a, (k0_off12 d0 (BitVec.ofNat 32 r.val)) a + S1x32x512.size a ≤ S2x128x512.size a
  hstage0_0 : ∀ j, (stage0_0 j).IsWhole
  hstage0_1 : ∀ j, (stage0_1 j).IsWhole
  hstage0_2 : ∀ j, (stage0_2 j).IsWhole
  hstage0_3 : ∀ j, (stage0_3 j).IsWhole
  hstage0_4 : ∀ j, (stage0_4 j).IsWhole
  hstage0_5 : ∀ j, (stage0_5 j).IsWhole

variable [Facts₀]

abbrev cc0_scratch6 : DmaSems sig S2x3x2 := SemArray.consecutive 6 S2x3x2 hcc0_scratch6
abbrev cc0_scratch7 : DmaSems sig S2x3x2 := SemArray.consecutive 18 S2x3x2 hcc0_scratch7
abbrev cc0_scratch8 : DmaSems sig S3x2 := SemArray.consecutive 30 S3x2 hcc0_scratch8
abbrev cc0_scratch9 : DmaSems sig S3x2 := SemArray.consecutive 36 S3x2 hcc0_scratch9
def dot_S256x512_S512x512_S256x512_1_0_0_1_n_n : DotDims S256x512 S512x512 S256x512 where
  lhsContracting := [1]
  rhsContracting := [0]
  lhsNonContracting := [0]
  rhsNonContracting := [1]
  lhsBatch := []
  rhsBatch := []
  wf := dot_S256x512_S512x512_S256x512_1_0_0_1_n_n_wf
def dot_S8x128x64_S8x128x64_S8x128x128_2_2_1_1_0_0 : DotDims S8x128x64 S8x128x64 S8x128x128 where
  lhsContracting := [2]
  rhsContracting := [2]
  lhsNonContracting := [1]
  rhsNonContracting := [1]
  lhsBatch := [0]
  rhsBatch := [0]
  wf := dot_S8x128x64_S8x128x64_S8x128x128_2_2_1_1_0_0_wf
def dot_S8x128x128_S8x128x64_S8x128x64_2_1_1_2_0_0 : DotDims S8x128x128 S8x128x64 S8x128x64 where
  lhsContracting := [2]
  rhsContracting := [1]
  lhsNonContracting := [1]
  rhsNonContracting := [2]
  lhsBatch := [0]
  rhsBatch := [0]
  wf := dot_S8x128x128_S8x128x64_S8x128x64_2_1_1_2_0_0_wf
def dot_S32x64_S64x512_S32x512_1_0_0_1_n_n : DotDims S32x64 S64x512 S32x512 where
  lhsContracting := [1]
  rhsContracting := [0]
  lhsNonContracting := [0]
  rhsNonContracting := [1]
  lhsBatch := []
  rhsBatch := []
  wf := dot_S32x64_S64x512_S32x512_1_0_0_1_n_n_wf

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_arg1) false false (stage0_1 0) (sem0_1 0) (Memref.isWhole_whole _) (hstage0_1 0)

abbrev win0_2 : Pipeline.Window sig grid0 :=
  Pipeline.Window.whole (Memref.whole main_arg2) false false (stage0_2 0) (sem0_2 0) (Memref.isWhole_whole _) (hstage0_2 0)

abbrev win0_3 : Pipeline.Window sig grid0 :=
  Pipeline.Window.whole (Memref.whole main_arg3) false false (stage0_3 0) (sem0_3 0) (Memref.isWhole_whole _) (hstage0_3 0)

abbrev win0_4 : Pipeline.Window sig grid0 :=
  Pipeline.Window.whole (Memref.whole main_arg4) false false (stage0_4 0) (sem0_4 0) (Memref.isWhole_whole _) (hstage0_4 0)

abbrev win0_5 : Pipeline.Window sig grid0 :=
  Pipeline.Window.whole (Memref.whole main_v1) true false (stage0_5 0) (sem0_5 0) (Memref.isWhole_whole _) (hstage0_5 0)

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S2x128x512 : Shape := ⟨3, ![2, 128, 512]⟩
abbrev S512x512 : Shape := ⟨2, ![512, 512]⟩
abbrev S2x512x8x64 : Shape := ⟨4, ![2, 512, 8, 64]⟩
abbrev S2x128x8x64 : Shape := ⟨4, ![2, 128, 8, 64]⟩
abbrev S_ : Shape := ⟨0, ![]⟩
abbrev S2x8x128x1 : Shape := ⟨4, ![2, 8, 128, 1]⟩
abbrev S2x8x128x512 : Shape := ⟨4, ![2, 8, 128, 512]⟩
abbrev S2x8x128 : Shape := ⟨3, ![2, 8, 128]⟩
abbrev S2x128x8x1 : Shape := ⟨4, ![2, 128, 8, 1]⟩
abbrev S2x8x64x128 : Shape := ⟨4, ![2, 8, 64, 128]⟩

abbrev nBuf : Space → Nat
  | .hbm => 42
  | .vmem => 0
  | .smem => 0
  | _ => 0

abbrev bufTy : (tb : Table) → Fin (tcTables nBuf tb) → BufTy
  | .hbm, ⟨0, _⟩ => ⟨S2x128x512, .f32⟩
  | .hbm, ⟨1, _⟩ => ⟨S512x512, .f32⟩
  | .hbm, ⟨2, _⟩ => ⟨S512x512, .f32⟩
  | .hbm, ⟨3, _⟩ => ⟨S2x512x8x64, .f32⟩
  | .hbm, ⟨4, _⟩ => ⟨S2x512x8x64, .f32⟩
  | .hbm, ⟨5, _⟩ => ⟨S2x128x512, .f32⟩
  | .hbm, ⟨6, _⟩ => ⟨S2x128x8x64, .f32⟩
  | .hbm, ⟨7, _⟩ => ⟨S_, .f32⟩
  | .hbm, ⟨8, _⟩ => ⟨S2x128x8x64, .f32⟩
  | .hbm, ⟨9, _⟩ => ⟨S_, .f32⟩
  | .hbm, ⟨10, _⟩ => ⟨S2x8x128x1, .f32⟩
  | .hbm, ⟨11, _⟩ => ⟨S_, .f32⟩
  | .hbm, ⟨12, _⟩ => ⟨S2x8x128x1, .f32⟩
  | .hbm, ⟨13, _⟩ => ⟨S2x8x128x512, .f32⟩
  | .hbm, ⟨14, _⟩ => ⟨S_, .f32⟩
  | .hbm, ⟨15, _⟩ => ⟨S2x8x128x512, .f32⟩
  | .hbm, ⟨16, _⟩ => ⟨S2x8x128x512, .f32⟩
  | .hbm, ⟨17, _⟩ => ⟨S_, .f32⟩
  | .hbm, ⟨18, _⟩ => ⟨S2x8x128, .f32⟩
  | .hbm, ⟨19, _⟩ => ⟨S2x8x128x1, .f32⟩
  | .hbm, ⟨20, _⟩ => ⟨S2x8x128x1, .f32⟩
  | .hbm, ⟨21, _⟩ => ⟨S2x8x128x1, .f32⟩
  | .hbm, ⟨22, _⟩ => ⟨S2x8x128x1, .f32⟩
  | .hbm, ⟨23, _⟩ => ⟨S2x8x128x512, .f32⟩
  | .hbm, ⟨24, _⟩ => ⟨S2x8x128x512, .f32⟩
  | .hbm, ⟨25, _⟩ => ⟨S2x8x128x512, .f32⟩
  | .hbm, ⟨26, _⟩ => ⟨S2x8x128x1, .f32⟩
  | .hbm, ⟨27, _⟩ => ⟨S_, .f32⟩
  | .hbm, ⟨28, _⟩ => ⟨S2x8x128, .f32⟩
  | .hbm, ⟨29, _⟩ => ⟨S2x8x128x1, .f32⟩
  | .hbm, ⟨30, _⟩ => ⟨S2x8x128x1, .f32⟩
  | .hbm, ⟨31, _⟩ => ⟨S2x128x8x1, .f32⟩
  | .hbm, ⟨32, _⟩ => ⟨S2x128x8x64, .f32⟩
  | .hbm, ⟨33, _⟩ => ⟨S2x128x8x64, .f32⟩
  | .hbm, ⟨34, _⟩ => ⟨S2x8x64x128, .f32⟩
  | .hbm, ⟨35, _⟩ => ⟨S2x128x8x64, .f32⟩
  | .hbm, ⟨36, _⟩ => ⟨S2x128x8x64, .f32⟩
  | .hbm, ⟨37, _⟩ => ⟨S2x128x8x1, .f32⟩
  | .hbm, ⟨38, _⟩ => ⟨S2x128x8x64, .f32⟩
  | .hbm, ⟨39, _⟩ => ⟨S2x128x8x64, .f32⟩
  | .hbm, ⟨40, _⟩ => ⟨S2x128x512, .f32⟩
  | .hbm, ⟨41, _⟩ => ⟨S2x128x512, .f32⟩
  | _, _ => ⟨S2x128x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_cst_2 : Ref sig .tc := ⟨.hbm, 14, rfl⟩
abbrev main_v6 : Ref sig .tc := ⟨.hbm, 15, rfl⟩
abbrev main_v7 : Ref sig .tc := ⟨.hbm, 16, rfl⟩
abbrev main_cst_3 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩

abbrev nD : Nat := 1
abbrev τ : Topo := Topo.v7x

variable {F : FTy → Type} [FloatOps F]

class Facts₀ : Prop where
  shapeCasts_S2x128x512_S2x128x8x64 : S2x128x512.ShapeCasts S2x128x8x64
  bcast_S_S2x128x8x64 : S_.BroadcastsInDim S2x128x8x64 (![] : Fin 0 → Fin S2x128x8x64.rank)
  bcast_S_S2x8x128x1 : S_.BroadcastsInDim S2x8x128x1 (![] : Fin 0 → Fin S2x8x128x1.rank)
  bcast_S_S2x8x128x512 : S_.BroadcastsInDim S2x8x128x512 (![] : Fin 0 → Fin S2x8x128x512.rank)
  reducesTo_S2x8x128x512_S2x8x128_d3 : S2x8x128x512.ReducesTo [3] S2x8x128
  h_S_ : 0 < S_.numel
  bcast_S2x8x128_S2x8x128x1_0_1_2 : S2x8x128.BroadcastsInDim S2x8x128x1 (![0, 1, 2] : Fin 3 → Fin S2x8x128x1.rank)
  bcast_S2x8x128x1_S2x8x128x512_0_1_2_3 : S2x8x128x1.BroadcastsInDim S2x8x128x512 (![0, 1, 2, 3] : Fin 4 → Fin S2x8x128x512.rank)
  transposes_S2x8x128x1_S2x128x8x1_0_2_1_3 : S2x8x128x1.Transposes [0, 2, 1, 3] S2x128x8x1
  bcast_S2x128x8x1_S2x128x8x64_0_1_2_3 : S2x128x8x1.BroadcastsInDim S2x128x8x64 (![0, 1, 2, 3] : Fin 4 → Fin S2x128x8x64.rank)
  transposes_S2x8x64x128_S2x128x8x64_0_3_1_2 : S2x8x64x128.Transposes [0, 3, 1, 2] S2x128x8x64
  shapeCasts_S2x128x8x64_S2x128x512 : S2x128x8x64.ShapeCasts S2x128x512
  dot_S2x128x512_S512x512_S2x128x512_2_0_01_1_n_n_wf : DotDims.WF S2x128x512 S512x512 S2x128x512 [2] [0] [0, 1] [1] [] []
  dot_S2x128x8x64_S2x512x8x64_S2x8x128x512_3_3_1_1_02_02_wf : DotDims.WF S2x128x8x64 S2x512x8x64 S2x8x128x512 [3] [3] [1] [1] [0, 2] [0, 2]
  dot_S2x512x8x64_S2x8x128x512_S2x8x64x128_1_3_3_2_02_01_wf : DotDims.WF S2x512x8x64 S2x8x128x512 S2x8x64x128 [1] [3] [3] [2] [0, 2] [0, 1]

variable [Facts₀]

def dot_S2x128x512_S512x512_S2x128x512_2_0_01_1_n_n : DotDims S2x128x512 S512x512 S2x128x512 where
  lhsContracting := [2]
  rhsContracting := [0]
  lhsNonContracting := [0, 1]
  rhsNonContracting := [1]
  lhsBatch := []
  rhsBatch := []
  wf := dot_S2x128x512_S512x512_S2x128x512_2_0_01_1_n_n_wf
def dot_S2x128x8x64_S2x512x8x64_S2x8x128x512_3_3_1_1_02_02 : DotDims S2x128x8x64 S2x512x8x64 S2x8x128x512 where
  lhsContracting := [3]
  rhsContracting := [3]
  lhsNonContracting := [1]
  rhsNonContracting := [1]
  lhsBatch := [0, 2]
  rhsBatch := [0, 2]
  wf := dot_S2x128x8x64_S2x512x8x64_S2x8x128x512_3_3_1_1_02_02_wf
def dot_S2x512x8x64_S2x8x128x512_S2x8x64x128_1_3_3_2_02_01 : DotDims S2x512x8x64 S2x8x128x512 S2x8x64x128 where
  lhsContracting := [1]
  rhsContracting := [3]
  lhsNonContracting := [3]
  rhsNonContracting := [2]
  lhsBatch := [0, 2]
  rhsBatch := [0, 1]
  wf := dot_S2x512x8x64_S2x8x128x512_S2x8x64x128_1_3_3_2_02_01_wf

class Facts : Prop extends Facts₀ where

variable [Facts]
-- ==== Proof.Spec.lean ====
-- The two closed forms of the result: attention over all 512 keys at once, and the four-device form, in which each device contributes partial numerators and denominators over its 128 keys and the owner of a query row adds the four and divides.
import Idealize.ShloMosaic.PureOps.Ideal
import Idealize.ShloMosaic.Lib.ValueIdx

noncomputable section

namespace Cert.Spec

open Idealize.ShloMosaic Idealize.ShloMosaic.ValueIdx
open scoped BigOperators

abbrev SX : Shape := ⟨3, ![2, 128, 512]⟩
abbrev SW : Shape := ⟨2, ![512, 512]⟩
abbrev SKV : Shape := ⟨4, ![2, 512, 8, 64]⟩
abbrev SKVb : Shape := ⟨4, ![2, 128, 8, 64]⟩

def col (h : Fin 8) (d : Fin 64) : Fin 512 := ⟨h.val * 64 + d.val, by omega⟩

def headOf (k : Fin 512) : Fin 8 := ⟨k.val / 64, by omega⟩
def laneOf (k : Fin 512) : Fin 64 := ⟨k.val % 64, by omega⟩

def gkey (c : Fin 4) (j : Fin 128) : Fin 512 := ⟨c.val * 128 + j.val, by omega⟩

def own (i : Fin 128) : Fin 4 := ⟨i.val / 32, by omega⟩

def scl : EReal := Ideal.ofBits .f32 0x3E000000#32

section Common
variable (X : SX.Idx → EReal) (Wq : SW.Idx → EReal)

def q (b : Fin 2) (i : Fin 128) (h : Fin 8) (d : Fin 64) : EReal :=
  ∑ k : Fin 512, X (ix3 b i k) * Wq (ix2 k (col h d))

end Common

section Reference
variable (sc : EReal) (X : SX.Idx → EReal) (Wq Wo : SW.Idx → EReal) (K V : SKV.Idx → EReal)

def score (b : Fin 2) (h : Fin 8) (i : Fin 128) (j : Fin 512) : EReal :=
  (∑ d : Fin 64, q X Wq b i h d * K (ix4 b j h d)) * sc
def smax (b : Fin 2) (h : Fin 8) (i : Fin 128) : EReal :=
  Finset.univ.sup' Finset.univ_nonempty fun j : Fin 512 => score sc X Wq K b h i j
def wref (b : Fin 2) (h : Fin 8) (i : Fin 128) (j : Fin 512) : EReal :=
  Ideal.exp (score sc X Wq K b h i j - smax sc X Wq K b h i)
def lref (b : Fin 2) (h : Fin 8) (i : Fin 128) : EReal := ∑ j : Fin 512, wref sc X Wq K b h i j
def oref (b : Fin 2) (i : Fin 128) (h : Fin 8) (d : Fin 64) : EReal :=
  ∑ j : Fin 512, wref sc X Wq K b h i j * V (ix4 b j h d)
def attref (b : Fin 2) (i : Fin 128) (h : Fin 8) (d : Fin 64) : EReal :=
  Ideal.div (oref sc X Wq K V b i h d) (lref sc X Wq K b h i)

def refOut : SX.Idx → EReal := fun idx =>
  ∑ k : Fin 512, attref sc X Wq K V (idx 0) (idx 1) (headOf k) (laneOf k) * Wo (ix2 k (idx 2))

end Reference

section Kernel
variable (sc : EReal) (X : SX.Idx → EReal) (Wq Wo : SW.Idx → EReal) (Kb Vb : Fin 4 → SKVb.Idx → EReal)

def scoreK (c : Fin 4) (b : Fin 2) (h : Fin 8) (i : Fin 128) (j : Fin 128) : EReal :=
  (∑ d : Fin 64, q X Wq b i h d * Kb c (ix4 b j h d)) * sc
def wK (c : Fin 4) (b : Fin 2) (h : Fin 8) (i : Fin 128) (j : Fin 128) : EReal :=
  Ideal.exp (scoreK sc X Wq Kb c b h i j)

def lK (c : Fin 4) (b : Fin 2) (h : Fin 8) (i : Fin 128) : EReal := ∑ j : Fin 128, wK sc X Wq Kb c b h i j
def oK (c : Fin 4) (b : Fin 2) (h : Fin 8) (i : Fin 128) (d : Fin 64) : EReal :=
  ∑ j : Fin 128, wK sc X Wq Kb c b h i j * Vb c (ix4 b j h d)

def den (r : Fin 4) (b : Fin 2) (h : Fin 8) (i : Fin 128) : EReal :=
  lK sc X Wq Kb r b h i + lK sc X Wq Kb (r + 1) b h i + lK sc X Wq Kb (r + 2) b h i + lK sc X Wq Kb (r + 3) b h i
def num (r : Fin 4) (b : Fin 2) (h : Fin 8) (i : Fin 128) (d : Fin 64) : EReal :=
  oK sc X Wq Kb Vb r b h i d + oK sc X Wq Kb Vb (r + 1) b h i d + oK sc X Wq Kb Vb (r + 2) b h i d
    + oK sc X Wq Kb Vb (r + 3) b h i d
def attK (b : Fin 2) (i : Fin 128) (h : Fin 8) (d : Fin 64) : EReal :=
  num sc X Wq Kb Vb (own i) b h i d * Ideal.div 1 (den sc X Wq Kb (own i) b h i)

def kerOut : SX.Idx → EReal := fun idx =>
  ∑ h : Fin 8, ∑ d : Fin 64, attK sc X Wq Kb Vb (idx 0) (idx 1) h d * Wo (ix2 (col h d) (idx 2))

end Kernel

end Cert.Spec

end
-- ==== Proof.RefValue.lean ====
-- The reference's run ends at the closed form refOut of its five arguments, read off its operations one index at a time.
import proofs.«900757_g7700000000000758_dist_attn_cross_mha_kvseq_b2_sq128_skv128_d512_hq8_dh64_v7x_i4_f32_1_alg».proof.Proof.Gen.ReferenceIdeal.Run
import proofs.«900757_g7700000000000758_dist_attn_cross_mha_kvseq_b2_sq128_skv128_d512_hq8_dh64_v7x_i4_f32_1_alg».proof.Proof.Gen.ReferenceIdeal.Read
import proofs.«900757_g7700000000000758_dist_attn_cross_mha_kvseq_b2_sq128_skv128_d512_hq8_dh64_v7x_i4_f32_1_alg».proof.Proof.Spec
import Idealize.ShloMosaic.Lib.Pipeline.Value
import Idealize.ShloMosaic.PureOps.Ideal.Laws

noncomputable section

namespace Cert.RefValue

open Idealize.ShloMosaic Idealize.SL.Sem Idealize.ShloMosaic.ValueIdx
open Cert.ReferenceIdeal Cert.ReferenceIdeal.Read Cert.Spec
open scoped BigOperators

variable (X : (⟨S2x128x512, .f32⟩ : BufTy).Contents (Elt Ideal)) (Wq Wo : (⟨S512x512, .f32⟩ : BufTy).Contents (Elt Ideal))
  (K V : (⟨S2x512x8x64, .f32⟩ : BufTy).Contents (Elt Ideal))

theorem lidx_v0 (b : Fin 2) (i : Fin 128) (n k : Fin 512) : lidx_main_v0 (ix3 b i n) k = ix3 b i k := eq_ix3 _

theorem ridx_v0 (b : Fin 2) (i : Fin 128) (n k : Fin 512) : ridx_main_v0 (ix3 b i n) k = ix2 k n := eq_ix2 _

theorem idx_v1 (b : Fin 2) (i : Fin 128) (h : Fin 8) (d : Fin 64) : idx_main_v1 (ix4 b i h d) = ix3 b i (col h d) := by
  have hb := b.isLt; have hi := i.isLt; have hh := h.isLt; have hd := d.isLt
  funext a; match a with
  | ⟨0, _⟩ => exact Fin.ext (by show (((b.val * 128 + i.val) * 8 + h.val) * 64 + d.val) / 65536 = b.val; omega)
  | ⟨1, _⟩ => exact Fin.ext (by show (((b.val * 128 + i.val) * 8 + h.val) * 64 + d.val) / 512 % 128 = i.val; omega)
  | ⟨2, _⟩ => exact Fin.ext (by show (((b.val * 128 + i.val) * 8 + h.val) * 64 + d.val) % 512 = h.val * 64 + d.val; omega)

theorem lidx_v5 (b : Fin 2) (h : Fin 8) (i : Fin 128) (j : Fin 512) (d : Fin 64) :
    lidx_main_v5 (ix4 b h i j) d = ix4 b i h d := eq_ix4 _

theorem ridx_v5 (b : Fin 2) (h : Fin 8) (i : Fin 128) (j : Fin 512) (d : Fin 64) :
    ridx_main_v5 (ix4 b h i j) d = ix4 b j h d := eq_ix4 _

theorem idx_v9 (b : Fin 2) (h : Fin 8) (i : Fin 128) (z : Fin 1) : idx_main_v9 (ix4 b h i z) = ix3 b h i := eq_ix3 _

theorem idx_v13 (b : Fin 2) (h : Fin 8) (i : Fin 128) (j : Fin 512) :
    idx_main_v13 (ix4 b h i j) = ix4 b h i (⟨0, Nat.one_pos⟩ : Fin 1) := eq_ix4 _

theorem idx_v17 (b : Fin 2) (h : Fin 8) (i : Fin 128) (k : Fin 512) : idx_main_v17 (ix3 b h i) k = ix4 b h i k := eq_ix4 _

theorem idx_v18 (b : Fin 2) (h : Fin 8) (i : Fin 128) (z : Fin 1) : idx_main_v18 (ix4 b h i z) = ix3 b h i := eq_ix3 _

theorem lidx_v23 (b : Fin 2) (h : Fin 8) (d : Fin 64) (i : Fin 128) (k : Fin 512) :
    lidx_main_v23 (ix4 b h d i) k = ix4 b k h d := eq_ix4 _

theorem ridx_v23 (b : Fin 2) (h : Fin 8) (d : Fin 64) (i : Fin 128) (k : Fin 512) :
    ridx_main_v23 (ix4 b h d i) k = ix4 b h i k := eq_ix4 _

theorem idx_v24 (b : Fin 2) (i : Fin 128) (h : Fin 8) (d : Fin 64) : idx_main_v24 (ix4 b i h d) = ix4 b h d i := eq_ix4 _

theorem idx_v26 (b : Fin 2) (i : Fin 128) (h : Fin 8) (z : Fin 1) : idx_main_v26 (ix4 b i h z) = ix4 b h i z := eq_ix4 _

theorem idx_v27 (b : Fin 2) (i : Fin 128) (h : Fin 8) (d : Fin 64) :
    idx_main_v27 (ix4 b i h d) = ix4 b i h (⟨0, Nat.one_pos⟩ : Fin 1) := eq_ix4 _

theorem idx_v29 (b : Fin 2) (i : Fin 128) (k : Fin 512) : idx_main_v29 (ix3 b i k) = ix4 b i (headOf k) (laneOf k) := by
  have hb := b.isLt; have hi := i.isLt; have hk := k.isLt
  funext a; match a with
  | ⟨0, _⟩ => exact Fin.ext (by show ((b.val * 128 + i.val) * 512 + k.val) / 65536 = b.val; omega)
  | ⟨1, _⟩ => exact Fin.ext (by show ((b.val * 128 + i.val) * 512 + k.val) / 512 % 128 = i.val; omega)
  | ⟨2, _⟩ => exact Fin.ext (by show ((b.val * 128 + i.val) * 512 + k.val) / 64 % 8 = k.val / 64; omega)
  | ⟨3, _⟩ => exact Fin.ext (by show ((b.val * 128 + i.val) * 512 + k.val) % 64 = k.val % 64; omega)

theorem lidx_v30 (b : Fin 2) (i : Fin 128) (n k : Fin 512) : lidx_main_v30 (ix3 b i n) k = ix3 b i k := eq_ix3 _

theorem ridx_v30 (b : Fin 2) (i : Fin 128) (n k : Fin 512) : ridx_main_v30 (ix3 b i n) k = ix2 k n := eq_ix2 _

theorem ofBits_neg_inf : Ideal.ofBits .f32 0xFF800000#32 = (⊥ : EReal) := by
  simp [Ideal.ofBits, Ideal.ieee]

theorem fold_max_bot (f : Fin 512 → EReal) :
    (Finset.univ : Finset (Fin 512)).fold (FloatOps.maximumf (F := Ideal) (φ := .f32)) ⊥ f
      = Finset.univ.sup' Finset.univ_nonempty f := by
  rw [Finset.sup'_eq_sup]; rfl

theorem reduce_max_last (x : S2x8x128x512.Idx → EReal) (h' : S2x8x128x512.ReducesTo [3] S2x8x128) (hu : 0 < S_.numel)
    (b : Fin 2) (h : Fin 8) (i : Fin 128) :
    Host.reduce (FloatOps.maximumf (F := Ideal) (φ := .f32)) x (constant (F := Ideal) S_ .f32 0xFF800000#32) h' hu (ix3 b h i)
      = Finset.univ.sup' Finset.univ_nonempty fun j : Fin 512 => x (ix4 b h i j) := by
  have hR : S2x8x128x512.Reduces [3] S2x8x128 := by decide
  rw [Host.reduce_eq_fold_single _ x _ h' hR hu]
  have hf : (x ∘ hR.lift (ix3 b h i)) = fun k : Fin 512 => x (ix4 b h i k) :=
    funext fun k => congrArg x (by funext c; apply Fin.ext; fin_cases c <;> rfl)
  have hb : constant (F := Ideal) S_ .f32 0xFF800000#32 (Shape.Idx.first hu) = (⊥ : EReal) := ofBits_neg_inf
  rw [hb]
  exact (congrArg (fun f => (Finset.univ : Finset (Fin 512)).fold (FloatOps.maximumf (F := Ideal) (φ := .f32)) ⊥ f) hf).trans
    (fold_max_bot _)

theorem v2_at (j : S2x128x8x64.Idx) : val_main_v2 (F := Ideal) j = 0 := by
  rw [val_main_v2_apply]; exact Ideal.ofBits_zero_f32

theorem v3_at (j : S2x8x128x1.Idx) : val_main_v3 (F := Ideal) j = (⊥ : EReal) := by
  rw [val_main_v3_apply]; exact ofBits_neg_inf

theorem v4_at (j : S2x8x128x1.Idx) : val_main_v4 (F := Ideal) j = 0 := by
  rw [val_main_v4_apply]; exact Ideal.ofBits_zero_f32

theorem cst4_at (j : S_.Idx) : val_main_cst_4 (F := Ideal) j = 0 := Ideal.ofBits_zero_f32

theorem v6_at (j : S2x8x128x512.Idx) : val_main_v6 (F := Ideal) j = scl := by
  rw [val_main_v6_apply]; rfl

theorem v1_at (b : Fin 2) (i : Fin 128) (h : Fin 8) (d : Fin 64) :
    val_main_v1 (F := Ideal) X Wq (ix4 b i h d) = q X Wq b i h d := by
  rw [val_main_v1_apply, idx_v1, val_main_v0_apply]
  unfold q
  refine Finset.sum_congr rfl fun k _ => ?_
  rw [lidx_v0, ridx_v0]

theorem v7_at (b : Fin 2) (h : Fin 8) (i : Fin 128) (j : Fin 512) :
    val_main_v7 (F := Ideal) X Wq K (ix4 b h i j) = score scl X Wq K b h i j := by
  rw [val_main_v7_apply, val_main_v5_apply, v6_at]
  refine congrArg (· * scl) (Finset.sum_congr rfl fun d _ => ?_)
  rw [lidx_v5, ridx_v5, v1_at]

theorem v8_at (b : Fin 2) (h : Fin 8) (i : Fin 128) :
    val_main_v8 (F := Ideal) X Wq K (ix3 b h i) = smax scl X Wq K b h i := by
  unfold val_main_v8 val_main_cst_3
  refine (reduce_max_last _ _ _ b h i).trans ?_
  unfold smax
  exact congrArg (Finset.univ.sup' Finset.univ_nonempty) (funext fun j => v7_at X Wq K b h i j)

theorem v10_at (b : Fin 2) (h : Fin 8) (i : Fin 128) (z : Fin 1) :
    val_main_v10 (F := Ideal) X Wq K (ix4 b h i z) = smax scl X Wq K b h i := by
  rw [val_main_v10_apply, v3_at, val_main_v9_apply, idx_v9, v8_at]
  exact max_bot_left _

theorem v12_at (j : S2x8x128x1.Idx) :
    val_main_v12 (F := Ideal) X Wq K j = 0 := by
  rw [val_main_v12_apply, val_main_v11_apply, v3_at]
  exact (congrArg Ideal.exp (EReal.bot_sub (val_main_v10 (F := Ideal) X Wq K j))).trans Ideal.exp_bot

theorem v15_at (b : Fin 2) (h : Fin 8) (i : Fin 128) (j : Fin 512) :
    val_main_v15 (F := Ideal) X Wq K (ix4 b h i j) = wref scl X Wq K b h i j := by
  rw [val_main_v15_apply, val_main_v14_apply, v7_at, val_main_v13_apply, idx_v13, v10_at]; rfl

theorem v17_at (b : Fin 2) (h : Fin 8) (i : Fin 128) :
    val_main_v17 (F := Ideal) X Wq K (ix3 b h i) = lref scl X Wq K b h i := by
  rw [val_main_v17_apply, cst4_at]
  unfold lref
  refine (zero_add _).trans (Finset.sum_congr rfl fun k _ => ?_)
  rw [idx_v17, v15_at]

theorem v19_at (b : Fin 2) (h : Fin 8) (i : Fin 128) (z : Fin 1) :
    val_main_v19 (F := Ideal) X Wq K (ix4 b h i z) = lref scl X Wq K b h i := by
  rw [val_main_v19_apply, val_main_v16_apply, v4_at, v12_at, val_main_v18_apply, idx_v18, v17_at]
  exact (congrArg (· + _) (mul_zero (0 : EReal))).trans (zero_add _)

theorem v25_at (b : Fin 2) (i : Fin 128) (h : Fin 8) (d : Fin 64) :
    val_main_v25 (F := Ideal) X Wq K V (ix4 b i h d) = oref scl X Wq K V b i h d := by
  rw [val_main_v25_apply, val_main_v22_apply, v2_at, val_main_v21_apply, val_main_v20_apply, v12_at, val_main_v24_apply, idx_v24, val_main_v23_apply]
  unfold oref
  refine ((congrArg (· + _) (mul_zero (0 : EReal))).trans (zero_add _)).trans (Finset.sum_congr rfl fun k _ => ?_)
  rw [lidx_v23, ridx_v23, v15_at]
  exact mul_comm _ _

theorem v28_at (b : Fin 2) (i : Fin 128) (h : Fin 8) (d : Fin 64) :
    val_main_v28 (F := Ideal) X Wq K V (ix4 b i h d) = attref scl X Wq K V b i h d := by
  rw [val_main_v28_apply, v25_at, val_main_v27_apply, idx_v27, val_main_v26_apply, idx_v26, v19_at]; rfl

theorem v30_eq :
    val_main_v30 (F := Ideal) X Wq Wo K V = refOut scl X Wq Wo K V := by
  funext idx
  obtain ⟨b, i, n, rfl⟩ : ∃ (b : Fin 2) (i : Fin 128) (n : Fin 512), idx = ix3 b i n := ⟨idx 0, idx 1, idx 2, eq_ix3 idx⟩
  rw [val_main_v30_apply]
  show _ = ∑ k : Fin 512, attref scl X Wq K V b i (headOf k) (laneOf k) * Wo (ix2 k n)
  refine Finset.sum_congr rfl fun k _ => ?_
  rw [lidx_v30, ridx_v30, val_main_v29_apply, idx_v29, v28_at]

open Idealize.ShloMosaic.TcCoe in

theorem run [Cert.ReferenceIdeal.Facts]
    (m' : (ℓ : Loc Cert.ReferenceIdeal.nD Cert.ReferenceIdeal.τ Cert.ReferenceIdeal.sig) → Buf (Elt Ideal) ℓ)
    (g' : Dev Cert.ReferenceIdeal.nD → PrngReg) :
    θ_run (Cert.ReferenceIdeal.defs (F := Ideal)) (onTc (τ := Cert.ReferenceIdeal.τ) (Cert.ReferenceIdeal.main (F := Ideal)))
      ⟨m', fun _ => 0, g'⟩ (fun r =>
        r.2.mem (((0 : Dev Cert.ReferenceIdeal.nD).tc : Thread Cert.ReferenceIdeal.nD Cert.ReferenceIdeal.τ).loc Cert.ReferenceIdeal.main_v30)
          = Cert.Spec.refOut Cert.Spec.scl
              (m' (((0 : Dev Cert.ReferenceIdeal.nD).tc : Thread Cert.ReferenceIdeal.nD Cert.ReferenceIdeal.τ).loc Cert.ReferenceIdeal.main_arg0))
              (m' (((0 : Dev Cert.ReferenceIdeal.nD).tc : Thread Cert.ReferenceIdeal.nD Cert.ReferenceIdeal.τ).loc Cert.ReferenceIdeal.main_arg1))
              (m' (((0 : Dev Cert.ReferenceIdeal.nD).tc : Thread Cert.ReferenceIdeal.nD Cert.ReferenceIdeal.τ).loc Cert.ReferenceIdeal.main_arg2))
              (m' (((0 : Dev Cert.ReferenceIdeal.nD).tc : Thread Cert.ReferenceIdeal.nD Cert.ReferenceIdeal.τ).loc Cert.ReferenceIdeal.main_arg3))
              (m' (((0 : Dev Cert.ReferenceIdeal.nD).tc : Thread Cert.ReferenceIdeal.nD Cert.ReferenceIdeal.τ).loc Cert.ReferenceIdeal.main_arg4))
        ∧ r.2.mem (((0 : Dev Cert.ReferenceIdeal.nD).tc : Thread Cert.ReferenceIdeal.nD Cert.ReferenceIdeal.τ).loc Cert.ReferenceIdeal.main_arg0)
            = m' (((0 : Dev Cert.ReferenceIdeal.nD).tc : Thread Cert.ReferenceIdeal.nD Cert.ReferenceIdeal.τ).loc Cert.ReferenceIdeal.main_arg0)
        ∧ r.2.mem (((0 : Dev Cert.ReferenceIdeal.nD).tc : Thread Cert.ReferenceIdeal.nD Cert.ReferenceIdeal.τ).loc Cert.ReferenceIdeal.main_arg1)
            = m' (((0 : Dev Cert.ReferenceIdeal.nD).tc : Thread Cert.ReferenceIdeal.nD Cert.ReferenceIdeal.τ).loc Cert.ReferenceIdeal.main_arg1)
        ∧ r.2.mem (((0 : Dev Cert.ReferenceIdeal.nD).tc : Thread Cert.ReferenceIdeal.nD Cert.ReferenceIdeal.τ).loc Cert.ReferenceIdeal.main_arg2)
            = m' (((0 : Dev Cert.ReferenceIdeal.nD).tc : Thread Cert.ReferenceIdeal.nD Cert.ReferenceIdeal.τ).loc Cert.ReferenceIdeal.main_arg2)
        ∧ r.2.mem (((0 : Dev Cert.ReferenceIdeal.nD).tc : Thread Cert.ReferenceIdeal.nD Cert.ReferenceIdeal.τ).loc Cert.ReferenceIdeal.main_arg3)
            = m' (((0 : Dev Cert.ReferenceIdeal.nD).tc : Thread Cert.ReferenceIdeal.nD Cert.ReferenceIdeal.τ).loc Cert.ReferenceIdeal.main_arg3)
        ∧ r.2.mem (((0 : Dev Cert.ReferenceIdeal.nD).tc : Thread Cert.ReferenceIdeal.nD Cert.ReferenceIdeal.τ).loc Cert.ReferenceIdeal.main_arg4)
            = m' (((0 : Dev Cert.ReferenceIdeal.nD).tc : Thread Cert.ReferenceIdeal.nD Cert.ReferenceIdeal.τ).loc Cert.ReferenceIdeal.main_arg4)) := by
  refine (θ_run (Cert.ReferenceIdeal.defs (F := Ideal)) _ _).mono (fun _ h => ?_)
    (Cert.ReferenceIdeal.Value.run (F := Ideal) m' g')
  obtain ⟨h30, h0, h1, h2, h3, h4⟩ := h 0
  exact ⟨h30.trans ((val_main_v30_eq m' 0).trans (v30_eq _ _ _ _ _)), h0, h1, h2, h3, h4⟩

end Cert.RefValue

end
-- ==== Proof.KV.lean ====
-- What a device computes, as pure functions of its argument buffers: queries, weights, partial sums, what it sends, what it receives, its result.
import proofs.«900757_g7700000000000758_dist_attn_cross_mha_kvseq_b2_sq128_skv128_d512_hq8_dh64_v7x_i4_f32_1_alg».proof.Proof.Gen.KernelIdeal
import proofs.«900757_g7700000000000758_dist_attn_cross_mha_kvseq_b2_sq128_skv128_d512_hq8_dh64_v7x_i4_f32_1_alg».proof.Proof.Gen.KernelIdeal.Skeleton
import proofs.«900757_g7700000000000758_dist_attn_cross_mha_kvseq_b2_sq128_skv128_d512_hq8_dh64_v7x_i4_f32_1_alg».proof.Proof.Gen.KernelIdeal.Launch
import Idealize.ShloMosaic.Lib.Pipeline.Launch
import Idealize.ShloMosaic.Lib.Pipeline.Kit
import Idealize.ShloMosaic.Lib.Tactic
import Idealize.ShloMosaic.Lib.ValueIdx

noncomputable section

namespace Cert.KernelIdeal.KV

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]
variable (m : (ℓ : Loc nD τ sig) → Buf (Elt F) ℓ)

def pl (c : Dev nD) (k : ℕ) : Dev nD := ⟨(c.val + k) % 4, Nat.mod_lt _ (by decide)⟩

def stg0 (c : Dev nD) : (cc0_stg0_0 : Ref sig .tc).ty.Contents (Elt F) := (win0_0.blk (0 : Fin 1)).view.read (Elt F) (m ((c : Thread nD τ).loc main_arg0))
def stg1 (c : Dev nD) : (cc0_stg1_0 : Ref sig .tc).ty.Contents (Elt F) := (win0_1.blk (0 : Fin 1)).view.read (Elt F) (m ((c : Thread nD τ).loc main_arg1))
def stg2 (c : Dev nD) : (cc0_stg2_0 : Ref sig .tc).ty.Contents (Elt F) := (win0_2.blk (0 : Fin 1)).view.read (Elt F) (m ((c : Thread nD τ).loc main_arg2))
def stg3 (c : Dev nD) : (cc0_stg3_0 : Ref sig .tc).ty.Contents (Elt F) := (win0_3.blk (0 : Fin 1)).view.read (Elt F) (m ((c : Thread nD τ).loc main_arg3))
def stg4 (c : Dev nD) : (cc0_stg4_0 : Ref sig .tc).ty.Contents (Elt F) := (win0_4.blk (0 : Fin 1)).view.read (Elt F) (m ((c : Thread nD τ).loc main_arg4))

def vWq (c : Dev nD) : Vec F S512x512 .f32 :=
  (Memref.whole cc0_stg1_0 : Memref sig .tc .vmem S512x512 .f32).view.readAt (Elt F) (Rect.unit (s := S512x512) ![0, 0] S512x512.size inb_S512x512_S512x512_0_0).toLoadRect (stg1 m c)
def vX (c : Dev nD) : Vec F S2x128x512 .f32 :=
  (Memref.whole cc0_stg0_0 : Memref sig .tc .vmem S2x128x512 .f32).view.readAt (Elt F) (Rect.unit (s := S2x128x512) ![0, 0, 0] S2x128x512.size inb_S2x128x512_S2x128x512_0_0_0).toLoadRect (stg0 m c)
def vWo (c : Dev nD) : Vec F S512x512 .f32 :=
  (Memref.whole cc0_stg2_0 : Memref sig .tc .vmem S512x512 .f32).view.readAt (Elt F) (Rect.unit (s := S512x512) ![0, 0] S512x512.size inb_S512x512_S512x512_0_0).toLoadRect (stg2 m c)
def vK0 (c : Dev nD) : Vec F S1x128x8x64 .f32 :=
  (Memref.whole cc0_stg3_0 : Memref sig .tc .vmem S2x128x8x64 .f32).view.readAt (Elt F) (Rect.unit (s := S2x128x8x64) ![0, 0, 0, 0] S1x128x8x64.size inb_S2x128x8x64_S1x128x8x64_0_0_0_0).toLoadRect (stg3 m c)
def vV0 (c : Dev nD) : Vec F S1x128x8x64 .f32 :=
  (Memref.whole cc0_stg4_0 : Memref sig .tc .vmem S2x128x8x64 .f32).view.readAt (Elt F) (Rect.unit (s := S2x128x8x64) ![0, 0, 0, 0] S1x128x8x64.size inb_S2x128x8x64_S1x128x8x64_0_0_0_0).toLoadRect (stg4 m c)
def vK1 (c : Dev nD) : Vec F S1x128x8x64 .f32 :=
  (Memref.whole cc0_stg3_0 : Memref sig .tc .vmem S2x128x8x64 .f32).view.readAt (Elt F) (Rect.unit (s := S2x128x8x64) ![1, 0, 0, 0] S1x128x8x64.size inb_S2x128x8x64_S1x128x8x64_1_0_0_0).toLoadRect (stg3 m c)
def vV1 (c : Dev nD) : Vec F S1x128x8x64 .f32 :=
  (Memref.whole cc0_stg4_0 : Memref sig .tc .vmem S2x128x8x64 .f32).view.readAt (Elt F) (Rect.unit (s := S2x128x8x64) ![1, 0, 0, 0] S1x128x8x64.size inb_S2x128x8x64_S1x128x8x64_1_0_0_0).toLoadRect (stg4 m c)

def qAll (c : Dev nD) : FVec F S256x512 .f32 := k0_pay1 (vWq m c) (vX m c)

def oS0 (c : Dev nD) : FVec F S4x1x8x32x64 .bf16 := k0_pay4 (qAll m c) (k0_pay2 (vK0 m c)) (vV0 m c)
def lS0 (c : Dev nD) : FVec F S4x1x8x32 .f32 := k0_pay5 (qAll m c) (k0_pay2 (vK0 m c))
def oS1 (c : Dev nD) : FVec F S4x1x8x32x64 .bf16 := k0_pay9 (k0_pay6 (vV1 m c)) (k0_pay7 (qAll m c) (vK1 m c))
def lS1 (c : Dev nD) : FVec F S4x1x8x32 .f32 := k0_pay10 (k0_pay8 (qAll m c) (vK1 m c))
def oS (c : Dev nD) : Fin 2 → FVec F S4x1x8x32x64 .bf16 | ⟨0, _⟩ => oS0 m c | ⟨_ + 1, _⟩ => oS1 m c
def lS (c : Dev nD) : Fin 2 → FVec F S4x1x8x32 .f32 | ⟨0, _⟩ => lS0 m c | ⟨_ + 1, _⟩ => lS1 m c

def oBlk (c : Dev nD) (t : Fin 4) (b : Fin 2) : Vec F S8x32x64 .bf16 := fun i => oS m c b (ix5 t 0 (i 0) (i 1) (i 2))
def lBlk (c : Dev nD) (t : Fin 4) (b : Fin 2) : Vec F S8x32 .f32 := fun i => lS m c b (ix4 t 0 (i 0) (i 1))
def oBlk1 (c : Dev nD) (t : Fin 4) (b : Fin 2) : Vec F S1x1x8x32x64 .bf16 := fun i => oS m c b (ix5 t 0 (i 2) (i 3) (i 4))
def lBlk1 (c : Dev nD) (t : Fin 4) (b : Fin 2) : Vec F S1x1x8x32 .f32 := fun i => lS m c b (ix4 t 0 (i 2) (i 3))

def wo (c : Dev nD) : FVec F S512x512 .f32 := k0_pay11 (vWo m c)

section Batch0
def num0 (c : Dev nD) : FVec F S8x32x64 .f32 := k0_pay13 (oBlk1 m c c 0) (oBlk1 m (pl c 1) c 0) (oBlk1 m (pl c 2) c 0) (oBlk1 m (pl c 3) c 0)
def inv0 (c : Dev nD) : FVec F S8x32 .f32 := k0_pay14 (k0_pay12 (lBlk1 m c c 0)) (lBlk1 m (pl c 1) c 0) (lBlk1 m (pl c 2) c 0) (lBlk1 m (pl c 3) c 0)
def num0h (c : Dev nD) : FVec F S32x64 .f32 := k0_pay15 (oBlk1 m c c 0) (oBlk1 m (pl c 1) c 0) (oBlk1 m (pl c 2) c 0) (oBlk1 m (pl c 3) c 0)
def inv0h (c : Dev nD) : FVec F S1x32 .f32 := k0_pay16 (k0_pay12 (lBlk1 m c c 0)) (lBlk1 m (pl c 1) c 0) (lBlk1 m (pl c 2) c 0) (lBlk1 m (pl c 3) c 0)
def acc0a (c : Dev nD) : FVec F S32x512 .f32 := k0_pay17 (wo m c) (num0 m c) (inv0 m c) (num0h m c) (inv0h m c)
def zero32x512 : FVec F S32x512 .f32 := constant S32x512 .f32 0x00000000#32

def fS0 (c : Dev nD) : FVec F S1x32x512 .bf16 :=
  k0_pay21 (wo m c) (num0 m c) (inv0 m c) (acc0a m c) (k0_pay18 (num0 m c) (inv0 m c)) (k0_pay19 (wo m c)) zero32x512
def own0 (c : Dev nD) : FVec F S1x32x512 .f32 :=
  k0_pay22 (wo m c) (num0 m c) (inv0 m c) (acc0a m c) (k0_pay18 (num0 m c) (inv0 m c)) (k0_pay19 (wo m c)) zero32x512
end Batch0

section Batch1
def l1a (c : Dev nD) : FVec F S8x32 .f32 := k0_pay23 (lBlk1 m c c 1)
def l1b (c : Dev nD) : FVec F S8x32 .f32 := k0_pay24 (lBlk1 m (pl c 1) c 1)
def l1c (c : Dev nD) : FVec F S8x32 .f32 := k0_pay25 (lBlk1 m (pl c 2) c 1)
def l1d (c : Dev nD) : FVec F S8x32 .f32 := k0_pay26 (lBlk1 m (pl c 3) c 1)
def num1 (c : Dev nD) : FVec F S8x32x64 .f32 := k0_pay27 (oBlk1 m c c 1) (oBlk1 m (pl c 1) c 1) (oBlk1 m (pl c 2) c 1) (oBlk1 m (pl c 3) c 1)
def inv1 (c : Dev nD) : FVec F S8x32 .f32 := k0_pay28 (l1a m c) (l1b m c) (l1c m c) (l1d m c)
def acc1a (c : Dev nD) : FVec F S32x512 .f32 :=
  k0_pay29 (wo m c) (l1a m c) (l1b m c) (l1c m c) (l1d m c) (oBlk1 m c c 1) (oBlk1 m (pl c 1) c 1) (oBlk1 m (pl c 2) c 1) (oBlk1 m (pl c 3) c 1)
def acc1b (c : Dev nD) : FVec F S32x512 .f32 :=
  k0_pay30 (wo m c) (l1a m c) (l1b m c) (l1c m c) (l1d m c) (oBlk1 m c c 1) (oBlk1 m (pl c 1) c 1) (oBlk1 m (pl c 2) c 1) (oBlk1 m (pl c 3) c 1)
def acc1c (c : Dev nD) : FVec F S32x512 .f32 := k0_pay31 (wo m c) (num1 m c) (inv1 m c) (acc1a m c) (acc1b m c)
def fS1 (c : Dev nD) : FVec F S1x32x512 .bf16 := k0_pay35 (wo m c) (acc1c m c) (k0_pay32 (num1 m c)) (k0_pay33 (inv1 m c))
def own1 (c : Dev nD) : FVec F S1x32x512 .f32 := k0_pay36 (wo m c) (acc1c m c) (k0_pay32 (num1 m c)) (k0_pay33 (inv1 m c))
end Batch1

def fS (c : Dev nD) : Fin 2 → FVec F S1x32x512 .bf16 | ⟨0, _⟩ => fS0 m c | ⟨_ + 1, _⟩ => fS1 m c
def own (c : Dev nD) : Fin 2 → FVec F S1x32x512 .f32 | ⟨0, _⟩ => own0 m c | ⟨_ + 1, _⟩ => own1 m c

def fBlk (c : Dev nD) (b : Fin 2) : Vec F S32x512 .bf16 := fun i => fS m c b (ix3 0 (i 0) (i 1))
def fBlk1 (c : Dev nD) (b : Fin 2) : Vec F S1x1x32x512 .bf16 := fun i => fS m c b (ix3 0 (i 2) (i 3))

def rcv (c : Dev nD) : (s : Fin 3) → (b : Fin 2) → FVec F S1x32x512 .f32
  | ⟨0, _⟩, ⟨0, _⟩ => k0_pay37 (fBlk1 m (pl c 1) 0)
  | ⟨1, _⟩, ⟨0, _⟩ => k0_pay38 (fBlk1 m (pl c 2) 0)
  | ⟨_ + 2, _⟩, ⟨0, _⟩ => k0_pay39 (fBlk1 m (pl c 3) 0)
  | ⟨0, _⟩, ⟨_ + 1, _⟩ => k0_pay40 (fBlk1 m (pl c 1) 1)
  | ⟨1, _⟩, ⟨_ + 1, _⟩ => k0_pay41 (fBlk1 m (pl c 2) 1)
  | ⟨_ + 2, _⟩, ⟨_ + 1, _⟩ => k0_pay42 (fBlk1 m (pl c 3) 1)

def outVal (c : Dev nD) : Vec F S2x128x512 .f32 := fun i =>
  let b : Fin 2 := i 0
  let r : ℕ := (i 1).val / 32
  let j : Fin 32 := ⟨(i 1).val % 32, Nat.mod_lt _ (by decide)⟩
  if r = c.val then own m c b (ix3 0 j (i 2))
  else if r = (c.val + 1) % 4 then rcv m c 0 b (ix3 0 j (i 2))
  else if r = (c.val + 2) % 4 then rcv m c 1 b (ix3 0 j (i 2))
  else rcv m c 2 b (ix3 0 j (i 2))

end Cert.KernelIdeal.KV

end
-- ==== Proof.KerValueA1.lean ====
-- Reshapes, transposes, the three matrix products and the lane sum of the body, each read at an index.
import proofs.«900757_g7700000000000758_dist_attn_cross_mha_kvseq_b2_sq128_skv128_d512_hq8_dh64_v7x_i4_f32_1_alg».proof.Proof.Gen.KernelIdeal
import Idealize.ShloMosaic.Lib.ValueIdx
import Idealize.ShloMosaic.Lib.ValueLayout
import Idealize.ShloMosaic.Lib.Pipeline.Value
import Idealize.ShloMosaic.PureOps.Ideal.Laws

noncomputable section

namespace Cert.KerValue

open Idealize.ShloMosaic Idealize.SL.Sem Idealize.ShloMosaic.ValueIdx
open Cert.KernelIdeal

section Layout
variable {α : Type}

theorem cast_2x128x512_256x512 (x : S2x128x512.Idx → α) (h : S2x128x512.ShapeCasts S256x512)
    (r : Fin 256) (k : Fin 512) (b : Fin 2) (i : Fin 128) (hr : r.val = b.val * 128 + i.val) :
    shapeCast S256x512 x h (ix2 r k) = x (ix3 b i k) :=
  shapeCast_apply x h _ _ (by
    rw [Shape.rowMajor_val_three, Shape.rowMajor_val_two]
    show (b.val * 128 + i.val) * 512 + k.val = r.val * 512 + k.val
    rw [hr])

theorem cast_1x128x8x64_128x8x64 (x : S1x128x8x64.Idx → α) (h : S1x128x8x64.ShapeCasts S128x8x64)
    (j : Fin 128) (hh : Fin 8) (d : Fin 64) :
    shapeCast S128x8x64 x h (ix3 j hh d) = x (ix4 (0 : Fin 1) j hh d) :=
  shapeCast_1abc_abc_apply x h j hh d

theorem cast_128x512_128x8x64 (x : S128x512.Idx → α) (h : S128x512.ShapeCasts S128x8x64)
    (i : Fin 128) (hh : Fin 8) (d : Fin 64) (n : Fin 512) (hn : n.val = hh.val * 64 + d.val) :
    shapeCast S128x8x64 x h (ix3 i hh d) = x (ix2 i n) :=
  shapeCast_apply x h _ _ (by
    rw [Shape.rowMajor_val_three, Shape.rowMajor_val_two]
    show i.val * 512 + n.val = (i.val * 8 + hh.val) * 64 + d.val
    rw [hn]; ring)

theorem cast_8x128x64_8x4x32x64 (x : S8x128x64.Idx → α) (h : S8x128x64.ShapeCasts S8x4x32x64)
    (hh : Fin 8) (t : Fin 4) (i : Fin 32) (d : Fin 64) (r : Fin 128) (hr : r.val = t.val * 32 + i.val) :
    shapeCast S8x4x32x64 x h (ix4 hh t i d) = x (ix3 hh r d) :=
  shapeCast_apply x h _ _ (by
    rw [Shape.rowMajor_val_three, Shape.rowMajor_val_four]
    show (hh.val * 128 + r.val) * 64 + d.val = ((hh.val * 4 + t.val) * 32 + i.val) * 64 + d.val
    rw [hr]; ring)

theorem cast_4x8x32x64_4x1x8x32x64 (x : S4x8x32x64.Idx → α) (h : S4x8x32x64.ShapeCasts S4x1x8x32x64)
    (t : Fin 4) (u : Fin 1) (hh : Fin 8) (i : Fin 32) (d : Fin 64) :
    shapeCast S4x1x8x32x64 x h (ix5 t u hh i d) = x (ix4 t hh i d) :=
  shapeCast_apply x h _ _ (by
    have hu : u.val = 0 := by omega
    rw [Shape.rowMajor_val_four, Shape.rowMajor_val_five]
    show ((t.val * 8 + hh.val) * 32 + i.val) * 64 + d.val = (((t.val * 1 + u.val) * 8 + hh.val) * 32 + i.val) * 64 + d.val
    rw [hu, Nat.mul_one, Nat.add_zero])

theorem cast_8x128_8x4x32 (x : S8x128.Idx → α) (h : S8x128.ShapeCasts S8x4x32)
    (hh : Fin 8) (t : Fin 4) (i : Fin 32) (r : Fin 128) (hr : r.val = t.val * 32 + i.val) :
    shapeCast S8x4x32 x h (ix3 hh t i) = x (ix2 hh r) :=
  shapeCast_apply x h _ _ (by
    rw [Shape.rowMajor_val_two, Shape.rowMajor_val_three]
    show hh.val * 128 + r.val = (hh.val * 4 + t.val) * 32 + i.val
    rw [hr]; ring)

theorem cast_4x8x32_4x1x8x32 (x : S4x8x32.Idx → α) (h : S4x8x32.ShapeCasts S4x1x8x32)
    (t : Fin 4) (u : Fin 1) (hh : Fin 8) (i : Fin 32) :
    shapeCast S4x1x8x32 x h (ix4 t u hh i) = x (ix3 t hh i) :=
  shapeCast_apply x h _ _ (by
    have hu : u.val = 0 := by omega
    rw [Shape.rowMajor_val_three, Shape.rowMajor_val_four]
    show (t.val * 8 + hh.val) * 32 + i.val = ((t.val * 1 + u.val) * 8 + hh.val) * 32 + i.val
    rw [hu, Nat.mul_one, Nat.add_zero])

theorem transpose_102_apply {a b c : ℕ} (x : (⟨3, ![a, b, c]⟩ : Shape).Idx → α)
    (h : (⟨3, ![a, b, c]⟩ : Shape).Transposes [1, 0, 2] ⟨3, ![b, a, c]⟩) (p : Fin b) (q : Fin a) (r : Fin c) :
    transpose ⟨3, ![b, a, c]⟩ [1, 0, 2] x h (ix3 p q r) = x (ix3 q p r) :=
  transpose_apply _ x h _ _ fun e => match e with | ⟨0, _⟩ => rfl | ⟨1, _⟩ => rfl | ⟨2, _⟩ => rfl

theorem transpose_1023_apply {a b c d : ℕ} (x : (⟨4, ![a, b, c, d]⟩ : Shape).Idx → α)
    (h : (⟨4, ![a, b, c, d]⟩ : Shape).Transposes [1, 0, 2, 3] ⟨4, ![b, a, c, d]⟩) (p : Fin b) (q : Fin a) (r : Fin c) (s : Fin d) :
    transpose ⟨4, ![b, a, c, d]⟩ [1, 0, 2, 3] x h (ix4 p q r s) = x (ix4 q p r s) :=
  transpose_apply _ x h _ _ fun e => match e with | ⟨0, _⟩ => rfl | ⟨1, _⟩ => rfl | ⟨2, _⟩ => rfl | ⟨3, _⟩ => rfl

end Layout

section Products

theorem lhs_q_0 (i : S256x512.Idx) (q : dot_S256x512_S512x512_S256x512_1_0_0_1_n_n.contr.Idx) :
    (dot_S256x512_S512x512_S256x512_1_0_0_1_n_n.lhsIdx i q 0).val = (i 0).val := by
  unfold DotDims.lhsIdx
  rw [dif_neg (show ¬(0 : Fin S256x512.rank) ∈ dot_S256x512_S512x512_S256x512_1_0_0_1_n_n.lhsBatch by decide), dif_pos (show (0 : Fin S256x512.rank) ∈ dot_S256x512_S512x512_S256x512_1_0_0_1_n_n.lhsNonContracting by decide)]
  rfl
theorem lhs_q_1 (i : S256x512.Idx) (q : dot_S256x512_S512x512_S256x512_1_0_0_1_n_n.contr.Idx) :
    (dot_S256x512_S512x512_S256x512_1_0_0_1_n_n.lhsIdx i q 1).val = (q ⟨0, by decide⟩).val :=
  dot_S256x512_S512x512_S256x512_1_0_0_1_n_n.lhsIdx_val_of_single rfl i q
theorem rhs_q_0 (i : S256x512.Idx) (q : dot_S256x512_S512x512_S256x512_1_0_0_1_n_n.contr.Idx) :
    (dot_S256x512_S512x512_S256x512_1_0_0_1_n_n.rhsIdx i q 0).val = (q ⟨0, by decide⟩).val :=
  dot_S256x512_S512x512_S256x512_1_0_0_1_n_n.rhsIdx_val_of_single rfl i q
theorem rhs_q_1 (i : S256x512.Idx) (q : dot_S256x512_S512x512_S256x512_1_0_0_1_n_n.contr.Idx) :
    (dot_S256x512_S512x512_S256x512_1_0_0_1_n_n.rhsIdx i q 1).val = (i 1).val := by
  unfold DotDims.rhsIdx
  rw [dif_neg (show ¬(1 : Fin S512x512.rank) ∈ dot_S256x512_S512x512_S256x512_1_0_0_1_n_n.rhsBatch by decide), dif_pos (show (1 : Fin S512x512.rank) ∈ dot_S256x512_S512x512_S256x512_1_0_0_1_n_n.rhsNonContracting by decide)]
  rfl

theorem matmul_q_apply (A : FVec Ideal S256x512 .f32) (B : FVec Ideal S512x512 .f32) (r : Fin 256) (n : Fin 512) :
    matmul dot_S256x512_S512x512_S256x512_1_0_0_1_n_n none A B (constant (F := Ideal) S256x512 .f32 0x00000000#32) (ix2 r n)
      = ∑ k : Fin 512, A (ix2 r k) * B (ix2 k n) := by
  simp only [matmul]
  rw [Ideal.matmul_constant_zero_apply, ← Equiv.sum_comp (contrEquiv1 dot_S256x512_S512x512_S256x512_1_0_0_1_n_n 512 rfl rfl).symm]
  refine Finset.sum_congr rfl fun k _ => ?_
  have hk := contrEquiv1_symm_val dot_S256x512_S512x512_S256x512_1_0_0_1_n_n 512 rfl rfl k
  have el : dot_S256x512_S512x512_S256x512_1_0_0_1_n_n.lhsIdx (ix2 r n) ((contrEquiv1 dot_S256x512_S512x512_S256x512_1_0_0_1_n_n 512 rfl rfl).symm k) = ix2 r k := funext fun a => Fin.ext (by
    match a with
    | ⟨0, _⟩ => exact lhs_q_0 _ _
    | ⟨1, _⟩ => exact (lhs_q_1 _ _).trans hk)
  have er : dot_S256x512_S512x512_S256x512_1_0_0_1_n_n.rhsIdx (ix2 r n) ((contrEquiv1 dot_S256x512_S512x512_S256x512_1_0_0_1_n_n 512 rfl rfl).symm k) = ix2 k n := funext fun a => Fin.ext (by
    match a with
    | ⟨0, _⟩ => exact (rhs_q_0 _ _).trans hk
    | ⟨1, _⟩ => exact rhs_q_1 _ _)
  rw [el, er]

theorem lhs_s_0 (i : S8x128x128.Idx) (q : dot_S8x128x64_S8x128x64_S8x128x128_2_2_1_1_0_0.contr.Idx) :
    (dot_S8x128x64_S8x128x64_S8x128x128_2_2_1_1_0_0.lhsIdx i q 0).val = (i 0).val := by
  unfold DotDims.lhsIdx
  rw [dif_pos (show (0 : Fin S8x128x64.rank) ∈ dot_S8x128x64_S8x128x64_S8x128x128_2_2_1_1_0_0.lhsBatch by decide)]
  rfl
theorem lhs_s_1 (i : S8x128x128.Idx) (q : dot_S8x128x64_S8x128x64_S8x128x128_2_2_1_1_0_0.contr.Idx) :
    (dot_S8x128x64_S8x128x64_S8x128x128_2_2_1_1_0_0.lhsIdx i q 1).val = (i 1).val := by
  unfold DotDims.lhsIdx
  rw [dif_neg (show ¬(1 : Fin S8x128x64.rank) ∈ dot_S8x128x64_S8x128x64_S8x128x128_2_2_1_1_0_0.lhsBatch by decide), dif_pos (show (1 : Fin S8x128x64.rank) ∈ dot_S8x128x64_S8x128x64_S8x128x128_2_2_1_1_0_0.lhsNonContracting by decide)]
  rfl
theorem lhs_s_2 (i : S8x128x128.Idx) (q : dot_S8x128x64_S8x128x64_S8x128x128_2_2_1_1_0_0.contr.Idx) :
    (dot_S8x128x64_S8x128x64_S8x128x128_2_2_1_1_0_0.lhsIdx i q 2).val = (q ⟨0, by decide⟩).val :=
  dot_S8x128x64_S8x128x64_S8x128x128_2_2_1_1_0_0.lhsIdx_val_of_single rfl i q
theorem rhs_s_0 (i : S8x128x128.Idx) (q : dot_S8x128x64_S8x128x64_S8x128x128_2_2_1_1_0_0.contr.Idx) :
    (dot_S8x128x64_S8x128x64_S8x128x128_2_2_1_1_0_0.rhsIdx i q 0).val = (i 0).val := by
  unfold DotDims.rhsIdx
  rw [dif_pos (show (0 : Fin S8x128x64.rank) ∈ dot_S8x128x64_S8x128x64_S8x128x128_2_2_1_1_0_0.rhsBatch by decide)]
  rfl
theorem rhs_s_1 (i : S8x128x128.Idx) (q : dot_S8x128x64_S8x128x64_S8x128x128_2_2_1_1_0_0.contr.Idx) :
    (dot_S8x128x64_S8x128x64_S8x128x128_2_2_1_1_0_0.rhsIdx i q 1).val = (i 2).val := by
  unfold DotDims.rhsIdx
  rw [dif_neg (show ¬(1 : Fin S8x128x64.rank) ∈ dot_S8x128x64_S8x128x64_S8x128x128_2_2_1_1_0_0.rhsBatch by decide), dif_pos (show (1 : Fin S8x128x64.rank) ∈ dot_S8x128x64_S8x128x64_S8x128x128_2_2_1_1_0_0.rhsNonContracting by decide)]
  rfl
theorem rhs_s_2 (i : S8x128x128.Idx) (q : dot_S8x128x64_S8x128x64_S8x128x128_2_2_1_1_0_0.contr.Idx) :
    (dot_S8x128x64_S8x128x64_S8x128x128_2_2_1_1_0_0.rhsIdx i q 2).val = (q ⟨0, by decide⟩).val :=
  dot_S8x128x64_S8x128x64_S8x128x128_2_2_1_1_0_0.rhsIdx_val_of_single rfl i q

theorem matmul_s_apply (A B : FVec Ideal S8x128x64 .f32) (h : Fin 8) (i j : Fin 128) :
    matmul dot_S8x128x64_S8x128x64_S8x128x128_2_2_1_1_0_0 none A B (constant (F := Ideal) S8x128x128 .f32 0x00000000#32) (ix3 h i j)
      = ∑ d : Fin 64, A (ix3 h i d) * B (ix3 h j d) := by
  simp only [matmul]
  rw [Ideal.matmul_constant_zero_apply, ← Equiv.sum_comp (contrEquiv1 dot_S8x128x64_S8x128x64_S8x128x128_2_2_1_1_0_0 64 rfl rfl).symm]
  refine Finset.sum_congr rfl fun k _ => ?_
  have hk := contrEquiv1_symm_val dot_S8x128x64_S8x128x64_S8x128x128_2_2_1_1_0_0 64 rfl rfl k
  have el : dot_S8x128x64_S8x128x64_S8x128x128_2_2_1_1_0_0.lhsIdx (ix3 h i j) ((contrEquiv1 dot_S8x128x64_S8x128x64_S8x128x128_2_2_1_1_0_0 64 rfl rfl).symm k) = ix3 h i k := funext fun a => Fin.ext (by
    match a with
    | ⟨0, _⟩ => exact lhs_s_0 _ _
    | ⟨1, _⟩ => exact lhs_s_1 _ _
    | ⟨2, _⟩ => exact (lhs_s_2 _ _).trans hk)
  have er : dot_S8x128x64_S8x128x64_S8x128x128_2_2_1_1_0_0.rhsIdx (ix3 h i j) ((contrEquiv1 dot_S8x128x64_S8x128x64_S8x128x128_2_2_1_1_0_0 64 rfl rfl).symm k) = ix3 h j k := funext fun a => Fin.ext (by
    match a with
    | ⟨0, _⟩ => exact rhs_s_0 _ _
    | ⟨1, _⟩ => exact rhs_s_1 _ _
    | ⟨2, _⟩ => exact (rhs_s_2 _ _).trans hk)
  rw [el, er]

theorem lhs_o_0 (i : S8x128x64.Idx) (q : dot_S8x128x128_S8x128x64_S8x128x64_2_1_1_2_0_0.contr.Idx) :
    (dot_S8x128x128_S8x128x64_S8x128x64_2_1_1_2_0_0.lhsIdx i q 0).val = (i 0).val := by
  unfold DotDims.lhsIdx
  rw [dif_pos (show (0 : Fin S8x128x128.rank) ∈ dot_S8x128x128_S8x128x64_S8x128x64_2_1_1_2_0_0.lhsBatch by decide)]
  rfl
theorem lhs_o_1 (i : S8x128x64.Idx) (q : dot_S8x128x128_S8x128x64_S8x128x64_2_1_1_2_0_0.contr.Idx) :
    (dot_S8x128x128_S8x128x64_S8x128x64_2_1_1_2_0_0.lhsIdx i q 1).val = (i 1).val := by
  unfold DotDims.lhsIdx
  rw [dif_neg (show ¬(1 : Fin S8x128x128.rank) ∈ dot_S8x128x128_S8x128x64_S8x128x64_2_1_1_2_0_0.lhsBatch by decide), dif_pos (show (1 : Fin S8x128x128.rank) ∈ dot_S8x128x128_S8x128x64_S8x128x64_2_1_1_2_0_0.lhsNonContracting by decide)]
  rfl
theorem lhs_o_2 (i : S8x128x64.Idx) (q : dot_S8x128x128_S8x128x64_S8x128x64_2_1_1_2_0_0.contr.Idx) :
    (dot_S8x128x128_S8x128x64_S8x128x64_2_1_1_2_0_0.lhsIdx i q 2).val = (q ⟨0, by decide⟩).val :=
  dot_S8x128x128_S8x128x64_S8x128x64_2_1_1_2_0_0.lhsIdx_val_of_single rfl i q
theorem rhs_o_0 (i : S8x128x64.Idx) (q : dot_S8x128x128_S8x128x64_S8x128x64_2_1_1_2_0_0.contr.Idx) :
    (dot_S8x128x128_S8x128x64_S8x128x64_2_1_1_2_0_0.rhsIdx i q 0).val = (i 0).val := by
  unfold DotDims.rhsIdx
  rw [dif_pos (show (0 : Fin S8x128x64.rank) ∈ dot_S8x128x128_S8x128x64_S8x128x64_2_1_1_2_0_0.rhsBatch by decide)]
  rfl
theorem rhs_o_1 (i : S8x128x64.Idx) (q : dot_S8x128x128_S8x128x64_S8x128x64_2_1_1_2_0_0.contr.Idx) :
    (dot_S8x128x128_S8x128x64_S8x128x64_2_1_1_2_0_0.rhsIdx i q 1).val = (q ⟨0, by decide⟩).val :=
  dot_S8x128x128_S8x128x64_S8x128x64_2_1_1_2_0_0.rhsIdx_val_of_single rfl i q
theorem rhs_o_2 (i : S8x128x64.Idx) (q : dot_S8x128x128_S8x128x64_S8x128x64_2_1_1_2_0_0.contr.Idx) :
    (dot_S8x128x128_S8x128x64_S8x128x64_2_1_1_2_0_0.rhsIdx i q 2).val = (i 2).val := by
  unfold DotDims.rhsIdx
  rw [dif_neg (show ¬(2 : Fin S8x128x64.rank) ∈ dot_S8x128x128_S8x128x64_S8x128x64_2_1_1_2_0_0.rhsBatch by decide), dif_pos (show (2 : Fin S8x128x64.rank) ∈ dot_S8x128x128_S8x128x64_S8x128x64_2_1_1_2_0_0.rhsNonContracting by decide)]
  rfl

theorem matmul_o_apply (A : FVec Ideal S8x128x128 .f32) (B : FVec Ideal S8x128x64 .f32) (h : Fin 8) (i : Fin 128) (d : Fin 64) :
    matmul dot_S8x128x128_S8x128x64_S8x128x64_2_1_1_2_0_0 none A B (constant (F := Ideal) S8x128x64 .f32 0x00000000#32) (ix3 h i d)
      = ∑ j : Fin 128, A (ix3 h i j) * B (ix3 h j d) := by
  simp only [matmul]
  rw [Ideal.matmul_constant_zero_apply, ← Equiv.sum_comp (contrEquiv1 dot_S8x128x128_S8x128x64_S8x128x64_2_1_1_2_0_0 128 rfl rfl).symm]
  refine Finset.sum_congr rfl fun k _ => ?_
  have hk := contrEquiv1_symm_val dot_S8x128x128_S8x128x64_S8x128x64_2_1_1_2_0_0 128 rfl rfl k
  have el : dot_S8x128x128_S8x128x64_S8x128x64_2_1_1_2_0_0.lhsIdx (ix3 h i d) ((contrEquiv1 dot_S8x128x128_S8x128x64_S8x128x64_2_1_1_2_0_0 128 rfl rfl).symm k) = ix3 h i k := funext fun a => Fin.ext (by
    match a with
    | ⟨0, _⟩ => exact lhs_o_0 _ _
    | ⟨1, _⟩ => exact lhs_o_1 _ _
    | ⟨2, _⟩ => exact (lhs_o_2 _ _).trans hk)
  have er : dot_S8x128x128_S8x128x64_S8x128x64_2_1_1_2_0_0.rhsIdx (ix3 h i d) ((contrEquiv1 dot_S8x128x128_S8x128x64_S8x128x64_2_1_1_2_0_0 128 rfl rfl).symm k) = ix3 h k d := funext fun a => Fin.ext (by
    match a with
    | ⟨0, _⟩ => exact rhs_o_0 _ _
    | ⟨1, _⟩ => exact (rhs_o_1 _ _).trans hk
    | ⟨2, _⟩ => exact rhs_o_2 _ _)
  rw [el, er]

theorem sum_last_apply (A : FVec Ideal S8x128x128 .f32) (hr : S8x128x128.Reduces [2] S8x128) (hφ : FKind.Formats .f32)
    (hacc : (0x00000000#32 : BitVec 32) = 0x00000000#32) (h : Fin 8) (i : Fin 128) :
    multiReduction (F := Ideal) .add [2] S8x128 A 0x00000000#32 hr hφ hacc (ix2 h i) = ∑ j : Fin 128, A (ix3 h i j) :=
  (Ideal.multiReduction_add_single A 0x00000000#32 hr hφ hacc (ix2 h i)).trans
    (Finset.sum_congr rfl fun j _ => congrArg A (funext fun a => Fin.ext (by
      match a with
      | ⟨0, _⟩ => rfl
      | ⟨1, _⟩ => rfl
      | ⟨2, _⟩ => rfl)))

end Products

end Cert.KerValue

end
-- ==== Proof.KerValueA2.lean ====
-- The body's arithmetic up to the partial sums, read at an index.
import proofs.«900757_g7700000000000758_dist_attn_cross_mha_kvseq_b2_sq128_skv128_d512_hq8_dh64_v7x_i4_f32_1_alg».proof.Proof.KV
import proofs.«900757_g7700000000000758_dist_attn_cross_mha_kvseq_b2_sq128_skv128_d512_hq8_dh64_v7x_i4_f32_1_alg».proof.Proof.KerValueA1
import proofs.«900757_g7700000000000758_dist_attn_cross_mha_kvseq_b2_sq128_skv128_d512_hq8_dh64_v7x_i4_f32_1_alg».proof.Proof.Spec

noncomputable section

namespace Cert.KerValue

open Idealize.ShloMosaic Idealize.SL.Sem Idealize.ShloMosaic.ValueIdx
open Cert.KernelIdeal Cert.KernelIdeal.Gen

theorem exp_apply {s : Shape} {φ : FTy} (a : FVec Ideal s φ) (i : s.Idx) : exp a i = Ideal.exp (a i) := rfl

theorem pay1_apply (w : Vec Ideal S512x512 .f32) (x : Vec Ideal S2x128x512 .f32) (r : Fin 256) (n : Fin 512)
    (b : Fin 2) (i : Fin 128) (hr : r.val = b.val * 128 + i.val) :
    k0_pay1 (F := Ideal) w x (ix2 r n) = ∑ k : Fin 512, x (ix3 b i k) * w (ix2 k n) := by
  unfold k0_pay1
  rw [matmul_q_apply]
  refine Finset.sum_congr rfl fun k _ => ?_
  rw [cast_2x128x512_256x512 _ _ r k b i hr, shapeCast_self, shapeCast_self]

theorem pay2_apply (v : Vec Ideal S1x128x8x64 .f32) (h : Fin 8) (j : Fin 128) (d : Fin 64) :
    k0_pay2 (F := Ideal) v (ix3 h j d) = v (ix4 (0 : Fin 1) j h d) := by
  unfold k0_pay2
  dsimp only
  rw [transpose_102_apply, cast_1x128x8x64_128x8x64]

theorem pay6_apply (v : Vec Ideal S1x128x8x64 .f32) (h : Fin 8) (j : Fin 128) (d : Fin 64) :
    k0_pay6 (F := Ideal) v (ix3 h j d) = v (ix4 (0 : Fin 1) j h d) :=
  pay2_apply v h j d

theorem qhead_apply (o : ℕ) (q : FVec Ideal S256x512 .f32) (hs : S256x512.Slices ![o, 0] S128x512) (hc : S128x512.ShapeCasts S128x8x64)
    (ht : S128x8x64.Transposes [1, 0, 2] S8x128x64) (h : Fin 8) (i : Fin 128) (d : Fin 64) (r : Fin 256) (hr : r.val = o + i.val) :
    transpose S8x128x64 [1, 0, 2] (shapeCast S128x8x64 (extractStridedSlice S128x512 ![o, 0] q hs) hc) ht (ix3 h i d)
      = q (ix2 r (Cert.Spec.col h d)) := by
  rw [transpose_102_apply, cast_128x512_128x8x64 _ _ i h d (Cert.Spec.col h d) rfl,
    slice2_axis0_apply o q hs i (Cert.Spec.col h d) r hr]

theorem pay3_apply (q : FVec Ideal S256x512 .f32) (k : FVec Ideal S8x128x64 .f32) (h : Fin 8) (i j : Fin 128)
    (r : Fin 256) (hr : r.val = i.val) :
    k0_pay3 (F := Ideal) q k (ix3 h i j)
      = Ideal.exp ((∑ d : Fin 64, q (ix2 r (Cert.Spec.col h d)) * k (ix3 h j d)) * Cert.Spec.scl) := by
  unfold k0_pay3
  dsimp only
  rw [exp_apply, mulf_apply, broadcast_apply, matmul_s_apply]
  refine congrArg Ideal.exp (congrArg (fun t => t * Cert.Spec.scl) (Finset.sum_congr rfl fun d _ => ?_))
  rw [qhead_apply 0 q _ _ _ h i d r (by rw [hr, Nat.zero_add])]

theorem pay7_apply (q : FVec Ideal S256x512 .f32) (k : Vec Ideal S1x128x8x64 .f32) (h : Fin 8) (i j : Fin 128)
    (r : Fin 256) (hr : r.val = 128 + i.val) :
    k0_pay7 (F := Ideal) q k (ix3 h i j)
      = Ideal.exp ((∑ d : Fin 64, q (ix2 r (Cert.Spec.col h d)) * k (ix4 (0 : Fin 1) j h d)) * Cert.Spec.scl) := by
  unfold k0_pay7
  dsimp only
  rw [exp_apply, mulf_apply, broadcast_apply, matmul_s_apply]
  refine congrArg Ideal.exp (congrArg (fun t => t * Cert.Spec.scl) (Finset.sum_congr rfl fun d _ => ?_))
  rw [qhead_apply 128 q _ _ _ h i d r hr, transpose_102_apply, cast_1x128x8x64_128x8x64]

theorem regroup_o_apply (o : FVec Ideal S8x128x64 .f32) (hc : S8x128x64.ShapeCasts S8x4x32x64)
    (ht : S8x4x32x64.Transposes [1, 0, 2, 3] S4x8x32x64) (hb : FTy.bits .bf16 < FTy.bits .f32)
    (hc' : S4x8x32x64.ShapeCasts S4x1x8x32x64) (t : Fin 4) (u : Fin 1) (h : Fin 8) (i : Fin 32) (d : Fin 64)
    (r : Fin 128) (hr : r.val = t.val * 32 + i.val) :
    shapeCast S4x1x8x32x64 (truncf .bf16 (transpose S4x8x32x64 [1, 0, 2, 3] (shapeCast S8x4x32x64 o hc) ht) hb) hc' (ix5 t u h i d)
      = o (ix3 h r d) := by
  rw [cast_4x8x32x64_4x1x8x32x64, truncf_apply, transpose_1023_apply, cast_8x128x64_8x4x32x64 _ _ h t i d r hr]

theorem regroup_l_apply (l : FVec Ideal S8x128 .f32) (hc : S8x128.ShapeCasts S8x4x32)
    (ht : S8x4x32.Transposes [1, 0, 2] S4x8x32) (hc' : S4x8x32.ShapeCasts S4x1x8x32)
    (t : Fin 4) (u : Fin 1) (h : Fin 8) (i : Fin 32) (r : Fin 128) (hr : r.val = t.val * 32 + i.val) :
    shapeCast S4x1x8x32 (transpose S4x8x32 [1, 0, 2] (shapeCast S8x4x32 l hc) ht) hc' (ix4 t u h i)
      = l (ix2 h r) := by
  rw [cast_4x8x32_4x1x8x32, transpose_102_apply, cast_8x128_8x4x32 _ _ h t i r hr]

theorem pay4_apply (q : FVec Ideal S256x512 .f32) (k : FVec Ideal S8x128x64 .f32) (v : Vec Ideal S1x128x8x64 .f32)
    (t : Fin 4) (u : Fin 1) (h : Fin 8) (i : Fin 32) (d : Fin 64) (r : Fin 128) (hr : r.val = t.val * 32 + i.val) :
    k0_pay4 (F := Ideal) q k v (ix5 t u h i d)
      = ∑ j : Fin 128, k0_pay3 (F := Ideal) q k (ix3 h r j) * v (ix4 (0 : Fin 1) j h d) := by
  unfold k0_pay4
  dsimp only
  rw [regroup_o_apply _ _ _ _ _ t u h i d r hr, matmul_o_apply]
  refine Finset.sum_congr rfl fun j _ => ?_
  rw [transpose_102_apply, cast_1x128x8x64_128x8x64]

theorem pay5_apply (q : FVec Ideal S256x512 .f32) (k : FVec Ideal S8x128x64 .f32)
    (t : Fin 4) (u : Fin 1) (h : Fin 8) (i : Fin 32) (r : Fin 128) (hr : r.val = t.val * 32 + i.val) :
    k0_pay5 (F := Ideal) q k (ix4 t u h i) = ∑ j : Fin 128, k0_pay3 (F := Ideal) q k (ix3 h r j) := by
  unfold k0_pay5
  dsimp only
  rw [regroup_l_apply _ _ _ _ t u h i r hr]
  exact sum_last_apply _ _ _ _ h r

theorem pay8_apply (q : FVec Ideal S256x512 .f32) (k : Vec Ideal S1x128x8x64 .f32) (h : Fin 8) (i : Fin 128) :
    k0_pay8 (F := Ideal) q k (ix2 h i) = ∑ j : Fin 128, k0_pay7 (F := Ideal) q k (ix3 h i j) := by
  unfold k0_pay8
  exact sum_last_apply _ _ _ _ h i

theorem pay9_apply (v : FVec Ideal S8x128x64 .f32) (p : FVec Ideal S8x128x128 .f32)
    (t : Fin 4) (u : Fin 1) (h : Fin 8) (i : Fin 32) (d : Fin 64) (r : Fin 128) (hr : r.val = t.val * 32 + i.val) :
    k0_pay9 (F := Ideal) v p (ix5 t u h i d) = ∑ j : Fin 128, p (ix3 h r j) * v (ix3 h j d) := by
  unfold k0_pay9
  dsimp only
  rw [regroup_o_apply _ _ _ _ _ t u h i d r hr, matmul_o_apply]

theorem pay10_apply (l : FVec Ideal S8x128 .f32)
    (t : Fin 4) (u : Fin 1) (h : Fin 8) (i : Fin 32) (r : Fin 128) (hr : r.val = t.val * 32 + i.val) :
    k0_pay10 (F := Ideal) l (ix4 t u h i) = l (ix2 h r) := by
  unfold k0_pay10
  dsimp only
  rw [regroup_l_apply _ _ _ _ t u h i r hr]

end Cert.KerValue

end
-- ==== Proof.KerValueA.lean ====
-- A device's partial numerators and denominators are those of the four-device form, index by index.
import proofs.«900757_g7700000000000758_dist_attn_cross_mha_kvseq_b2_sq128_skv128_d512_hq8_dh64_v7x_i4_f32_1_alg».proof.Proof.KerValueA2

noncomputable section

namespace Cert.KerValue

open Idealize.ShloMosaic Idealize.SL.Sem Idealize.ShloMosaic.ValueIdx Idealize.ShloMosaic.TcCoe
open Cert.KernelIdeal Cert.KernelIdeal.Gen

abbrev aX (m : (ℓ : Loc nD τ sig) → Buf (Elt Ideal) ℓ) (c : Dev nD) : Cert.Spec.SX.Idx → EReal := m ((c : Thread nD τ).loc main_arg0)
abbrev aWq (m : (ℓ : Loc nD τ sig) → Buf (Elt Ideal) ℓ) (c : Dev nD) : Cert.Spec.SW.Idx → EReal := m ((c : Thread nD τ).loc main_arg1)
abbrev aWo (m : (ℓ : Loc nD τ sig) → Buf (Elt Ideal) ℓ) (c : Dev nD) : Cert.Spec.SW.Idx → EReal := m ((c : Thread nD τ).loc main_arg2)
abbrev aK (m : (ℓ : Loc nD τ sig) → Buf (Elt Ideal) ℓ) (c : Dev nD) : Cert.Spec.SKVb.Idx → EReal := m ((c : Thread nD τ).loc main_arg3)
abbrev aV (m : (ℓ : Loc nD τ sig) → Buf (Elt Ideal) ℓ) (c : Dev nD) : Cert.Spec.SKVb.Idx → EReal := m ((c : Thread nD τ).loc main_arg4)

def grow (t : Fin 4) (i : Fin 32) : Fin 128 := ⟨t.val * 32 + i.val, by omega⟩

variable (m : (ℓ : Loc nD τ sig) → Buf (Elt Ideal) ℓ) (c : Dev nD)

theorem stg0_eq : KV.stg0 (F := Ideal) m c = aX m c := by
  funext y
  unfold KV.stg0
  rw [View.read_apply]
  exact congrArg (m _) (funext fun a => Fin.ext (win0_0.rect_emb_val_of_index_zero (0 : Fin 1) a rfl y))

theorem stg1_eq : KV.stg1 (F := Ideal) m c = aWq m c := by
  funext y
  unfold KV.stg1
  rw [View.read_apply]
  exact congrArg (m _) (funext fun a => Fin.ext (win0_1.rect_emb_val_of_index_zero (0 : Fin 1) a rfl y))

theorem stg3_eq : KV.stg3 (F := Ideal) m c = aK m c := by
  funext y
  unfold KV.stg3
  rw [View.read_apply]
  exact congrArg (m _) (funext fun a => Fin.ext (win0_3.rect_emb_val_of_index_zero (0 : Fin 1) a rfl y))

theorem stg4_eq : KV.stg4 (F := Ideal) m c = aV m c := by
  funext y
  unfold KV.stg4
  rw [View.read_apply]
  exact congrArg (m _) (funext fun a => Fin.ext (win0_4.rect_emb_val_of_index_zero (0 : Fin 1) a rfl y))

theorem vX_eq : KV.vX (F := Ideal) m c = aX m c := by
  unfold KV.vX
  exact (Memref.readAt_unit_zero (Elt Ideal) cc0_stg0_0 (by funext a; fin_cases a <;> rfl) _ _).trans (stg0_eq m c)

theorem vWq_eq : KV.vWq (F := Ideal) m c = aWq m c := by
  unfold KV.vWq
  exact (Memref.readAt_unit_zero (Elt Ideal) cc0_stg1_0 (by funext a; fin_cases a <;> rfl) _ _).trans (stg1_eq m c)

theorem readAt_batch {sig' : RefSig} {κ : Kind} {sp : Space} (v : View sig' κ sp S2x128x8x64 .f32) (f : v.ty.Contents (Elt Ideal)) (b : Fin 2)
    (off : Fin 4 → ℕ) (hoff : off = ![b.val, 0, 0, 0]) (inb : ∀ a, off a + S1x128x8x64.size a ≤ S2x128x8x64.size a)
    (j : Fin 128) (h : Fin 8) (d : Fin 64) :
    v.readAt (Elt Ideal) (Rect.unit (s := S2x128x8x64) off S1x128x8x64.size inb).toLoadRect f (ix4 (0 : Fin 1) j h d)
      = v.read (Elt Ideal) f (ix4 b j h d) := by
  subst hoff
  rw [View.readAt_apply]
  refine congrArg _ (funext fun a => Fin.ext ?_)
  match a with
  | ⟨0, _⟩ => show b.val + 1 * 0 = b.val; omega
  | ⟨1, _⟩ => show 0 + 1 * j.val = j.val; omega
  | ⟨2, _⟩ => show 0 + 1 * h.val = h.val; omega
  | ⟨3, _⟩ => show 0 + 1 * d.val = d.val; omega

theorem vK0_apply (j : Fin 128) (h : Fin 8) (d : Fin 64) :
    KV.vK0 (F := Ideal) m c (ix4 (0 : Fin 1) j h d) = aK m c (ix4 (0 : Fin 2) j h d) :=
  (readAt_batch _ _ 0 _ rfl _ j h d).trans (congrFun (stg3_eq m c) _)

theorem vK1_apply (j : Fin 128) (h : Fin 8) (d : Fin 64) :
    KV.vK1 (F := Ideal) m c (ix4 (0 : Fin 1) j h d) = aK m c (ix4 (1 : Fin 2) j h d) :=
  (readAt_batch _ _ 1 _ rfl _ j h d).trans (congrFun (stg3_eq m c) _)

theorem vV0_apply (j : Fin 128) (h : Fin 8) (d : Fin 64) :
    KV.vV0 (F := Ideal) m c (ix4 (0 : Fin 1) j h d) = aV m c (ix4 (0 : Fin 2) j h d) :=
  (readAt_batch _ _ 0 _ rfl _ j h d).trans (congrFun (stg4_eq m c) _)

theorem vV1_apply (j : Fin 128) (h : Fin 8) (d : Fin 64) :
    KV.vV1 (F := Ideal) m c (ix4 (0 : Fin 1) j h d) = aV m c (ix4 (1 : Fin 2) j h d) :=
  (readAt_batch _ _ 1 _ rfl _ j h d).trans (congrFun (stg4_eq m c) _)

theorem qAll_apply (r : Fin 256) (b : Fin 2) (i : Fin 128)
    (hr : r.val = b.val * 128 + i.val) (h : Fin 8) (d : Fin 64) :
    KV.qAll (F := Ideal) m c (ix2 r (Cert.Spec.col h d)) = Cert.Spec.q (aX m c) (aWq m c) b i h d := by
  unfold KV.qAll
  rw [pay1_apply _ _ r _ b i hr, vX_eq, vWq_eq]
  rfl

theorem w0_apply (h : Fin 8) (i j : Fin 128) :
    k0_pay3 (F := Ideal) (KV.qAll m c) (k0_pay2 (KV.vK0 m c)) (ix3 h i j)
      = Cert.Spec.wK Cert.Spec.scl (aX m c) (aWq m c) (fun p => aK m p) c 0 h i j := by
  rw [pay3_apply _ _ h i j ⟨i.val, by omega⟩ rfl]
  unfold Cert.Spec.wK Cert.Spec.scoreK
  refine congrArg Ideal.exp (congrArg (fun t => t * Cert.Spec.scl) (Finset.sum_congr rfl fun d _ => ?_))
  rw [qAll_apply m c _ 0 i (by show i.val = 0 * 128 + i.val; omega) h d, pay2_apply, vK0_apply]

theorem w1_apply (h : Fin 8) (i j : Fin 128) :
    k0_pay7 (F := Ideal) (KV.qAll m c) (KV.vK1 m c) (ix3 h i j)
      = Cert.Spec.wK Cert.Spec.scl (aX m c) (aWq m c) (fun p => aK m p) c 1 h i j := by
  rw [pay7_apply _ _ h i j ⟨128 + i.val, by omega⟩ rfl]
  unfold Cert.Spec.wK Cert.Spec.scoreK
  refine congrArg Ideal.exp (congrArg (fun t => t * Cert.Spec.scl) (Finset.sum_congr rfl fun d _ => ?_))
  rw [qAll_apply m c _ 1 i (by show 128 + i.val = 1 * 128 + i.val; omega) h d, vK1_apply]

theorem oS_apply (b : Fin 2) (t : Fin 4) (h : Fin 8) (i : Fin 32) (d : Fin 64) :
    Cert.KernelIdeal.KV.oS (F := Ideal) m c b (ix5 t 0 h i d)
      = Cert.Spec.oK Cert.Spec.scl (aX m c) (aWq m c) (fun p => aK m p) (fun p => aV m p) c b h (grow t i) d := by
  match b with
  | ⟨0, _⟩ =>
    show KV.oS0 (F := Ideal) m c _ = Cert.Spec.oK _ _ _ _ _ c 0 h _ d
    unfold KV.oS0 Cert.Spec.oK
    rw [pay4_apply _ _ _ t 0 h i d (grow t i) rfl]
    refine Finset.sum_congr rfl fun j _ => ?_
    rw [w0_apply, vV0_apply]
  | ⟨1, _⟩ =>
    show KV.oS1 (F := Ideal) m c _ = Cert.Spec.oK _ _ _ _ _ c 1 h _ d
    unfold KV.oS1 Cert.Spec.oK
    rw [pay9_apply _ _ t 0 h i d (grow t i) rfl]
    refine Finset.sum_congr rfl fun j _ => ?_
    rw [w1_apply, pay6_apply, vV1_apply]

theorem lS_apply (b : Fin 2) (t : Fin 4) (h : Fin 8) (i : Fin 32) :
    Cert.KernelIdeal.KV.lS (F := Ideal) m c b (ix4 t 0 h i)
      = Cert.Spec.lK Cert.Spec.scl (aX m c) (aWq m c) (fun p => aK m p) c b h (grow t i) := by
  match b with
  | ⟨0, _⟩ =>
    show KV.lS0 (F := Ideal) m c _ = Cert.Spec.lK _ _ _ _ c 0 h _
    unfold KV.lS0 Cert.Spec.lK
    rw [pay5_apply _ _ t 0 h i (grow t i) rfl]
    exact Finset.sum_congr rfl fun j _ => w0_apply m c h (grow t i) j
  | ⟨1, _⟩ =>
    show KV.lS1 (F := Ideal) m c _ = Cert.Spec.lK _ _ _ _ c 1 h _
    unfold KV.lS1 Cert.Spec.lK
    rw [pay10_apply _ t 0 h i (grow t i) rfl, pay8_apply]
    exact Finset.sum_congr rfl fun j _ => w1_apply m c h (grow t i) j

end Cert.KerValue

end
-- ==== Proof.KerValueB1.lean ====
-- One head's term of the output projection, read at an index.
import proofs.«900757_g7700000000000758_dist_attn_cross_mha_kvseq_b2_sq128_skv128_d512_hq8_dh64_v7x_i4_f32_1_alg».proof.Proof.Gen.KernelIdeal
import proofs.«900757_g7700000000000758_dist_attn_cross_mha_kvseq_b2_sq128_skv128_d512_hq8_dh64_v7x_i4_f32_1_alg».proof.Proof.Spec
import Idealize.ShloMosaic.Lib.ValueLayout
import Idealize.ShloMosaic.Lib.Pipeline.Value
import Idealize.ShloMosaic.PureOps.Ideal.Laws

noncomputable section

namespace Cert.KerValue

open Idealize.ShloMosaic Idealize.ShloMosaic.ValueIdx
open Cert.KernelIdeal
open scoped BigOperators

theorem cast5_apply (v : Vec Ideal S1x1x8x32x64 .bf16) (h : S1x1x8x32x64.ShapeCasts S8x32x64)
    (a : Fin 8) (i : Fin 32) (d : Fin 64) :
    shapeCast S8x32x64 v h (ix3 a i d) = v (ix5 (0 : Fin 1) (0 : Fin 1) a i d) :=
  shapeCast_apply v h _ _ (by
    rw [Shape.rowMajor_val_five, Shape.rowMajor_val_three]
    show ((((0 : ℕ) * 1 + 0) * 8 + a.val) * 32 + i.val) * 64 + d.val = (a.val * 32 + i.val) * 64 + d.val
    omega)

theorem cast4_apply (v : Vec Ideal S1x1x8x32 .f32) (h : S1x1x8x32.ShapeCasts S8x32) (a : Fin 8) (i : Fin 32) :
    shapeCast S8x32 v h (ix2 a i) = v (ix4 (0 : Fin 1) (0 : Fin 1) a i) :=
  shapeCast_apply v h _ _ (by
    rw [Shape.rowMajor_val_four, Shape.rowMajor_val_two]
    show (((0 : ℕ) * 1 + 0) * 8 + a.val) * 32 + i.val = a.val * 32 + i.val
    omega)

theorem headNum_apply (num : FVec Ideal S8x32x64 .f32) (a : ℕ) (ha : a < 8)
    (hs : S8x32x64.Slices ![a, 0, 0] S1x32x64) (hc : S1x32x64.ShapeCasts S32x64) (i : Fin 32) (d : Fin 64) :
    shapeCast S32x64 (extractStridedSlice S1x32x64 ![a, 0, 0] num hs) hc (ix2 i d) = num (ix3 ⟨a, ha⟩ i d) := by
  rw [shapeCast_1ab_ab_apply]
  exact extractStridedSlice_apply _ num hs _ _ (fun ax => match ax with
    | ⟨0, _⟩ => by show a = a + 0; omega
    | ⟨1, _⟩ => by show i.val = 0 + i.val; omega
    | ⟨2, _⟩ => by show d.val = 0 + d.val; omega)

theorem headInv_apply (inv : FVec Ideal S8x32 .f32) (a : ℕ) (ha : a < 8)
    (hs : S8x32.Slices ![a, 0] S1x32) (hc1 : S1x32.ShapeCasts S32) (hc2 : S32.ShapeCasts S32x1)
    (hb : S32x1.Broadcasts S32x64) (i : Fin 32) (d : Fin 64) :
    broadcastTo S32x64 (shapeCast S32x1 (shapeCast S32 (extractStridedSlice S1x32 ![a, 0] inv hs) hc1) hc2) hb (ix2 i d)
      = inv (ix2 ⟨a, ha⟩ i) := by
  refine (broadcastTo_apply _ hb (ix2 i d) (ix2 i (0 : Fin 1)) (fun ax => match ax with
    | ⟨0, _⟩ => rfl
    | ⟨1, _⟩ => rfl)).trans ?_
  refine (shapeCast_apply _ hc2 (ix2 i (0 : Fin 1)) (ix1 i) (by
    rw [Shape.rowMajor_val_one, Shape.rowMajor_val_two]
    show i.val = i.val * 1 + 0
    omega)).trans ?_
  rw [shapeCast_1a_a_apply]
  exact extractStridedSlice_apply _ inv hs _ _ (fun ax => match ax with
    | ⟨0, _⟩ => by show a = a + 0; omega
    | ⟨1, _⟩ => by show i.val = 0 + i.val; omega)

theorem woSlice_apply (wo : FVec Ideal S512x512 .f32) (w : ℕ) (hw : w + 64 ≤ 512)
    (hs : S512x512.Slices ![w, 0] S64x512) (d : Fin 64) (n : Fin 512) :
    extractStridedSlice S64x512 ![w, 0] wo hs (ix2 d n) = wo (ix2 ⟨w + d.val, by omega⟩ n) :=
  extractStridedSlice_apply _ wo hs _ _ (fun ax => match ax with
    | ⟨0, _⟩ => rfl
    | ⟨1, _⟩ => by show n.val = 0 + n.val; omega)

theorem lhs_wo_0 (i : S32x512.Idx) (q : dot_S32x64_S64x512_S32x512_1_0_0_1_n_n.contr.Idx) :
    (dot_S32x64_S64x512_S32x512_1_0_0_1_n_n.lhsIdx i q 0).val = (i 0).val := by
  unfold DotDims.lhsIdx
  rw [dif_neg (show ¬(0 : Fin S32x64.rank) ∈ dot_S32x64_S64x512_S32x512_1_0_0_1_n_n.lhsBatch by decide), dif_pos (show (0 : Fin S32x64.rank) ∈ dot_S32x64_S64x512_S32x512_1_0_0_1_n_n.lhsNonContracting by decide)]
  rfl
theorem lhs_wo_1 (i : S32x512.Idx) (q : dot_S32x64_S64x512_S32x512_1_0_0_1_n_n.contr.Idx) :
    (dot_S32x64_S64x512_S32x512_1_0_0_1_n_n.lhsIdx i q 1).val = (q ⟨0, by decide⟩).val :=
  dot_S32x64_S64x512_S32x512_1_0_0_1_n_n.lhsIdx_val_of_single rfl i q
theorem rhs_wo_0 (i : S32x512.Idx) (q : dot_S32x64_S64x512_S32x512_1_0_0_1_n_n.contr.Idx) :
    (dot_S32x64_S64x512_S32x512_1_0_0_1_n_n.rhsIdx i q 0).val = (q ⟨0, by decide⟩).val :=
  dot_S32x64_S64x512_S32x512_1_0_0_1_n_n.rhsIdx_val_of_single rfl i q
theorem rhs_wo_1 (i : S32x512.Idx) (q : dot_S32x64_S64x512_S32x512_1_0_0_1_n_n.contr.Idx) :
    (dot_S32x64_S64x512_S32x512_1_0_0_1_n_n.rhsIdx i q 1).val = (i 1).val := by
  unfold DotDims.rhsIdx
  rw [dif_neg (show ¬(1 : Fin S64x512.rank) ∈ dot_S32x64_S64x512_S32x512_1_0_0_1_n_n.rhsBatch by decide), dif_pos (show (1 : Fin S64x512.rank) ∈ dot_S32x64_S64x512_S32x512_1_0_0_1_n_n.rhsNonContracting by decide)]
  rfl

theorem matmulWo_apply (L : FVec Ideal S32x64 .f32) (R : FVec Ideal S64x512 .f32) (i : Fin 32) (n : Fin 512) :
    matmul dot_S32x64_S64x512_S32x512_1_0_0_1_n_n none L R (constant (F := Ideal) S32x512 .f32 0x00000000#32) (ix2 i n)
      = ∑ d : Fin 64, L (ix2 i d) * R (ix2 d n) := by
  simp only [matmul]
  rw [Ideal.matmul_constant_zero_apply, ← Equiv.sum_comp (ValueIdx.contrEquiv1 dot_S32x64_S64x512_S32x512_1_0_0_1_n_n 64 rfl rfl).symm]
  refine Finset.sum_congr rfl fun k _ => ?_
  have hk := ValueIdx.contrEquiv1_symm_val dot_S32x64_S64x512_S32x512_1_0_0_1_n_n 64 rfl rfl k
  have el : dot_S32x64_S64x512_S32x512_1_0_0_1_n_n.lhsIdx (ix2 i n) ((ValueIdx.contrEquiv1 dot_S32x64_S64x512_S32x512_1_0_0_1_n_n 64 rfl rfl).symm k) = ix2 i k := funext fun a => Fin.ext (by
    match a with
    | ⟨0, _⟩ => exact lhs_wo_0 _ _
    | ⟨1, _⟩ => exact (lhs_wo_1 _ _).trans hk)
  have er : dot_S32x64_S64x512_S32x512_1_0_0_1_n_n.rhsIdx (ix2 i n) ((ValueIdx.contrEquiv1 dot_S32x64_S64x512_S32x512_1_0_0_1_n_n 64 rfl rfl).symm k) = ix2 k n := funext fun a => Fin.ext (by
    match a with
    | ⟨0, _⟩ => exact (rhs_wo_0 _ _).trans hk
    | ⟨1, _⟩ => exact rhs_wo_1 _ _)
  rw [el, er]

def headTerm (wo : FVec Ideal S512x512 .f32) (num : FVec Ideal S8x32x64 .f32) (inv : FVec Ideal S8x32 .f32)
    (a w : ℕ) (ha : a < 8) (hw : w + 64 ≤ 512) (i : Fin 32) (n : Fin 512) : EReal :=
  ∑ d : Fin 64, num (ix3 ⟨a, ha⟩ i d) * inv (ix2 ⟨a, ha⟩ i) * wo (ix2 ⟨w + d.val, by omega⟩ n)

theorem head_apply (wo : FVec Ideal S512x512 .f32) (num : FVec Ideal S8x32x64 .f32) (inv : FVec Ideal S8x32 .f32)
    (a w : ℕ) (ha : a < 8) (hw : w + 64 ≤ 512)
    (hs1 : S8x32x64.Slices ![a, 0, 0] S1x32x64) (hc1 : S1x32x64.ShapeCasts S32x64)
    (hs2 : S8x32.Slices ![a, 0] S1x32) (hc2 : S1x32.ShapeCasts S32) (hc3 : S32.ShapeCasts S32x1) (hb : S32x1.Broadcasts S32x64)
    (hs3 : S512x512.Slices ![w, 0] S64x512) (i : Fin 32) (n : Fin 512) :
    matmul dot_S32x64_S64x512_S32x512_1_0_0_1_n_n none
        (mulf (shapeCast S32x64 (extractStridedSlice S1x32x64 ![a, 0, 0] num hs1) hc1)
          (broadcastTo S32x64 (shapeCast S32x1 (shapeCast S32 (extractStridedSlice S1x32 ![a, 0] inv hs2) hc2) hc3) hb))
        (extractStridedSlice S64x512 ![w, 0] wo hs3) (constant (F := Ideal) S32x512 .f32 0x00000000#32) (ix2 i n)
      = headTerm wo num inv a w ha hw i n := by
  rw [matmulWo_apply]
  unfold headTerm
  refine Finset.sum_congr rfl fun d _ => ?_
  rw [mulf_apply, headNum_apply num a ha hs1 hc1 i d, headInv_apply inv a ha hs2 hc2 hc3 hb i d, woSlice_apply wo w hw hs3 d n]

end Cert.KerValue

end
-- ==== Proof.Finite.lean ====
-- From the precondition every entry of every argument is a real number; an array whose four blocks are real is real.
import proofs.«900757_g7700000000000758_dist_attn_cross_mha_kvseq_b2_sq128_skv128_d512_hq8_dh64_v7x_i4_f32_1_alg».proof.Defs
import proofs.«900757_g7700000000000758_dist_attn_cross_mha_kvseq_b2_sq128_skv128_d512_hq8_dh64_v7x_i4_f32_1_alg».proof.Proof.Gen.Pre_finite_inputs_Kernel
import proofs.«900757_g7700000000000758_dist_attn_cross_mha_kvseq_b2_sq128_skv128_d512_hq8_dh64_v7x_i4_f32_1_alg».proof.Proof.Spec
import Idealize.ShloMosaic.Lib.ReduceAll
import Idealize.ShloMosaic.Lib.Layout

noncomputable section

namespace Cert.Finite

open Idealize.ShloMosaic Idealize.SL.Sem

instance : Subsingleton Cert.Pre_finite_inputs_Kernel.S_.Idx := ⟨fun a b => funext fun d => d.elim0⟩

theorem inf_lit : Ideal.ofBits .f32 0x7F800000#32 = (⊤ : EReal) := by
  simp [Ideal.ofBits, Ideal.ieee]

theorem real_of_abs_lt (x : EReal)
    (h : Ideal.cmp .olt (max x (-x)) (Ideal.ofBits .f32 0x7F800000#32) = 1#1) : ∃ r : ℝ, x = (r : EReal) := by
  rw [inf_lit] at h
  induction x using EReal.rec with
  | bot => simp [Ideal.cmp] at h
  | coe r => exact ⟨r, rfl⟩
  | top => simp [Ideal.cmp] at h

theorem all_real {S : Shape} {axes : List (Fin S.rank)} (x : FVec Ideal S .f32)
    (hb : Cert.Pre_finite_inputs_Kernel.S_.BroadcastsInDim S (![] : Fin 0 → Fin S.rank))
    (hr : S.ReducesTo axes Cert.Pre_finite_inputs_Kernel.S_) (hu : 0 < Cert.Pre_finite_inputs_Kernel.S_.numel)
    (e : Host.reduce IntOp.andi
          (cmpf .olt (Host.absf x)
            (broadcastInDim S ![] hb (constant (F := Ideal) Cert.Pre_finite_inputs_Kernel.S_ .f32 0x7F800000#32)))
          (constantI Cert.Pre_finite_inputs_Kernel.S_ 1 1#1) hr hu ValueIdx.ix0 = 1#1)
    (i : S.Idx) : ∃ r : ℝ, x i = (r : EReal) :=
  real_of_abs_lt (x i) (Host.reduce_andi_all _ _ hr hu _ e i)

theorem args_real [Cert.KernelIdeal.Facts] [Cert.Pre_finite_inputs_Kernel.Facts]
    (m : (ℓ : Loc Cert.KernelIdeal.nD Cert.KernelIdeal.τ Cert.KernelIdeal.sig) → Buf (Elt Ideal) ℓ) (h : Cert.Pre_KernelIdeal m) (c : Dev Cert.KernelIdeal.nD) :
    (∀ i, ∃ r : ℝ, m ((c.tc : Thread Cert.KernelIdeal.nD Cert.KernelIdeal.τ).loc Cert.KernelIdeal.main_arg0) i = (r : EReal))
    ∧ (∀ i, ∃ r : ℝ, m ((c.tc : Thread _ _).loc Cert.KernelIdeal.main_arg1) i = (r : EReal))
    ∧ (∀ i, ∃ r : ℝ, m ((c.tc : Thread _ _).loc Cert.KernelIdeal.main_arg2) i = (r : EReal))
    ∧ (∀ i, ∃ r : ℝ, m ((c.tc : Thread _ _).loc Cert.KernelIdeal.main_arg3) i = (r : EReal))
    ∧ (∀ i, ∃ r : ℝ, m ((c.tc : Thread _ _).loc Cert.KernelIdeal.main_arg4) i = (r : EReal)) := by
  have h0 := congrFun (h c) ValueIdx.ix0
  dsimp only [Cert.Pre_finite_inputs_Kernel.fn, Cert.Pre_finite_inputs_Kernel.fn_part1] at h0
  obtain ⟨h0123, e4⟩ := IntOp.andi_eq_one.1 h0
  obtain ⟨h012, e3⟩ := IntOp.andi_eq_one.1 h0123
  obtain ⟨h01, e2⟩ := IntOp.andi_eq_one.1 h012
  obtain ⟨e0, e1⟩ := IntOp.andi_eq_one.1 h01
  exact ⟨all_real _ _ _ _ e0, all_real _ _ _ _ e1, all_real _ _ _ _ e2, all_real _ _ _ _ e3, all_real _ _ _ _ e4⟩

theorem scl_real : ∃ r : ℝ, Cert.Spec.scl = (r : EReal) := by
  refine ⟨(1 / 8 : ℝ), ?_⟩
  unfold Cert.Spec.scl
  simp [Ideal.ofBits, Ideal.ieee, -EReal.coe_mul]
  norm_num

theorem one_lit : Ideal.ofBits .f32 0x3F800000#32 = (1 : EReal) := by
  simp [Ideal.ofBits, Ideal.ieee, -EReal.coe_mul]
  norm_num

theorem exists_idx {S T : Shape} {a k : Nat} (hT : Layout.Tiles S T a k) (ha : a < S.rank) (j : T.Idx) :
    ∃ (c : Fin k) (i : S.Idx), hT.idx c i = j := by
  have hr : S.rank = T.rank := hT.rank
  have hs : ∀ b : Fin S.rank, T.size (b.cast hr) = if b.val = a then k * S.size b else S.size b := hT.size
  have hja : (j (Fin.cast hr ⟨a, ha⟩)).val < k * S.size ⟨a, ha⟩ :=
    Nat.lt_of_lt_of_eq (j (Fin.cast hr ⟨a, ha⟩)).isLt ((hs ⟨a, ha⟩).trans (if_pos rfl))
  have hpos : 0 < S.size ⟨a, ha⟩ := by
    rcases Nat.eq_zero_or_pos (S.size ⟨a, ha⟩) with h0 | h0
    · rw [h0, Nat.mul_zero] at hja; exact absurd hja (Nat.not_lt_zero _)
    · exact h0
  refine ⟨⟨(j (Fin.cast hr ⟨a, ha⟩)).val / S.size ⟨a, ha⟩, (Nat.div_lt_iff_lt_mul hpos).2 hja⟩,
    fun b => ⟨if b.val = a then (j (b.cast hr)).val % S.size b else (j (b.cast hr)).val, ?_⟩, ?_⟩
  · by_cases hb : b.val = a
    · rw [if_pos hb]
      have hbe : b = ⟨a, ha⟩ := Fin.ext hb
      rw [hbe]
      exact Nat.mod_lt _ hpos
    · rw [if_neg hb]
      exact Nat.lt_of_lt_of_eq (j (b.cast hr)).isLt ((hs b).trans (if_neg hb))
  · funext b
    apply Fin.ext
    rw [Layout.Tiles.idx_val]
    by_cases hb : (b.cast hr.symm).val = a
    · have hbb : b = Fin.cast hr ⟨a, ha⟩ := Fin.ext hb
      subst hbb
      dsimp only
      rw [if_pos hb, if_pos hb]
      exact Nat.div_add_mod' _ _
    · dsimp only
      rw [if_neg hb, if_neg hb]
      rfl

theorem block_real_kv (hT : Layout.Tiles ⟨4, ![2, 128, 8, 64]⟩ ⟨4, ![2, 512, 8, 64]⟩ 1 4)
    (w : (⟨4, ![2, 512, 8, 64]⟩ : Shape).Idx → EReal)
    (hb : ∀ (c : Fin 4) (i : (⟨4, ![2, 128, 8, 64]⟩ : Shape).Idx),
      ∃ r : ℝ, Layout.block ⟨4, ![2, 128, 8, 64]⟩ ⟨4, ![2, 512, 8, 64]⟩ 1 4 c w hT i = (r : EReal)) :
    ∀ j : (⟨4, ![2, 512, 8, 64]⟩ : Shape).Idx, ∃ r : ℝ, w j = (r : EReal) :=
  fun j => by
    obtain ⟨c, i, rfl⟩ := exists_idx hT (by decide) j
    exact hb c i

end Cert.Finite

end
-- ==== Proof.KerValueB2.lean ====
-- Batch 0: the owner's sum of the four partial sums, its reciprocal, and the projected rows are those of the four-device form.
import proofs.«900757_g7700000000000758_dist_attn_cross_mha_kvseq_b2_sq128_skv128_d512_hq8_dh64_v7x_i4_f32_1_alg».proof.Proof.KerValueA
import proofs.«900757_g7700000000000758_dist_attn_cross_mha_kvseq_b2_sq128_skv128_d512_hq8_dh64_v7x_i4_f32_1_alg».proof.Proof.KerValueB1
import proofs.«900757_g7700000000000758_dist_attn_cross_mha_kvseq_b2_sq128_skv128_d512_hq8_dh64_v7x_i4_f32_1_alg».proof.Proof.Finite

noncomputable section

namespace Cert.KerValue

open Idealize.ShloMosaic Idealize.SL.Sem Idealize.ShloMosaic.ValueIdx
open Cert.KernelIdeal Cert.KernelIdeal.Gen
open scoped BigOperators

theorem pay13_apply (v1 v2 v3 v4 : FVec Ideal S1x1x8x32x64 .bf16) (a : Fin 8) (i : Fin 32) (d : Fin 64) :
    k0_pay13 (F := Ideal) v1 v2 v3 v4 (ix3 a i d)
      = (v1 (ix5 (0 : Fin 1) (0 : Fin 1) a i d) + v2 (ix5 (0 : Fin 1) (0 : Fin 1) a i d)
          + v3 (ix5 (0 : Fin 1) (0 : Fin 1) a i d) + v4 (ix5 (0 : Fin 1) (0 : Fin 1) a i d) : EReal) := by
  unfold k0_pay13
  simp only [addf_apply, extf_apply]
  rw [cast5_apply v1, cast5_apply v2, cast5_apply v3, cast5_apply v4]

theorem pay14_apply (l0 : FVec Ideal S8x32 .f32) (v1 v2 v3 : FVec Ideal S1x1x8x32 .f32) (a : Fin 8) (i : Fin 32) :
    k0_pay14 (F := Ideal) l0 v1 v2 v3 (ix2 a i)
      = Ideal.div 1 (l0 (ix2 a i) + v1 (ix4 (0 : Fin 1) (0 : Fin 1) a i) + v2 (ix4 (0 : Fin 1) (0 : Fin 1) a i)
          + v3 (ix4 (0 : Fin 1) (0 : Fin 1) a i)) := by
  unfold k0_pay14
  simp only [divf_apply, addf_apply, broadcast_apply, Ideal.ofBits_def, Cert.Finite.one_lit]
  rw [cast4_apply v1, cast4_apply v2, cast4_apply v3]

theorem pay28_apply (l0 l1 l2 l3 : FVec Ideal S8x32 .f32) (a : Fin 8) (i : Fin 32) :
    k0_pay28 (F := Ideal) l0 l1 l2 l3 (ix2 a i)
      = Ideal.div 1 (l0 (ix2 a i) + l1 (ix2 a i) + l2 (ix2 a i) + l3 (ix2 a i)) := by
  unfold k0_pay28
  simp only [divf_apply, addf_apply, broadcast_apply, Ideal.ofBits_def, Cert.Finite.one_lit]

theorem pay17_apply (wo : FVec Ideal S512x512 .f32) (num : FVec Ideal S8x32x64 .f32) (inv : FVec Ideal S8x32 .f32)
    (i : Fin 32) (n : Fin 512) :
    k0_pay17 (F := Ideal) wo num inv
        (shapeCast S32x64 (extractStridedSlice S1x32x64 ![0, 0, 0] num slices_S8x32x64_o0_0_0_S1x32x64) shapeCasts_S1x32x64_S32x64)
        (extractStridedSlice S1x32 ![0, 0] inv slices_S8x32_o0_0_S1x32) (ix2 i n)
      = headTerm wo num inv 0 0 (by decide) (by decide) i n + headTerm wo num inv 1 64 (by decide) (by decide) i n
        + headTerm wo num inv 2 128 (by decide) (by decide) i n + headTerm wo num inv 3 192 (by decide) (by decide) i n
        + headTerm wo num inv 4 256 (by decide) (by decide) i n := by
  unfold k0_pay17
  simp only [addf_apply]
  rw [head_apply wo num inv 0 0 (by decide) (by decide), head_apply wo num inv 1 64 (by decide) (by decide),
    head_apply wo num inv 2 128 (by decide) (by decide), head_apply wo num inv 3 192 (by decide) (by decide),
    head_apply wo num inv 4 256 (by decide) (by decide)]

theorem pay20_apply (wo : FVec Ideal S512x512 .f32) (num : FVec Ideal S8x32x64 .f32) (inv : FVec Ideal S8x32 .f32)
    (acc : FVec Ideal S32x512 .f32) (i : Fin 32) (n : Fin 512) :
    k0_pay20 (F := Ideal) wo num inv acc (k0_pay18 num inv) (k0_pay19 wo) (constant S32x512 .f32 0x00000000#32) (ix2 i n)
      = acc (ix2 i n) + headTerm wo num inv 5 320 (by decide) (by decide) i n
        + headTerm wo num inv 6 384 (by decide) (by decide) i n + headTerm wo num inv 7 448 (by decide) (by decide) i n := by
  unfold k0_pay20 k0_pay18 k0_pay19
  simp only [addf_apply]
  rw [head_apply wo num inv 5 320 (by decide) (by decide), head_apply wo num inv 6 384 (by decide) (by decide),
    head_apply wo num inv 7 448 (by decide) (by decide)]

theorem wo_eq (m : (ℓ : Loc nD τ sig) → Buf (Elt Ideal) ℓ) (c : Dev nD) :
    Cert.KernelIdeal.KV.wo (F := Ideal) m c = aWo m c := by
  unfold Cert.KernelIdeal.KV.wo k0_pay11 Cert.KernelIdeal.KV.vWo Cert.KernelIdeal.KV.stg2
  rw [shapeCast_self]
  refine (Memref.readAt_unit_zero (Elt Ideal) cc0_stg2_0 (off := ![0, 0]) (by funext a; fin_cases a <;> rfl) inb_S512x512_S512x512_0_0 _).trans ?_
  funext idx
  refine Eq.trans (b := aWo m c ((win0_2.rect (0 : Fin 1)).emb idx)) rfl
    (congrArg (aWo m c) (funext fun a => Fin.ext (Pipeline.Window.rect_emb_val_of_index_zero win0_2 (0 : Fin 1) a rfl idx)))

theorem pl_one (c : Fin 4) : Cert.KernelIdeal.KV.pl c 1 = c + 1 := by revert c; decide
theorem pl_two (c : Fin 4) : Cert.KernelIdeal.KV.pl c 2 = c + 2 := by revert c; decide
theorem pl_three (c : Fin 4) : Cert.KernelIdeal.KV.pl c 3 = c + 3 := by revert c; decide

theorem own_grow (c : Fin 4) (i : Fin 32) : Cert.Spec.own (grow c i) = c :=
  Fin.ext (by show (c.val * 32 + i.val) / 32 = c.val; omega)

theorem oBlk1_apply (m : (ℓ : Loc nD τ sig) → Buf (Elt Ideal) ℓ) (p : Dev nD) (t : Fin 4) (b : Fin 2)
    (a : Fin 8) (i : Fin 32) (d : Fin 64) :
    Cert.KernelIdeal.KV.oBlk1 (F := Ideal) m p t b (ix5 (0 : Fin 1) (0 : Fin 1) a i d)
      = Cert.Spec.oK Cert.Spec.scl (aX m p) (aWq m p) (fun q => aK m q) (fun q => aV m q) p b a (grow t i) d :=
  oS_apply m p b t a i d

theorem lBlk1_apply (m : (ℓ : Loc nD τ sig) → Buf (Elt Ideal) ℓ) (p : Dev nD) (t : Fin 4) (b : Fin 2)
    (a : Fin 8) (i : Fin 32) :
    Cert.KernelIdeal.KV.lBlk1 (F := Ideal) m p t b (ix4 (0 : Fin 1) (0 : Fin 1) a i)
      = Cert.Spec.lK Cert.Spec.scl (aX m p) (aWq m p) (fun q => aK m q) p b a (grow t i) :=
  lS_apply m p b t a i

theorem num_apply (m : (ℓ : Loc nD τ sig) → Buf (Elt Ideal) ℓ) (c : Dev nD)
    (X : Cert.Spec.SX.Idx → EReal) (Wq : Cert.Spec.SW.Idx → EReal)
    (hX : ∀ p : Dev nD, aX m p = X) (hWq : ∀ p : Dev nD, aWq m p = Wq) (b : Fin 2) (a : Fin 8) (i : Fin 32) (d : Fin 64) :
    k0_pay13 (F := Ideal) (Cert.KernelIdeal.KV.oBlk1 m c c b) (Cert.KernelIdeal.KV.oBlk1 m (Cert.KernelIdeal.KV.pl c 1) c b)
        (Cert.KernelIdeal.KV.oBlk1 m (Cert.KernelIdeal.KV.pl c 2) c b) (Cert.KernelIdeal.KV.oBlk1 m (Cert.KernelIdeal.KV.pl c 3) c b) (ix3 a i d)
      = Cert.Spec.num Cert.Spec.scl X Wq (fun q => aK m q) (fun q => aV m q) c b a (grow c i) d := by
  rw [pay13_apply, oBlk1_apply, oBlk1_apply, oBlk1_apply, oBlk1_apply, pl_one, pl_two, pl_three]
  simp only [hX, hWq]
  rfl

theorem inv0_apply (m : (ℓ : Loc nD τ sig) → Buf (Elt Ideal) ℓ) (c : Dev nD)
    (X : Cert.Spec.SX.Idx → EReal) (Wq : Cert.Spec.SW.Idx → EReal)
    (hX : ∀ p : Dev nD, aX m p = X) (hWq : ∀ p : Dev nD, aWq m p = Wq) (a : Fin 8) (i : Fin 32) :
    Cert.KernelIdeal.KV.inv0 (F := Ideal) m c (ix2 a i)
      = Ideal.div 1 (Cert.Spec.den Cert.Spec.scl X Wq (fun q => aK m q) c 0 a (grow c i)) := by
  unfold Cert.KernelIdeal.KV.inv0 k0_pay12
  rw [pay14_apply, cast4_apply, lBlk1_apply, lBlk1_apply, lBlk1_apply, lBlk1_apply, pl_one, pl_two, pl_three]
  simp only [hX, hWq]
  rfl

theorem own0_val (m : (ℓ : Loc nD τ sig) → Buf (Elt Ideal) ℓ) (c : Dev nD) (i : Fin 32) (n : Fin 512) :
    Cert.KernelIdeal.KV.own0 (F := Ideal) m c (ix3 (0 : Fin 1) i n)
      = ∑ h : Fin 8, ∑ d : Fin 64, Cert.KernelIdeal.KV.num0 m c (ix3 h i d) * Cert.KernelIdeal.KV.inv0 m c (ix2 h i) * Cert.KernelIdeal.KV.wo m c (ix2 (Cert.Spec.col h d) n) := by
  unfold Cert.KernelIdeal.KV.own0 k0_pay22 Cert.KernelIdeal.KV.zero32x512
  rw [shapeCast_ab_1ab_apply, pay20_apply]
  rw [show Cert.KernelIdeal.KV.acc0a (F := Ideal) m c (ix2 i n) = _ from
    pay17_apply (Cert.KernelIdeal.KV.wo m c) (Cert.KernelIdeal.KV.num0 m c) (Cert.KernelIdeal.KV.inv0 m c) i n]
  rw [Fin.sum_univ_eight]
  rfl

theorem fS0_eq_own0 (m : (ℓ : Loc nD τ sig) → Buf (Elt Ideal) ℓ) (c : Dev nD) (i : Fin 32) (n : Fin 512) :
    Cert.KernelIdeal.KV.fS0 (F := Ideal) m c (ix3 (0 : Fin 1) i n) = Cert.KernelIdeal.KV.own0 m c (ix3 (0 : Fin 1) i n) := by
  unfold Cert.KernelIdeal.KV.fS0 Cert.KernelIdeal.KV.own0 k0_pay21 k0_pay22
  rw [shapeCast_ab_1ab_apply, truncf_apply, shapeCast_ab_1ab_apply]

theorem proj_attK (m : (ℓ : Loc nD τ sig) → Buf (Elt Ideal) ℓ) (c : Dev nD) (b : Fin 2)
    (X : Cert.Spec.SX.Idx → EReal) (Wq Wo : Cert.Spec.SW.Idx → EReal)
    (wo : FVec Ideal S512x512 .f32) (num : FVec Ideal S8x32x64 .f32) (inv : FVec Ideal S8x32 .f32)
    (hwo : wo = Wo)
    (hnum : ∀ (a : Fin 8) (i : Fin 32) (d : Fin 64),
      num (ix3 a i d) = Cert.Spec.num Cert.Spec.scl X Wq (fun q => aK m q) (fun q => aV m q) c b a (grow c i) d)
    (hinv : ∀ (a : Fin 8) (i : Fin 32),
      inv (ix2 a i) = Ideal.div 1 (Cert.Spec.den Cert.Spec.scl X Wq (fun q => aK m q) c b a (grow c i)))
    (i : Fin 32) (n : Fin 512) :
    (∑ h : Fin 8, ∑ d : Fin 64, num (ix3 h i d) * inv (ix2 h i) * wo (ix2 (Cert.Spec.col h d) n))
      = ∑ h : Fin 8, ∑ d : Fin 64,
          Cert.Spec.attK Cert.Spec.scl X Wq (fun q => aK m q) (fun q => aV m q) b (grow c i) h d * Wo (ix2 (Cert.Spec.col h d) n) := by
  refine Finset.sum_congr rfl fun h _ => Finset.sum_congr rfl fun d _ => ?_
  rw [hnum, hinv, hwo]
  unfold Cert.Spec.attK
  rw [own_grow]

end Cert.KerValue

end
-- ==== Proof.KerValueB3.lean ====
-- Batch 1: the same, through the second half of the body's arithmetic.
import proofs.«900757_g7700000000000758_dist_attn_cross_mha_kvseq_b2_sq128_skv128_d512_hq8_dh64_v7x_i4_f32_1_alg».proof.Proof.KerValueB2

noncomputable section

namespace Cert.KerValue

open Idealize.ShloMosaic Idealize.SL.Sem Idealize.ShloMosaic.ValueIdx
open Cert.KernelIdeal Cert.KernelIdeal.Gen
open scoped BigOperators

theorem pay31_apply (wo : FVec Ideal S512x512 .f32) (num : FVec Ideal S8x32x64 .f32) (inv : FVec Ideal S8x32 .f32)
    (a0 a1 : FVec Ideal S32x512 .f32) (i : Fin 32) (n : Fin 512) :
    k0_pay31 (F := Ideal) wo num inv a0 a1 (ix2 i n)
      = a0 (ix2 i n) + a1 (ix2 i n) + headTerm wo num inv 2 128 (by decide) (by decide) i n
        + headTerm wo num inv 3 192 (by decide) (by decide) i n + headTerm wo num inv 4 256 (by decide) (by decide) i n
        + headTerm wo num inv 5 320 (by decide) (by decide) i n + headTerm wo num inv 6 384 (by decide) (by decide) i n := by
  unfold k0_pay31
  simp only [addf_apply]
  rw [head_apply wo num inv 2 128 (by decide) (by decide), head_apply wo num inv 3 192 (by decide) (by decide),
    head_apply wo num inv 4 256 (by decide) (by decide), head_apply wo num inv 5 320 (by decide) (by decide),
    head_apply wo num inv 6 384 (by decide) (by decide)]

theorem pay34_apply (wo : FVec Ideal S512x512 .f32) (num : FVec Ideal S8x32x64 .f32) (inv : FVec Ideal S8x32 .f32)
    (acc : FVec Ideal S32x512 .f32) (i : Fin 32) (n : Fin 512) :
    k0_pay34 (F := Ideal) wo acc (k0_pay32 num) (k0_pay33 inv) (ix2 i n)
      = acc (ix2 i n) + headTerm wo num inv 7 448 (by decide) (by decide) i n := by
  unfold k0_pay34 k0_pay32 k0_pay33
  simp only [addf_apply]
  rw [head_apply wo num inv 7 448 (by decide) (by decide)]

theorem inv1_apply (m : (ℓ : Loc nD τ sig) → Buf (Elt Ideal) ℓ) (c : Dev nD)
    (X : Cert.Spec.SX.Idx → EReal) (Wq : Cert.Spec.SW.Idx → EReal)
    (hX : ∀ p : Dev nD, aX m p = X) (hWq : ∀ p : Dev nD, aWq m p = Wq) (a : Fin 8) (i : Fin 32) :
    Cert.KernelIdeal.KV.inv1 (F := Ideal) m c (ix2 a i)
      = Ideal.div 1 (Cert.Spec.den Cert.Spec.scl X Wq (fun q => aK m q) c 1 a (grow c i)) := by
  unfold Cert.KernelIdeal.KV.inv1 Cert.KernelIdeal.KV.l1a Cert.KernelIdeal.KV.l1b Cert.KernelIdeal.KV.l1c
    Cert.KernelIdeal.KV.l1d k0_pay23 k0_pay24 k0_pay25 k0_pay26
  rw [pay28_apply, cast4_apply, cast4_apply, cast4_apply, cast4_apply, lBlk1_apply, lBlk1_apply, lBlk1_apply,
    lBlk1_apply, pl_one, pl_two, pl_three]
  simp only [hX, hWq]
  rfl

theorem own1_val (m : (ℓ : Loc nD τ sig) → Buf (Elt Ideal) ℓ) (c : Dev nD) (i : Fin 32) (n : Fin 512) :
    Cert.KernelIdeal.KV.own1 (F := Ideal) m c (ix3 (0 : Fin 1) i n)
      = ∑ h : Fin 8, ∑ d : Fin 64, Cert.KernelIdeal.KV.num1 m c (ix3 h i d) * Cert.KernelIdeal.KV.inv1 m c (ix2 h i) * Cert.KernelIdeal.KV.wo m c (ix2 (Cert.Spec.col h d) n) := by
  unfold Cert.KernelIdeal.KV.own1 k0_pay36
  rw [shapeCast_ab_1ab_apply, pay34_apply]
  rw [show Cert.KernelIdeal.KV.acc1c (F := Ideal) m c (ix2 i n) = _ from
    pay31_apply (Cert.KernelIdeal.KV.wo m c) (Cert.KernelIdeal.KV.num1 m c) (Cert.KernelIdeal.KV.inv1 m c) _ _ i n]
  rw [show Cert.KernelIdeal.KV.acc1a (F := Ideal) m c (ix2 i n) = _ from
      head_apply _ (Cert.KernelIdeal.KV.num1 m c) (Cert.KernelIdeal.KV.inv1 m c) 0 0 (by decide) (by decide) _ _ _ _ _ _ _ i n,
    show Cert.KernelIdeal.KV.acc1b (F := Ideal) m c (ix2 i n) = _ from
      head_apply _ (Cert.KernelIdeal.KV.num1 m c) (Cert.KernelIdeal.KV.inv1 m c) 1 64 (by decide) (by decide) _ _ _ _ _ _ _ i n]
  rw [Fin.sum_univ_eight]
  rfl

theorem fS1_eq_own1 (m : (ℓ : Loc nD τ sig) → Buf (Elt Ideal) ℓ) (c : Dev nD) (i : Fin 32) (n : Fin 512) :
    Cert.KernelIdeal.KV.fS1 (F := Ideal) m c (ix3 (0 : Fin 1) i n) = Cert.KernelIdeal.KV.own1 m c (ix3 (0 : Fin 1) i n) := by
  unfold Cert.KernelIdeal.KV.fS1 Cert.KernelIdeal.KV.own1 k0_pay35 k0_pay36
  rw [shapeCast_ab_1ab_apply, truncf_apply, shapeCast_ab_1ab_apply]

end Cert.KerValue

end
-- ==== Proof.KerValueB.lean ====
-- Every device's final array, own rows and received rows alike, is the four-device form kerOut.
import proofs.«900757_g7700000000000758_dist_attn_cross_mha_kvseq_b2_sq128_skv128_d512_hq8_dh64_v7x_i4_f32_1_alg».proof.Proof.KerValueB3
import Idealize.ShloMosaic.Lib.ValueIdxCoords

noncomputable section

namespace Cert.KerValue

open Idealize.ShloMosaic Idealize.SL.Sem Idealize.ShloMosaic.ValueIdx
open Cert.KernelIdeal Cert.KernelIdeal.Gen
open scoped BigOperators

theorem own_apply (m : (ℓ : Loc nD τ sig) → Buf (Elt Ideal) ℓ) (c : Dev nD)
    (X : Cert.Spec.SX.Idx → EReal) (Wq Wo : Cert.Spec.SW.Idx → EReal)
    (hX : ∀ p : Dev nD, aX m p = X) (hWq : ∀ p : Dev nD, aWq m p = Wq) (hWo : ∀ p : Dev nD, aWo m p = Wo)
    (b : Fin 2) (i : Fin 32) (n : Fin 512) :
    Cert.KernelIdeal.KV.own (F := Ideal) m c b (ix3 (0 : Fin 1) i n)
      = ∑ h : Fin 8, ∑ d : Fin 64,
          Cert.Spec.attK Cert.Spec.scl X Wq (fun q => aK m q) (fun q => aV m q) b (grow c i) h d * Wo (ix2 (Cert.Spec.col h d) n) := by
  match b with
  | ⟨0, _⟩ => exact (own0_val m c i n).trans (proj_attK m c 0 X Wq Wo _ _ _ ((wo_eq m c).trans (hWo c))
      (num_apply m c X Wq hX hWq 0) (inv0_apply m c X Wq hX hWq) i n)
  | ⟨1, _⟩ => exact (own1_val m c i n).trans (proj_attK m c 1 X Wq Wo _ _ _ ((wo_eq m c).trans (hWo c))
      (num_apply m c X Wq hX hWq 1) (inv1_apply m c X Wq hX hWq) i n)

theorem fS_eq_own (m : (ℓ : Loc nD τ sig) → Buf (Elt Ideal) ℓ) (c : Dev nD) (b : Fin 2) (i : Fin 32) (n : Fin 512) :
    Cert.KernelIdeal.KV.fS (F := Ideal) m c b (ix3 (0 : Fin 1) i n) = Cert.KernelIdeal.KV.own m c b (ix3 (0 : Fin 1) i n) := by
  match b with
  | ⟨0, _⟩ => exact fS0_eq_own0 m c i n
  | ⟨1, _⟩ => exact fS1_eq_own1 m c i n

theorem cast11_apply (v : FVec Ideal S1x1x32x512 .bf16) (h : S1x1x32x512.ShapeCasts S32x512) (i : Fin 32) (n : Fin 512) :
    shapeCast S32x512 v h (ix2 i n) = v (ix4 (0 : Fin 1) (0 : Fin 1) i n) :=
  shapeCast_apply v h _ _ (by
    rw [Shape.rowMajor_val_four, Shape.rowMajor_val_two]
    show (((0 : ℕ) * 1 + 0) * 32 + i.val) * 512 + n.val = i.val * 512 + n.val
    omega)

theorem pay37_apply (v : FVec Ideal S1x1x32x512 .bf16) (i : Fin 32) (n : Fin 512) :
    k0_pay37 (F := Ideal) v (ix3 (0 : Fin 1) i n) = v (ix4 (0 : Fin 1) (0 : Fin 1) i n) := by
  unfold k0_pay37; rw [shapeCast_ab_1ab_apply, extf_apply, cast11_apply v]
theorem rcv_apply (m : (ℓ : Loc nD τ sig) → Buf (Elt Ideal) ℓ) (c : Dev nD) (s : Fin 3) (b : Fin 2) (i : Fin 32) (n : Fin 512) :
    Cert.KernelIdeal.KV.rcv (F := Ideal) m c s b (ix3 (0 : Fin 1) i n)
      = Cert.KernelIdeal.KV.fS m (Cert.KernelIdeal.KV.pl c (s.val + 1)) b (ix3 (0 : Fin 1) i n) := by
  match s, b with
  | ⟨0, _⟩, ⟨0, _⟩ | ⟨1, _⟩, ⟨0, _⟩ | ⟨2, _⟩, ⟨0, _⟩ | ⟨0, _⟩, ⟨1, _⟩ | ⟨1, _⟩, ⟨1, _⟩ | ⟨2, _⟩, ⟨1, _⟩ => exact pay37_apply _ i n

theorem outVal_eq (m : (ℓ : Loc nD τ sig) → Buf (Elt Ideal) ℓ) (c : Dev nD) (X : Cert.Spec.SX.Idx → EReal) (Wq Wo : Cert.Spec.SW.Idx → EReal)
    (hX : ∀ p : Dev nD, aX m p = X) (hWq : ∀ p : Dev nD, aWq m p = Wq) (hWo : ∀ p : Dev nD, aWo m p = Wo) :
    Cert.KernelIdeal.KV.outVal (F := Ideal) m c = Cert.Spec.kerOut Cert.Spec.scl X Wq Wo (fun p => aK m p) (fun p => aV m p) := by
  funext idx
  obtain ⟨b, r, n, rfl⟩ : ∃ (b : Fin 2) (r : Fin 128) (n : Fin 512), idx = ix3 b r n := ⟨idx 0, idx 1, idx 2, eq_ix3 idx⟩
  have key : ∀ (p : Fin 4) (j : Fin 32), grow p j = r →
      (∑ h : Fin 8, ∑ d : Fin 64,
        Cert.Spec.attK Cert.Spec.scl X Wq (fun q => aK m q) (fun q => aV m q) b (grow p j) h d * Wo (ix2 (Cert.Spec.col h d) n))
        = Cert.Spec.kerOut Cert.Spec.scl X Wq Wo (fun p => aK m p) (fun p => aV m p) (ix3 b r n) := by
    intro p j hpj
    rw [hpj]
    rfl
  have hr : r.val < 128 := r.isLt
  have hc : c.val < 4 := c.isLt
  simp only [Cert.KernelIdeal.KV.outVal, ix3_0, ix3_1, ix3_2]
  split_ifs with h0 h1 h2
  · rw [own_apply m c X Wq Wo hX hWq hWo]
    exact key c _ (Fin.ext (by show c.val * 32 + r.val % 32 = r.val; omega))
  · rw [rcv_apply, fS_eq_own, own_apply m _ X Wq Wo hX hWq hWo]
    exact key _ _ (Fin.ext (by show (c.val + 1) % 4 * 32 + r.val % 32 = r.val; omega))
  · rw [rcv_apply, fS_eq_own, own_apply m _ X Wq Wo hX hWq hWo]
    exact key _ _ (Fin.ext (by show (c.val + 2) % 4 * 32 + r.val % 32 = r.val; omega))
  · rw [rcv_apply, fS_eq_own, own_apply m _ X Wq Wo hX hWq hWo]
    exact key _ _ (Fin.ext (by show (c.val + 3) % 4 * 32 + r.val % 32 = r.val; omega))

end Cert.KerValue

end
-- ==== Proof.Algebra.lean ====
-- Over the reals the two forms agree: the stabilising factor exp (-max s) cancels between numerator and denominator, and a sum over 512 keys is the sum over four blocks of 128.
import proofs.«900757_g7700000000000758_dist_attn_cross_mha_kvseq_b2_sq128_skv128_d512_hq8_dh64_v7x_i4_f32_1_alg».proof.Proof.Spec
import Mathlib.Data.EReal.Inv
import Mathlib.Analysis.SpecialFunctions.Exp
import Mathlib.Algebra.BigOperators.Fin
import Mathlib.Algebra.BigOperators.Field
import Mathlib.Tactic.Ring
import Mathlib.Tactic.FieldSimp
import Mathlib.Tactic.FinCases

noncomputable section

namespace Cert.Algebra

open Idealize.ShloMosaic Idealize.ShloMosaic.ValueIdx Cert.Spec
open scoped BigOperators

/-- A sum over pairs (a, b), b < n, laid out at a * n + b. -/
theorem sum_blk {M : Type*} [AddCommMonoid M] {m n : ℕ} (g : Fin m → Fin n → Fin (m * n))
    (hg : ∀ a b, (g a b).val = a.val * n + b.val) (F : Fin (m * n) → M) : ∑ k, F k = ∑ a, ∑ b, F (g a b) := by
  rw [← Equiv.sum_comp finProdFinEquiv F, Fintype.sum_prod_type]
  exact Finset.sum_congr rfl fun a _ => Finset.sum_congr rfl fun b _ => congrArg F (Fin.ext (by
    rw [hg]; show b.val + n * a.val = _; rw [Nat.mul_comm, Nat.add_comm]))

theorem headOf_col (h : Fin 8) (d : Fin 64) : headOf (col h d) = h :=
  Fin.ext (by have := d.isLt; show (h.val * 64 + d.val) / 64 = h.val; omega)

theorem laneOf_col (h : Fin 8) (d : Fin 64) : laneOf (col h d) = d :=
  Fin.ext (by have := d.isLt; show (h.val * 64 + d.val) % 64 = d.val; omega)

theorem sum_col {M : Type*} [AddCommMonoid M] (F : Fin 512 → M) :
    ∑ k : Fin 512, F k = ∑ h : Fin 8, ∑ d : Fin 64, F (col h d) :=
  sum_blk (m := 8) (n := 64) col (fun _ _ => rfl) F

theorem sum_key {M : Type*} [AddCommMonoid M] (F : Fin 512 → M) :
    ∑ j : Fin 512, F j = ∑ c : Fin 4, ∑ j : Fin 128, F (gkey c j) :=
  sum_blk (m := 4) (n := 128) gkey (fun _ _ => rfl) F

/-- Four terms of a family taken in cyclic order from r. -/
def cyc {M : Type*} [Add M] (f : Fin 4 → M) (r : Fin 4) : M := f r + f (r + 1) + f (r + 2) + f (r + 3)

theorem cyc_sum {M : Type*} [AddCommMonoid M] (f : Fin 4 → M) (r : Fin 4) : cyc f r = ∑ c : Fin 4, f c := by
  rw [← Equiv.sum_comp (Equiv.addLeft r) f, Fin.sum_univ_four]
  simp only [cyc, Equiv.coe_addLeft, add_zero]

theorem coe_cyc (f : Fin 4 → ℝ) (r : Fin 4) : cyc (fun c => (f c : EReal)) r = ((cyc f r : ℝ) : EReal) := by
  simp only [cyc, EReal.coe_add]

theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem sup'_coe (f : Fin 512 → ℝ) :
    ∃ M : ℝ, (Finset.univ.sup' Finset.univ_nonempty fun j : Fin 512 => (f j : EReal)) = (M : EReal) := by
  obtain ⟨j, _, hj⟩ := Finset.exists_mem_eq_sup' (Finset.univ_nonempty (α := Fin 512)) (fun j : Fin 512 => (f j : EReal))
  exact ⟨f j, hj⟩

theorem real_core (s v : Fin 512 → ℝ) (M : ℝ) (r : Fin 4) :
    (∑ j : Fin 512, Real.exp (s j - M) * v j) / (∑ j : Fin 512, Real.exp (s j - M))
      = cyc (fun c => ∑ j : Fin 128, Real.exp (s (gkey c j)) * v (gkey c j)) r
        * (1 / cyc (fun c => ∑ j : Fin 128, Real.exp (s (gkey c j))) r) := by
  rw [cyc_sum, cyc_sum,
    ← sum_key (fun j => Real.exp (s j) * v j), ← sum_key (fun j => Real.exp (s j))]
  have hM : Real.exp (-M) ≠ 0 := (Real.exp_pos _).ne'
  have h1 : ∀ j, Real.exp (s j - M) = Real.exp (-M) * Real.exp (s j) := fun j => by
    rw [sub_eq_add_neg, Real.exp_add, mul_comm]
  simp only [h1, mul_assoc]
  rw [← Finset.mul_sum, ← Finset.mul_sum, mul_div_mul_left _ _ hM, mul_one_div]

theorem sum_mul_real {ι : Type*} (s : Finset ι) (f g : ι → EReal)
    (hf : ∀ i, ∃ x : ℝ, f i = (x : EReal)) (hg : ∀ i, ∃ x : ℝ, g i = (x : EReal)) :
    ∃ x : ℝ, ∑ i ∈ s, f i * g i = (x : EReal) := by
  choose a ha using hf
  choose b hb using hg
  exact ⟨∑ i ∈ s, a i * b i, by simp only [ha, hb, ← EReal.coe_mul, ← coe_sum]⟩

theorem att_core (S Vv : Fin 512 → EReal) (hS : ∀ j, ∃ x : ℝ, S j = (x : EReal))
    (hV : ∀ j, ∃ x : ℝ, Vv j = (x : EReal)) (r : Fin 4) :
    Ideal.div (∑ j : Fin 512, Ideal.exp (S j - Finset.univ.sup' Finset.univ_nonempty S) * Vv j)
        (∑ j : Fin 512, Ideal.exp (S j - Finset.univ.sup' Finset.univ_nonempty S))
      = cyc (fun c => ∑ j : Fin 128, Ideal.exp (S (gkey c j)) * Vv (gkey c j)) r
        * Ideal.div 1 (cyc (fun c => ∑ j : Fin 128, Ideal.exp (S (gkey c j))) r) := by
  choose s hs using hS
  choose v hv using hV
  obtain rfl : S = fun j => (s j : EReal) := funext hs
  obtain rfl : Vv = fun j => (v j : EReal) := funext hv
  obtain ⟨M, hM⟩ := sup'_coe s
  simp only [hM, ← EReal.coe_sub, Ideal.exp_coe, ← EReal.coe_mul, ← coe_sum, coe_cyc]
  have h512 : (∑ j : Fin 512, Real.exp (s j - M)) ≠ 0 :=
    (Finset.sum_pos (fun j _ => Real.exp_pos _) Finset.univ_nonempty).ne'
  have h4 : cyc (fun c => ∑ j : Fin 128, Real.exp (s (gkey c j))) r ≠ 0 := by
    rw [cyc_sum]
    exact (Finset.sum_pos (fun c _ => Finset.sum_pos (fun j _ => Real.exp_pos _) Finset.univ_nonempty) Finset.univ_nonempty).ne'
  rw [Ideal.div_coe h512, Ideal.div_coe h4, one_mul, ← EReal.coe_mul, ← EReal.coe_mul, mul_one_div,
    real_core s v M r]

theorem score_real (sc : EReal) (X : SX.Idx → EReal) (Wq : SW.Idx → EReal) (K : SKV.Idx → EReal)
    (hsc : ∃ r : ℝ, sc = (r : EReal)) (hX : ∀ i, ∃ r : ℝ, X i = (r : EReal))
    (hWq : ∀ i, ∃ r : ℝ, Wq i = (r : EReal)) (hK : ∀ i, ∃ r : ℝ, K i = (r : EReal))
    (b : Fin 2) (h : Fin 8) (i : Fin 128) (j : Fin 512) :
    ∃ x : ℝ, score sc X Wq K b h i j = (x : EReal) := by
  obtain ⟨a, ha⟩ := sum_mul_real Finset.univ (fun d : Fin 64 => q X Wq b i h d)
    (fun d : Fin 64 => K (ix4 b j h d)) (fun d => sum_mul_real Finset.univ (fun k : Fin 512 => X (ix3 b i k)) (fun k : Fin 512 => Wq (ix2 k (col h d))) (fun _ => hX _) (fun _ => hWq _)) (fun _ => hK _)
  obtain ⟨r, rfl⟩ := hsc
  refine ⟨a * r, ?_⟩
  unfold score
  rw [ha, EReal.coe_mul]

open Idealize.ShloMosaic Idealize.ShloMosaic.ValueIdx Cert.Spec in
theorem refOut_eq_kerOut (sc : EReal) (X : SX.Idx → EReal) (Wq Wo : SW.Idx → EReal) (K V : SKV.Idx → EReal) (Kb Vb : Fin 4 → SKVb.Idx → EReal)
    (hsc : ∃ r : ℝ, sc = (r : EReal)) (hX : ∀ i, ∃ r : ℝ, X i = (r : EReal)) (hWq : ∀ i, ∃ r : ℝ, Wq i = (r : EReal)) (hWo : ∀ i, ∃ r : ℝ, Wo i = (r : EReal))
    (hK : ∀ i, ∃ r : ℝ, K i = (r : EReal)) (hV : ∀ i, ∃ r : ℝ, V i = (r : EReal))
    (hKb : ∀ (c : Fin 4) (b : Fin 2) (j : Fin 128) (h : Fin 8) (d : Fin 64), Kb c (ix4 b j h d) = K (ix4 b (gkey c j) h d))
    (hVb : ∀ (c : Fin 4) (b : Fin 2) (j : Fin 128) (h : Fin 8) (d : Fin 64), Vb c (ix4 b j h d) = V (ix4 b (gkey c j) h d)) :
    refOut sc X Wq Wo K V = kerOut sc X Wq Wo Kb Vb := by
  funext idx
  obtain ⟨b, i, n, rfl⟩ : ∃ (b : Fin 2) (i : Fin 128) (n : Fin 512), idx = ix3 b i n := ⟨idx 0, idx 1, idx 2, eq_ix3 idx⟩
  show (∑ k : Fin 512, attref sc X Wq K V b i (headOf k) (laneOf k) * Wo (ix2 k n))
    = ∑ h : Fin 8, ∑ d : Fin 64, attK sc X Wq Kb Vb b i h d * Wo (ix2 (col h d) n)
  rw [sum_col]
  refine Finset.sum_congr rfl fun h _ => Finset.sum_congr rfl fun d _ => ?_
  rw [headOf_col, laneOf_col]
  have key := att_core (fun j : Fin 512 => score sc X Wq K b h i j) (fun j : Fin 512 => V (ix4 b j h d))
    (fun j => score_real sc X Wq K hsc hX hWq hK b h i j) (fun _ => hV _) (own i)
  refine congrArg (fun t => t * Wo (ix2 (col h d) n)) ?_
  unfold attref oref lref wref smax attK num den oK lK wK scoreK
  simp only [hKb, hVb]
  exact key

end Cert.Algebra

end
-- ==== Proof.Assembly.lean ====
-- The value conjunct: both programs end holding one array; the devices' buffers are copies or blocks of the reference's arrays, and under the precondition the two closed forms agree.
import proofs.«900757_g7700000000000758_dist_attn_cross_mha_kvseq_b2_sq128_skv128_d512_hq8_dh64_v7x_i4_f32_1_alg».proof.Proof.RefValue
import proofs.«900757_g7700000000000758_dist_attn_cross_mha_kvseq_b2_sq128_skv128_d512_hq8_dh64_v7x_i4_f32_1_alg».proof.Proof.KerValueB
import proofs.«900757_g7700000000000758_dist_attn_cross_mha_kvseq_b2_sq128_skv128_d512_hq8_dh64_v7x_i4_f32_1_alg».proof.Proof.Algebra

noncomputable section

namespace Cert.Assembly

open Idealize.ShloMosaic Idealize.SL.Sem Idealize.ShloMosaic.ValueIdx

theorem block_at (hT : Layout.Tiles ⟨4, ![2, 128, 8, 64]⟩ ⟨4, ![2, 512, 8, 64]⟩ 1 4)
    (w : Cert.Spec.SKV.Idx → EReal) (c : Fin 4) (b : Fin 2) (j : Fin 128) (h : Fin 8) (d : Fin 64) :
    Layout.block ⟨4, ![2, 128, 8, 64]⟩ ⟨4, ![2, 512, 8, 64]⟩ 1 4 c w hT (ix4 b j h d)
      = w (ix4 b (Cert.Spec.gkey c j) h d) := by
  rw [Layout.block_apply]
  refine congrArg w (funext fun a => Fin.ext ?_)
  match a with
  | ⟨0, _⟩ => rfl
  | ⟨1, _⟩ => rfl
  | ⟨2, _⟩ => rfl
  | ⟨3, _⟩ => rfl

theorem algebraic [Cert.KernelIdeal.Facts] [Cert.ReferenceIdeal.Facts] [Cert.Pre_finite_inputs_Kernel.Facts]
    (hrun : ∀ (m : (ℓ : Loc Cert.KernelIdeal.nD Cert.KernelIdeal.τ Cert.KernelIdeal.sig) → Buf (Elt Ideal) ℓ) (g : Dev Cert.KernelIdeal.nD → PrngReg),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
        r.2.mem ((c.tc : Thread Cert.KernelIdeal.nD Cert.KernelIdeal.τ).loc Cert.KernelIdeal.main_v1) = Cert.KernelIdeal.KV.outVal (F := Ideal) m c
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))) :
    Cert.algebraic_KernelIdeal_ReferenceIdeal := by
  intro m g m' g' hpre hagree

  obtain ⟨X, hXdef⟩ : ∃ X : Cert.Spec.SX.Idx → EReal, X = m' (((0 : Dev Cert.ReferenceIdeal.nD).tc : Thread Cert.ReferenceIdeal.nD Cert.ReferenceIdeal.τ).loc Cert.ReferenceIdeal.main_arg0) := ⟨_, rfl⟩
  obtain ⟨Wq, hWqdef⟩ : ∃ Wq : Cert.Spec.SW.Idx → EReal, Wq = m' (((0 : Dev Cert.ReferenceIdeal.nD).tc : Thread Cert.ReferenceIdeal.nD Cert.ReferenceIdeal.τ).loc Cert.ReferenceIdeal.main_arg1) := ⟨_, rfl⟩
  obtain ⟨Wo, hWodef⟩ : ∃ Wo : Cert.Spec.SW.Idx → EReal, Wo = m' (((0 : Dev Cert.ReferenceIdeal.nD).tc : Thread Cert.ReferenceIdeal.nD Cert.ReferenceIdeal.τ).loc Cert.ReferenceIdeal.main_arg2) := ⟨_, rfl⟩
  obtain ⟨K, hKdef⟩ : ∃ K : Cert.Spec.SKV.Idx → EReal, K = m' (((0 : Dev Cert.ReferenceIdeal.nD).tc : Thread Cert.ReferenceIdeal.nD Cert.ReferenceIdeal.τ).loc Cert.ReferenceIdeal.main_arg3) := ⟨_, rfl⟩
  obtain ⟨V, hVdef⟩ : ∃ V : Cert.Spec.SKV.Idx → EReal, V = m' (((0 : Dev Cert.ReferenceIdeal.nD).tc : Thread Cert.ReferenceIdeal.nD Cert.ReferenceIdeal.τ).loc Cert.ReferenceIdeal.main_arg4) := ⟨_, rfl⟩

  have hX : ∀ p : Dev Cert.KernelIdeal.nD, Cert.KerValue.aX m p = X := fun p => (hagree p).1.trans hXdef.symm
  have hWq : ∀ p : Dev Cert.KernelIdeal.nD, Cert.KerValue.aWq m p = Wq := fun p => (hagree p).2.1.trans hWqdef.symm
  have hWo : ∀ p : Dev Cert.KernelIdeal.nD, Cert.KerValue.aWo m p = Wo := fun p => (hagree p).2.2.1.trans hWodef.symm
  have hK : ∀ p : Dev Cert.KernelIdeal.nD, Cert.KerValue.aK m p
      = Layout.block ⟨4, ![2, 128, 8, 64]⟩ ⟨4, ![2, 512, 8, 64]⟩ 1 4 p K := fun p => by
    rw [hKdef]; exact (hagree p).2.2.2.1
  have hV : ∀ p : Dev Cert.KernelIdeal.nD, Cert.KerValue.aV m p
      = Layout.block ⟨4, ![2, 128, 8, 64]⟩ ⟨4, ![2, 512, 8, 64]⟩ 1 4 p V := fun p => by
    rw [hVdef]; exact (hagree p).2.2.2.2

  have hXr : ∀ i, ∃ r : ℝ, X i = (r : EReal) := fun i => by
    obtain ⟨r, hr⟩ := (Cert.Finite.args_real m hpre 0).1 i
    exact ⟨r, (congrFun (hX 0) i).symm.trans hr⟩
  have hWqr : ∀ i, ∃ r : ℝ, Wq i = (r : EReal) := fun i => by
    obtain ⟨r, hr⟩ := (Cert.Finite.args_real m hpre 0).2.1 i
    exact ⟨r, (congrFun (hWq 0) i).symm.trans hr⟩
  have hWor : ∀ i, ∃ r : ℝ, Wo i = (r : EReal) := fun i => by
    obtain ⟨r, hr⟩ := (Cert.Finite.args_real m hpre 0).2.2.1 i
    exact ⟨r, (congrFun (hWo 0) i).symm.trans hr⟩
  have hKr : ∀ i, ∃ r : ℝ, K i = (r : EReal) :=
    Cert.Finite.block_real_kv (by decide) K fun c i => by
      obtain ⟨r, hr⟩ := (Cert.Finite.args_real m hpre c).2.2.2.1 i
      exact ⟨r, (congrFun (hK c) i).symm.trans hr⟩
  have hVr : ∀ i, ∃ r : ℝ, V i = (r : EReal) :=
    Cert.Finite.block_real_kv (by decide) V fun c i => by
      obtain ⟨r, hr⟩ := (Cert.Finite.args_real m hpre c).2.2.2.2 i
      exact ⟨r, (congrFun (hV c) i).symm.trans hr⟩

  have hform : Cert.Spec.refOut Cert.Spec.scl X Wq Wo K V
      = Cert.Spec.kerOut Cert.Spec.scl X Wq Wo (fun p => Cert.KerValue.aK m p) (fun p => Cert.KerValue.aV m p) :=
    Cert.Algebra.refOut_eq_kerOut Cert.Spec.scl X Wq Wo K V _ _ Cert.Finite.scl_real hXr hWqr hWor hKr hVr
      (fun c b j h d => (congrFun (hK c) _).trans (block_at _ K c b j h d))
      (fun c b j h d => (congrFun (hV c) _).trans (block_at _ V c b j h d))
  refine ⟨Cert.Spec.refOut Cert.Spec.scl X Wq Wo K V, ?_, ?_⟩
  · refine (θ_run (Cert.KernelIdeal.defs (F := Ideal)) _ _).mono (fun r h c => ?_) (hrun m g)
    obtain ⟨hv, h0, h1, h2, h3, h4⟩ := h c
    exact ⟨hv.trans ((Cert.KerValue.outVal_eq m c X Wq Wo hX hWq hWo).trans hform.symm), h0, h1, h2, h3, h4⟩
  · subst hXdef hWqdef hWodef hKdef hVdef
    exact Cert.RefValue.run m' g'

theorem frame_ReferenceIdeal [Cert.ReferenceIdeal.Facts] [Cert.Pre_finite_inputs_ReferenceIdeal.Facts] :
    Cert.frame_ReferenceIdeal :=
  fun m' g' _ => (θ_run (Cert.ReferenceIdeal.defs (F := Ideal)) _ _).mono
    (fun _ h c => by
      have hc : c = 0 := Subsingleton.elim _ _
      subst hc
      exact h.2)
    (Cert.RefValue.run m' g')

end Cert.Assembly

end
-- ==== Proof.Proto.lean ====
-- The protocol: an entry handshake on the barrier cell, then eighteen addressed copies a device, each paying a send cell of its issuer and a receive cell of its target; one round of duties, what a device owes, the levels, and a device's state after ns copies, nr receive waits and nw send waits.
import proofs.«900757_g7700000000000758_dist_attn_cross_mha_kvseq_b2_sq128_skv128_d512_hq8_dh64_v7x_i4_f32_1_alg».proof.Proof.KV

noncomputable section

namespace Cert.KernelIdeal.Proto

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

def s₀ (m : (ℓ : Loc nD τ sig) → Buf (Elt F) ℓ) (ρ : Dev nD → PrngReg) : MemSt nD τ sig (Elt F) := ⟨m, fun _ => 0, ρ⟩

def pl (c : Dev nD) (k : ℕ) : Dev nD := ⟨(c.val + k) % 4, Nat.mod_lt _ (by decide)⟩

theorem pl_pl (c : Dev nD) (j k : ℕ) : pl (pl c j) k = pl c (j + k) := by
  apply Fin.ext; show ((c.val + j) % 4 + k) % 4 = (c.val + (j + k)) % 4; omega
theorem pl_four (c : Dev nD) : pl c 4 = c := by revert c; decide
abbrev xM : Memref sig .tc .vmem S2x128x512 .f32 := Memref.whole cc0_stg0_0
abbrev wqM : Memref sig .tc .vmem S512x512 .f32 := Memref.whole cc0_stg1_0
abbrev woM : Memref sig .tc .vmem S512x512 .f32 := Memref.whole cc0_stg2_0
abbrev kM : Memref sig .tc .vmem S2x128x8x64 .f32 := Memref.whole cc0_stg3_0
abbrev vM : Memref sig .tc .vmem S2x128x8x64 .f32 := Memref.whole cc0_stg4_0
abbrev outM : Memref sig .tc .vmem S2x128x512 .f32 := Memref.whole cc0_stg5_0
abbrev osrcM : Memref sig .tc .vmem S4x2x8x32x64 .bf16 := Memref.whole cc0_scratch0
abbrev lsrcM : Memref sig .tc .vmem S4x2x8x32 .f32 := Memref.whole cc0_scratch1
abbrev orcvM : Memref sig .tc .vmem S3x2x8x32x64 .bf16 := Memref.whole cc0_scratch2
abbrev lrcvM : Memref sig .tc .vmem S3x2x8x32 .f32 := Memref.whole cc0_scratch3
abbrev fsrcM : Memref sig .tc .vmem S2x32x512 .bf16 := Memref.whole cc0_scratch4
abbrev frcvM : Memref sig .tc .vmem S3x2x32x512 .bf16 := Memref.whole cc0_scratch5

abbrev barS : Sem sig := (SemArray.scalar (sig.barrier 0 rfl) : Sems sig S_).sem

def sendIx (k : Fin 3) (r : Fin 3) (b : Fin 2) : DmaSem sig :=
  ⟨(if k.val = 2 then 30 else 6 + k.val * 6) + r.val * 2 + b.val, by
    show _ < 42; have := k.isLt; have := r.isLt; have := b.isLt; split <;> omega⟩
def recvIx (k : Fin 3) (s : Fin 3) (b : Fin 2) : DmaSem sig :=
  ⟨(if k.val = 2 then 36 else 18 + k.val * 6) + s.val * 2 + b.val, by
    show _ < 42; have := k.isLt; have := s.isLt; have := b.isLt; split <;> omega⟩

abbrev barCell (c : Dev nD) : GSem nD τ sig := ((c : Thread nD τ), .reg barS)
abbrev sendCell (c : Dev nD) (k r : Fin 3) (b : Fin 2) : GSem nD τ sig := ((c : Thread nD τ), .dma (sendIx k r b))
abbrev recvCell (c : Dev nD) (k s : Fin 3) (b : Fin 2) : GSem nD τ sig := ((c : Thread nD τ), .dma (recvIx k s b))

abbrev osrcSl (c : Dev nD) (r : Fin 3) : Fin 2 → Memref sig .tc .vmem S8x32x64 .bf16
  | ⟨0, _⟩ => ((osrcM.slice (Rect.unit (s := S4x2x8x32x64) (k0_off1 c (BitVec.ofNat 32 (1 + r.val))) S1x1x8x32x64.size (k0_off1_inb c r)) (fun _ => rfl)).squeeze S8x32x64 squeezes_S1x1x8x32x64_S8x32x64)
  | ⟨_ + 1, _⟩ => ((osrcM.slice (Rect.unit (s := S4x2x8x32x64) (k0_off3 c (BitVec.ofNat 32 (1 + r.val))) S1x1x8x32x64.size (k0_off3_inb c r)) (fun _ => rfl)).squeeze S8x32x64 squeezes_S1x1x8x32x64_S8x32x64)
abbrev lsrcSl (c : Dev nD) (r : Fin 3) : Fin 2 → Memref sig .tc .vmem S8x32 .f32
  | ⟨0, _⟩ => ((lsrcM.slice (Rect.unit (s := S4x2x8x32) (k0_off2 c (BitVec.ofNat 32 (1 + r.val))) S1x1x8x32.size (k0_off2_inb c r)) (fun _ => rfl)).squeeze S8x32 squeezes_S1x1x8x32_S8x32)
  | ⟨_ + 1, _⟩ => ((lsrcM.slice (Rect.unit (s := S4x2x8x32) (k0_off4 c (BitVec.ofNat 32 (1 + r.val))) S1x1x8x32.size (k0_off4_inb c r)) (fun _ => rfl)).squeeze S8x32 squeezes_S1x1x8x32_S8x32)
abbrev fsrcSl (b : Fin 2) : Memref sig .tc .vmem S32x512 .bf16 :=
  ((fsrcM.slice (Rect.unit (s := S2x32x512) ![b.val, 0, 0] S1x32x512.size (by revert b; decide)) (fun _ => rfl)).squeeze S32x512 squeezes_S1x32x512_S32x512)

abbrev orcvSl (s : Fin 3) (b : Fin 2) : Memref sig .tc .vmem S8x32x64 .bf16 :=
  ((orcvM.slice (Rect.unit (s := S3x2x8x32x64) ![s.val, b.val, 0, 0, 0] S1x1x8x32x64.size (by revert s b; decide)) (fun _ => rfl)).squeeze S8x32x64 squeezes_S1x1x8x32x64_S8x32x64)
abbrev lrcvSl (s : Fin 3) (b : Fin 2) : Memref sig .tc .vmem S8x32 .f32 :=
  ((lrcvM.slice (Rect.unit (s := S3x2x8x32) ![s.val, b.val, 0, 0] S1x1x8x32.size (by revert s b; decide)) (fun _ => rfl)).squeeze S8x32 squeezes_S1x1x8x32_S8x32)
abbrev frcvSl (s : Fin 3) (b : Fin 2) : Memref sig .tc .vmem S32x512 .bf16 :=
  ((frcvM.slice (Rect.unit (s := S3x2x32x512) ![s.val, b.val, 0, 0] S1x1x32x512.size (by revert s b; decide)) (fun _ => rfl)).squeeze S32x512 squeezes_S1x1x32x512_S32x512)

section Contents
variable (m : (ℓ : Loc nD τ sig) → Buf (Elt F) ℓ)

def osrcF (c : Dev nD) : Vec F S4x2x8x32x64 .bf16 := fun i => KV.oS m c (i 1) (ix5 (i 0) 0 (i 2) (i 3) (i 4))
def lsrcF (c : Dev nD) : Vec F S4x2x8x32 .f32 := fun i => KV.lS m c (i 1) (ix4 (i 0) 0 (i 2) (i 3))
def fsrcF (c : Dev nD) : Vec F S2x32x512 .bf16 := fun i => KV.fS m c (i 0) (ix3 0 (i 1) (i 2))

def orcvF (c : Dev nD) : Vec F S3x2x8x32x64 .bf16 := fun i => KV.oS m (pl c ((i 0).val + 1)) (i 1) (ix5 c 0 (i 2) (i 3) (i 4))
def lrcvF (c : Dev nD) : Vec F S3x2x8x32 .f32 := fun i => KV.lS m (pl c ((i 0).val + 1)) (i 1) (ix4 c 0 (i 2) (i 3))
def frcvF (c : Dev nD) : Vec F S3x2x32x512 .bf16 := fun i => KV.fS m (pl c ((i 0).val + 1)) (i 1) (ix3 0 (i 2) (i 3))

end Contents

def fshare : Fin 3 → PosShare TreeShare
  | ⟨0, _⟩ => fullShare.left
  | ⟨1, _⟩ => fullShare.right.left
  | ⟨_ + 2, _⟩ => fullShare.right.right

abbrev NO : ℕ := (orcvSl 0 0).view.dmaCredit
abbrev NL : ℕ := (lrcvSl 0 0).view.dmaCredit
abbrev NF : ℕ := (frcvSl 0 0).view.dmaCredit

def NK : Fin 3 → ℕ
  | ⟨0, _⟩ => NO
  | ⟨1, _⟩ => NL
  | ⟨_ + 2, _⟩ => NF

section Sched
variable (m : (ℓ : Loc nD τ sig) → Buf (Elt F) ℓ)

def srcPts (c : Dev nD) (k r : Fin 3) (b : Fin 2) : sProp 𝕄 :=
  match k, b with
  | ⟨0, _⟩, ⟨0, _⟩ => ((osrcSl c r 0).view.loc (c : Thread nD τ) ↦[(osrcSl c r 0).view.set]{fullShare} (osrcF m c))
  | ⟨0, _⟩, ⟨_ + 1, _⟩ => ((osrcSl c r 1).view.loc (c : Thread nD τ) ↦[(osrcSl c r 1).view.set]{fullShare} (osrcF m c))
  | ⟨1, _⟩, ⟨0, _⟩ => ((lsrcSl c r 0).view.loc (c : Thread nD τ) ↦[(lsrcSl c r 0).view.set]{fullShare} (lsrcF m c))
  | ⟨1, _⟩, ⟨_ + 1, _⟩ => ((lsrcSl c r 1).view.loc (c : Thread nD τ) ↦[(lsrcSl c r 1).view.set]{fullShare} (lsrcF m c))
  | ⟨_ + 2, _⟩, b => ((fsrcSl b).view.loc (c : Thread nD τ) ↦[(fsrcSl b).view.set]{fshare r} (fsrcF m c))

def rcvPts (c : Dev nD) (k s : Fin 3) (b : Fin 2) : sProp 𝕄 :=
  match k with
  | ⟨0, _⟩ => ((orcvSl s b).view.loc (c : Thread nD τ) ↦[(orcvSl s b).view.set]{fullShare} (orcvF m c))
  | ⟨1, _⟩ => ((lrcvSl s b).view.loc (c : Thread nD τ) ↦[(lrcvSl s b).view.set]{fullShare} (lrcvF m c))
  | ⟨_ + 2, _⟩ => ((frcvSl s b).view.loc (c : Thread nD τ) ↦[(frcvSl s b).view.set]{fullShare} (frcvF m c))

def rcvAny (c : Dev nD) (k s : Fin 3) (b : Fin 2) : sProp 𝕄 :=
  match k with
  | ⟨0, _⟩ => iprop(∃ f, (orcvSl s b).view.loc (c : Thread nD τ) ↦[(orcvSl s b).view.set]{fullShare} f)
  | ⟨1, _⟩ => iprop(∃ f, (lrcvSl s b).view.loc (c : Thread nD τ) ↦[(lrcvSl s b).view.set]{fullShare} f)
  | ⟨_ + 2, _⟩ => iprop(∃ f, (frcvSl s b).view.loc (c : Thread nD τ) ↦[(frcvSl s b).view.set]{fullShare} f)

def barPay (c : Dev nD) (j : Fin 3) : sProp 𝕄 :=
  iprop(bigSep Finset.univ (fun kb : Fin 3 × Fin 2 =>
    iprop(rcvAny (F := F) (pl c (j.val + 1)) kb.1 ⟨2 - j.val, by omega⟩ kb.2
      ∗ reached ER (recvCell (pl c (j.val + 1)) kb.1 ⟨2 - j.val, by omega⟩ kb.2) 0)))

inductive CellKind where
  | bar
  | send (k r : Fin 3) (b : Fin 2)
  | recv (k s : Fin 3) (b : Fin 2)
  | other
  deriving DecidableEq

def kindOfN (n : ℕ) (h42 : n < 42) : CellKind :=
  if h : n < 6 then .other
  else if h2 : n < 18 then .send ⟨(n - 6) / 6, by omega⟩ ⟨(n - 6) % 6 / 2, by omega⟩ ⟨(n - 6) % 2, by omega⟩
  else if h3 : n < 30 then .recv ⟨(n - 18) / 6, by omega⟩ ⟨(n - 18) % 6 / 2, by omega⟩ ⟨(n - 18) % 2, by omega⟩
  else if h4 : n < 36 then .send 2 ⟨(n - 30) / 2, by omega⟩ ⟨(n - 30) % 2, by omega⟩
  else .recv 2 ⟨(n - 36) / 2, by omega⟩ ⟨(n - 36) % 2, by omega⟩

def kindOf : SemLoc sig → CellKind
  | .reg s => if s = barS then .bar else .other
  | .dma i => kindOfN i.val i.isLt

def Rd : Rounds.Schedule (GSem nD τ sig) (Fin 3) 𝕄 where
  duties g r :=
    if r = 0 ∧ g.1.2 = .tc then
      (match kindOf g.2 with
        | .bar => Finset.univ
        | .send _ _ _ => {0}
        | .recv _ _ _ => {0}
        | .other => ∅)
    else ∅
  unitless _ := False
  amount g _ _ :=
    match kindOf g.2 with
    | .bar => 1
    | .send k _ _ => NK k
    | .recv k _ _ => NK k
    | .other => 1
  payload g _ d :=
    match kindOf g.2 with
    | .bar => barPay (F := F) g.1.1 d
    | .send k r b => srcPts m g.1.1 k r b
    | .recv k s b => rcvPts m g.1.1 k s b
    | .other => iprop(emp)
  amount_pos g _ _ _ := by
    cases kindOf g.2 with
    | bar => exact Nat.one_pos
    | send k _ _ => rcases k with ⟨_ | _ | k, hk⟩ <;> exact View.dmaCredit_pos _ (by decide)
    | recv k _ _ => rcases k with ⟨_ | _ | k, hk⟩ <;> exact View.dmaCredit_pos _ (by decide)
    | other => exact Nat.one_pos

end Sched

abbrev Xf : Type := Fin 3 × Fin 3 × Fin 2

def ordS (t : Xf) : ℕ := if t.1.val = 2 then 12 + 3 * t.2.2.val + t.2.1.val else 6 * t.2.2.val + 2 * t.2.1.val + t.1.val
def ordR (t : Xf) : ℕ := if t.1.val = 2 then 12 + 3 * t.2.2.val + (2 - t.2.1.val) else 6 * t.2.2.val + 2 * (2 - t.2.1.val) + t.1.val
def ordW (t : Xf) : ℕ := 9 * t.2.2.val + (if t.1.val = 2 then 6 + t.2.1.val else 2 * t.2.1.val + t.1.val)

abbrev tgt (c : Dev nD) (t : Xf) : Dev nD := pl c (t.2.1.val + 1)
def slotOf (r : Fin 3) : Fin 3 := ⟨2 - r.val, by omega⟩
abbrev sndCell (c : Dev nD) (t : Xf) : GSem nD τ sig := sendCell c t.1 t.2.1 t.2.2
abbrev dstCell (c : Dev nD) (t : Xf) : GSem nD τ sig := recvCell (tgt c t) t.1 (slotOf t.2.1) t.2.2
abbrev rcvCellX (c : Dev nD) (t : Xf) : GSem nD τ sig := recvCell c t.1 t.2.1 t.2.2

def owedSends (c : Dev nD) (n : ℕ) : CellTallies nD τ sig Unit :=
  ∑ t ∈ (Finset.univ : Finset Xf).filter (fun t => n ≤ ordS t), tallyAt (dstCell c t) () (NK t.1)

def owedSigs (c : Dev nD) (j : ℕ) : CellTallies nD τ sig Unit :=
  ∑ d ∈ (Finset.univ : Finset (Fin 3)).filter (fun d => j ≤ d.val), tallyAt (barCell (pl c (d.val + 1))) () 1
def O₀ (c : Dev nD) : CellTallies nD τ sig Unit := owedSends c 0 + owedSigs c 0

def L (g : GSem nD τ sig) : Finset Unit := if g.1.2 = .tc then {()} else ∅

def lv (g : GSem nD τ sig) (_ : Unit) : ℕ :=
  match kindOf g.2 with
  | .bar => 1
  | .recv k _ b => (if k.val = 2 then 4 else 2) + b.val
  | _ => 0

section State
variable (m : (ℓ : Loc nD τ sig) → Buf (Elt F) ℓ) (ρ : Dev nD → PrngReg)

def csem (i : Fin 37) : SemLoc sig := if i.val = 0 then .reg barS else .dma ⟨i.val + 5, by show _ < 42; omega⟩
abbrev kcell (ck : Dev nD × Fin 37) : GSem nD τ sig := ((ck.1 : Thread nD τ), csem ck.2)
def sIdx (k r : Fin 3) (b : Fin 2) : Fin 37 := ⟨(sendIx k r b).val - 5, by
  show (if k.val = 2 then 30 else 6 + k.val * 6) + r.val * 2 + b.val - 5 < 37; have := k.isLt; have := r.isLt; have := b.isLt; split <;> omega⟩
def rIdx (k s : Fin 3) (b : Fin 2) : Fin 37 := ⟨(recvIx k s b).val - 5, by
  show (if k.val = 2 then 36 else 18 + k.val * 6) + s.val * 2 + b.val - 5 < 37; have := k.isLt; have := s.isLt; have := b.isLt; split <;> omega⟩

def records (K : Dev nD × Fin 37 → ℕ) : sProp 𝕄 :=
  iprop((bigSep Finset.univ fun ck : Dev nD × Fin 37 => cellInv ER (Rd m) (K ck) (kcell ck))
    ∗ bigSep Finset.univ fun ck : Dev nD × Fin 37 => reached ER (kcell ck) 0)

def sendTok (c : Dev nD) (t : Xf) : sProp 𝕄 := iprop(dutyTok ER (sndCell c t) 0 0 ∗ dutyTok ER (dstCell c t) 0 0)

def sigTok (c : Dev nD) (d : Fin 3) : sProp 𝕄 := dutyTok ER (barCell (pl c (d.val + 1))) 0 (slotOf d)

def flight (c : Dev nD) (ns nr nw : ℕ) : sProp 𝕄 :=
  iprop((bigSep ((Finset.univ : Finset Xf).filter fun t => ns ≤ ordS t) fun t =>
          iprop(sendTok (F := F) c t ∗ rcvAny (F := F) (tgt c t) t.1 (slotOf t.2.1) t.2.2))
    ∗ (bigSep ((Finset.univ : Finset Xf).filter fun t => ordS t < ns ∧ nw ≤ ordW t) fun t => cred (tallyAt (sndCell c t) () (NK t.1)))
    ∗ (bigSep ((Finset.univ : Finset Xf).filter fun t => nw ≤ ordW t) fun t => atPos ER (sndCell c t) 0 ∅ 0)
    ∗ (bigSep ((Finset.univ : Finset Xf).filter fun t => ordW t < nw) fun t => iprop(semVal (sndCell c t) 0 ∗ srcPts m c t.1 t.2.1 t.2.2))
    ∗ (bigSep ((Finset.univ : Finset Xf).filter fun t => nr ≤ ordR t) fun t =>
          iprop(cred (tallyAt (rcvCellX c t) () (NK t.1)) ∗ atPos ER (rcvCellX c t) 0 ∅ 0))
    ∗ (bigSep ((Finset.univ : Finset Xf).filter fun t => ordR t < nr) fun t => iprop(semVal (rcvCellX c t) 0 ∗ rcvPts m c t.1 t.2.1 t.2.2))
    ∗ ∃ W : Waits sig Unit, owes (c : Thread nD τ) (owedSends c ns) W)

end State

end Cert.KernelIdeal.Proto

end
-- ==== Proof.BodyDefs.lean ====
-- The body cut into seven stages, and what a device holds between them.
import proofs.«900757_g7700000000000758_dist_attn_cross_mha_kvseq_b2_sq128_skv128_d512_hq8_dh64_v7x_i4_f32_1_alg».proof.Proof.Proto

noncomputable section

namespace Cert.KernelIdeal.Proto

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ UU ℕ

abbrev 𝒱₀ : Variants := Variants.none

-- every part of the body takes the same twelve buffers and four semaphore arrays: a part at this kernel's own
abbrev atBufs {α : Sort _} (p : (a0 : Memref sig .tc .vmem S2x128x512 .f32) → a0.IsWhole → (a1 : Memref sig .tc .vmem S512x512 .f32) → a1.IsWhole → (a2 : Memref sig .tc .vmem S512x512 .f32) → a2.IsWhole → (a3 : Memref sig .tc .vmem S2x128x8x64 .f32) → a3.IsWhole → (a4 : Memref sig .tc .vmem S2x128x8x64 .f32) → a4.IsWhole → (a5 : Memref sig .tc .vmem S2x128x512 .f32) → a5.IsWhole → (a6 : Memref sig .tc .vmem S4x2x8x32x64 .bf16) → a6.IsWhole → (a7 : Memref sig .tc .vmem S4x2x8x32 .f32) → a7.IsWhole → (a8 : Memref sig .tc .vmem S3x2x8x32x64 .bf16) → a8.IsWhole → (a9 : Memref sig .tc .vmem S3x2x8x32 .f32) → a9.IsWhole → (a10 : Memref sig .tc .vmem S2x32x512 .bf16) → a10.IsWhole → (a11 : Memref sig .tc .vmem S3x2x32x512 .bf16) → a11.IsWhole → DmaSems sig S2x3x2 → DmaSems sig S2x3x2 → DmaSems sig S3x2 → DmaSems sig S3x2 → α) : α :=
  p xM (Memref.isWhole_whole _) wqM (Memref.isWhole_whole _) woM (Memref.isWhole_whole _) kM (Memref.isWhole_whole _) vM (Memref.isWhole_whole _) outM (Memref.isWhole_whole _) osrcM (Memref.isWhole_whole _) lsrcM (Memref.isWhole_whole _) orcvM (Memref.isWhole_whole _) lrcvM (Memref.isWhole_whole _) fsrcM (Memref.isWhole_whole _) frcvM (Memref.isWhole_whole _) cc0_scratch6 cc0_scratch7 cc0_scratch8 cc0_scratch9

def tailF (d0 : Dev nD) : Prog (TpuEff nD τ sig (Elt F) Λ₀ .tc) PUnit := do
  atBufs (k0_part28 (F := F)) d0
  atBufs (k0_part29 (F := F)) d0
  atBufs (k0_part30 (F := F)) d0
  atBufs (k0_part31 (F := F)) d0
  atBufs (k0_part32 (F := F)) d0
  let v822 : DmaSems sig S1x1 := cc0_scratch8.slice (Rect.unit (s := S3x2) ![1, 1] S1x1.size inb_S3x2_S1x1_1_1)
  let v823 : DmaSems sig S_ := v822.squeeze S_ squeezes_S1x1_S_
  let v824 : Memref sig .tc .vmem S1x32x512 .bf16 := fsrcM.slice (Rect.unit (s := S2x32x512) ![1, 0, 0] S1x32x512.size inb_S2x32x512_S1x32x512_1_0_0) (fun _ => rfl)
  let v825 : Memref sig .tc .vmem S32x512 .bf16 := v824.squeeze S32x512 squeezes_S1x32x512_S32x512
  let v826 : Memref sig .tc .vmem S1x1x32x512 .bf16 := frcvM.slice (Rect.unit (s := S3x2x32x512) ![1, 1, 0, 0] S1x1x32x512.size inb_S3x2x32x512_S1x1x32x512_1_1_0_0) (fun _ => rfl)
  let v827 : Memref sig .tc .vmem S32x512 .bf16 := v826.squeeze S32x512 squeezes_S1x1x32x512_S32x512
  Prog.lift (.waitDma2 v823.sem v827 v825 (((Memref.isWhole_whole cc0_scratch5).wordExact_slice rfl _ wordsbf16_S3x2x32x512_S1x1x32x512_1_1_0_0).reshape _ _) (((Memref.isWhole_whole cc0_scratch4).wordExact_slice rfl _ wordsbf16_S2x32x512_S1x32x512_1_0_0).reshape _ _))
  pure ⟨⟩

def tailE (v2 : BitVec 32) (v387 : BitVec 32) (v399 : BitVec 32) (d0 : Dev nD) (v577 : BitVec 32) (v589 : BitVec 32) (v601 : BitVec 32) : Prog (TpuEff nD τ sig (Elt F) Λ₀ .tc) PUnit := do
  let v638 : BitVec 32 ← atBufs (k0_part23 (F := F)) v2 v387 v399
  atBufs (k0_part24 (F := F)) d0 v2 v638
  atBufs (k0_part25 (F := F)) v577 v589 v601
  let v718 : BitVec 32 ← atBufs (k0_part26 (F := F)) d0 v2
  atBufs (k0_part27 (F := F)) d0 v718
  tailF d0

def tailD (d0 : Dev nD) (v163 : BitVec 32) (v185 : BitVec 32) (v2 : BitVec 32) (v207 : FVec F S512x512 .f32) (v375 : BitVec 32) (v387 : BitVec 32) (v399 : BitVec 32) : Prog (TpuEff nD τ sig (Elt F) Λ₀ .tc) PUnit := do
  atBufs (k0_part17 (F := F)) d0 v163 v185
  let ⟨v460, v462, v464, v466⟩ : Σ' (v460 : FVec F S8x32 .f32) (v462 : FVec F S8x32 .f32) (v464 : FVec F S8x32 .f32), FVec F S8x32 .f32 ← atBufs (k0_part18 (F := F)) d0 v2 v185
  let ⟨v485, v487, v496, v505⟩ : Σ' (v485 : FVec F S8x32x64 .f32) (v487 : FVec F S8x32 .f32) (v496 : FVec F S32x512 .f32), FVec F S32x512 .f32 ← atBufs (k0_part19 (F := F)) d0 v207 v460 v462 v464 v466
  let ⟨v556, v558, v560⟩ : Σ' (v556 : FVec F S32x512 .f32) (v558 : FVec F S32x64 .f32), FVec F S32 .f32 ← atBufs (k0_part20 (F := F)) v207 v485 v487 v496 v505
  let ⟨v577, v589⟩ : Σ' (v577 : BitVec 32), BitVec 32 ← atBufs (k0_part21 (F := F)) d0 v2 v207 v556 v558 v560
  let v601 : BitVec 32 ← atBufs (k0_part22 (F := F)) d0 v2 v375 v589
  tailE v2 v387 v399 d0 v577 v589 v601

def tailC (d0 : Dev nD) (v71 : BitVec 32) (v216 : BitVec 32) (c0_i32_291 : BitVec 32) (v2 : BitVec 32) (v93 : BitVec 32) (v207 : FVec F S512x512 .f32) (v141 : BitVec 32) (v163 : BitVec 32) (v185 : BitVec 32) : Prog (TpuEff nD τ sig (Elt F) Λ₀ .tc) PUnit := do
  atBufs (k0_part10 (F := F)) d0 v71 v216 c0_i32_291
  let v258 : FVec F S8x32 .f32 ← atBufs (k0_part11 (F := F)) d0 v2 v93
  let ⟨v283, v285, v287, v288⟩ : Σ' (v283 : FVec F S8x32x64 .f32) (v285 : FVec F S8x32 .f32) (v287 : FVec F S32x64 .f32), FVec F S1x32 .f32 ← atBufs (k0_part12 (F := F)) d0 v2 v258
  let ⟨v334, v341, v342, cst_399⟩ : Σ' (v334 : FVec F S32x512 .f32) (v341 : FVec F S32x64 .f32) (v342 : FVec F S64x512 .f32), FVec F S32x512 .f32 ← atBufs (k0_part13 (F := F)) v207 v283 v285 v287 v288
  let v375 : BitVec 32 ← atBufs (k0_part14 (F := F)) d0 v2 v207 v283 v285 v334 v341 v342 cst_399
  let ⟨v387, v399⟩ : Σ' (v387 : BitVec 32), BitVec 32 ← atBufs (k0_part15 (F := F)) d0 v2
  atBufs (k0_part16 (F := F)) d0 v141
  tailD d0 v163 v185 v2 v207 v375 v387 v399

def tailB (d0 : Dev nD) (v2 : BitVec 32) (v119 : FVec F S8x128x64 .f32) (v126 : FVec F S8x128x128 .f32) (v127 : FVec F S8x128 .f32) (v49 : BitVec 32) (v71 : BitVec 32) (v93 : BitVec 32) : Prog (TpuEff nD τ sig (Elt F) Λ₀ .tc) PUnit := do
  let v141 : BitVec 32 ← atBufs (k0_part6 (F := F)) d0 v2 v119 v126 v127
  let v163 : BitVec 32 ← atBufs (k0_part7 (F := F)) d0 v2 v141
  let v185 : BitVec 32 ← atBufs (k0_part8 (F := F)) d0 v2 v163
  let ⟨v207, v216, c0_i32_291⟩ : Σ' (v207 : FVec F S512x512 .f32) (v216 : BitVec 32), BitVec 32 ← atBufs (k0_part9 (F := F)) d0 v49 v185
  tailC d0 v71 v216 c0_i32_291 v2 v93 v207 v141 v163 v185

def tailA  : Prog (TpuEff nD τ sig (Elt F) Λ₀ .tc) PUnit := do
  let ⟨d0, v2, v21, v24⟩ : Σ' (d0 : Dev nD) (v2 : BitVec 32) (v21 : FVec F S256x512 .f32), FVec F S8x128x64 .f32 ← atBufs (k0_part1 (F := F))
  let v49 : BitVec 32 ← atBufs (k0_part2 (F := F)) v2 v21 v24
  let v71 : BitVec 32 ← atBufs (k0_part3 (F := F)) d0 v2 v49
  let v93 : BitVec 32 ← atBufs (k0_part4 (F := F)) d0 v2 v71
  let ⟨v119, v126, v127⟩ : Σ' (v119 : FVec F S8x128x64 .f32) (v126 : FVec F S8x128x128 .f32), FVec F S8x128 .f32 ← atBufs (k0_part5 (F := F)) d0 v21 v93
  tailB d0 v2 v119 v126 v127 v49 v71 v93

abbrev oRect (b : Fin 2) : Rect S4x2x8x32x64 := Rect.unit (s := S4x2x8x32x64) ![0, b.val, 0, 0, 0] S4x1x8x32x64.size (by revert b; decide)
abbrev lRect (b : Fin 2) : Rect S4x2x8x32 := Rect.unit (s := S4x2x8x32) ![0, b.val, 0, 0] S4x1x8x32.size (by revert b; decide)
abbrev fRect (b : Fin 2) : Rect S2x32x512 := Rect.unit (s := S2x32x512) ![b.val, 0, 0] S1x32x512.size (by revert b; decide)

abbrev oOwnRect (c : Dev nD) : Fin 2 → Rect S4x2x8x32x64
  | ⟨0, _⟩ => Rect.unit (s := S4x2x8x32x64) (k0_off6 c) S1x1x8x32x64.size (k0_off6_inb c)
  | ⟨_ + 1, _⟩ => Rect.unit (s := S4x2x8x32x64) (k0_off9 c) S1x1x8x32x64.size (k0_off9_inb c)
abbrev lOwnRect (c : Dev nD) : Fin 2 → Rect S4x2x8x32
  | ⟨0, _⟩ => Rect.unit (s := S4x2x8x32) (k0_off5 c) S1x1x8x32.size (k0_off5_inb c)
  | ⟨_ + 1, _⟩ => Rect.unit (s := S4x2x8x32) (k0_off8 c) S1x1x8x32.size (k0_off8_inb c)

abbrev outOwnRect (c : Dev nD) : Fin 2 → Rect S2x128x512
  | ⟨0, _⟩ => Rect.unit (s := S2x128x512) (k0_off7 c) S1x32x512.size (k0_off7_inb c)
  | ⟨_ + 1, _⟩ => Rect.unit (s := S2x128x512) (k0_off10 c) S1x32x512.size (k0_off10_inb c)
abbrev outRcvRect (c : Dev nD) (s : Fin 3) : Fin 2 → Rect S2x128x512
  | ⟨0, _⟩ => Rect.unit (s := S2x128x512) (k0_off11 c (BitVec.ofNat 32 s.val)) S1x32x512.size (k0_off11_inb c s)
  | ⟨_ + 1, _⟩ => Rect.unit (s := S2x128x512) (k0_off12 c (BitVec.ofNat 32 s.val)) S1x32x512.size (k0_off12_inb c s)

section Pieces
variable (m : (ℓ : Loc nD τ sig) → Buf (Elt F) ℓ)

def inP (c : Dev nD) : sProp 𝕄 :=
  iprop((((c : Thread nD τ).loc cc0_stg0_0) ↦{fullShare} KV.stg0 m c) ∗ (((c : Thread nD τ).loc cc0_stg1_0) ↦{fullShare} KV.stg1 m c)
    ∗ (((c : Thread nD τ).loc cc0_stg2_0) ↦{fullShare} KV.stg2 m c) ∗ (((c : Thread nD τ).loc cc0_stg3_0) ↦{fullShare} KV.stg3 m c)
    ∗ (((c : Thread nD τ).loc cc0_stg4_0) ↦{fullShare} KV.stg4 m c))

def outX (c : Dev nD) (d : (cc0_stg5_0 : Ref sig .tc).ty.Contents (Elt F)) : ℕ → (cc0_stg5_0 : Ref sig .tc).ty.Contents (Elt F)
  | 0 => d
  | 1 => (outM.access (outOwnRect c 0)).write (Elt F) (outX c d 0) (KV.own0 m c) Finset.univ
  | 2 => (outM.access (outOwnRect c 1)).write (Elt F) (outX c d 1) (KV.own1 m c) Finset.univ
  | 3 => (outM.access (outRcvRect c 0 0)).write (Elt F) (outX c d 2) (KV.rcv m c 0 0) Finset.univ
  | 4 => (outM.access (outRcvRect c 1 0)).write (Elt F) (outX c d 3) (KV.rcv m c 1 0) Finset.univ
  | 5 => (outM.access (outRcvRect c 2 0)).write (Elt F) (outX c d 4) (KV.rcv m c 2 0) Finset.univ
  | 6 => (outM.access (outRcvRect c 0 1)).write (Elt F) (outX c d 5) (KV.rcv m c 0 1) Finset.univ
  | 7 => (outM.access (outRcvRect c 1 1)).write (Elt F) (outX c d 6) (KV.rcv m c 1 1) Finset.univ
  | _ + 8 => (outM.access (outRcvRect c 2 1)).write (Elt F) (outX c d 7) (KV.rcv m c 2 1) Finset.univ
def outP (c : Dev nD) (d : (cc0_stg5_0 : Ref sig .tc).ty.Contents (Elt F)) (n : ℕ) : sProp 𝕄 :=
  (((c : Thread nD τ).loc cc0_stg5_0) ↦{fullShare} outX m c d n)

def oSlabAny (c : Dev nD) (b : Fin 2) : sProp 𝕄 := iprop(∃ f, (osrcM.access (oRect b)).loc (c : Thread nD τ) ↦[(osrcM.access (oRect b)).set]{fullShare} f)
def lSlabAny (c : Dev nD) (b : Fin 2) : sProp 𝕄 := iprop(∃ f, (lsrcM.access (lRect b)).loc (c : Thread nD τ) ↦[(lsrcM.access (lRect b)).set]{fullShare} f)
def fSlabAny (c : Dev nD) (b : Fin 2) : sProp 𝕄 := iprop(∃ f, (fsrcM.access (fRect b)).loc (c : Thread nD τ) ↦[(fsrcM.access (fRect b)).set]{fullShare} f)

def oOwn (c : Dev nD) (b : Fin 2) : sProp 𝕄 :=
  match b with
  | ⟨0, _⟩ => (osrcM.view.loc (c : Thread nD τ) ↦[osrcM.view.setOn (oOwnRect c 0).toLoadRect.set]{fullShare} osrcF m c)
  | ⟨_ + 1, _⟩ => (osrcM.view.loc (c : Thread nD τ) ↦[osrcM.view.setOn (oOwnRect c 1).toLoadRect.set]{fullShare} osrcF m c)
def lOwn (c : Dev nD) (b : Fin 2) : sProp 𝕄 :=
  match b with
  | ⟨0, _⟩ => (lsrcM.view.loc (c : Thread nD τ) ↦[lsrcM.view.setOn (lOwnRect c 0).toLoadRect.set]{fullShare} lsrcF m c)
  | ⟨_ + 1, _⟩ => (lsrcM.view.loc (c : Thread nD τ) ↦[lsrcM.view.setOn (lOwnRect c 1).toLoadRect.set]{fullShare} lsrcF m c)

def scratchAny (c : Dev nD) : sProp 𝕄 :=
  iprop((∃ f, ((c : Thread nD τ).loc cc0_scratch0) ↦{fullShare} f) ∗ (∃ f, ((c : Thread nD τ).loc cc0_scratch1) ↦{fullShare} f)
    ∗ (∃ f, ((c : Thread nD τ).loc cc0_scratch2) ↦{fullShare} f) ∗ (∃ f, ((c : Thread nD τ).loc cc0_scratch3) ↦{fullShare} f)
    ∗ (∃ f, ((c : Thread nD τ).loc cc0_scratch4) ↦{fullShare} f) ∗ (∃ f, ((c : Thread nD τ).loc cc0_scratch5) ↦{fullShare} f))

end Pieces

section Stages
variable (m : (ℓ : Loc nD τ sig) → Buf (Elt F) ℓ) (K : Dev nD × Fin 37 → ℕ)

def keep (c : Dev nD) : sProp 𝕄 := iprop(records m K ∗ levAts L lv ∗ inP m c)

def St0 (c : Dev nD) (d : (cc0_stg5_0 : Ref sig .tc).ty.Contents (Elt F)) : sProp 𝕄 :=
  iprop(keep m K c ∗ atPos ER (barCell c) 0 ∅ 0 ∗ cred (tallyAt (barCell c) () 3)
    ∗ (sigTok (F := F) c 0 ∗ sigTok (F := F) c 1 ∗ sigTok (F := F) c 2)
    ∗ (bigSep (Finset.univ : Finset Xf) fun t => sendTok (F := F) c t)
    ∗ (bigSep (Finset.univ : Finset Xf) fun t => atPos ER (sndCell c t) 0 ∅ 0)
    ∗ (bigSep (Finset.univ : Finset Xf) fun t => iprop(cred (tallyAt (rcvCellX c t) () (NK t.1)) ∗ atPos ER (rcvCellX c t) 0 ∅ 0))
    ∗ scratchAny (F := F) c ∗ outP m c d 0
    ∗ ∃ W : Waits sig Unit, owes (c : Thread nD τ) (O₀ c) W)

def StH (c : Dev nD) (d : (cc0_stg5_0 : Ref sig .tc).ty.Contents (Elt F)) : sProp 𝕄 :=
  iprop(keep m K c ∗ flight m c 0 0 0 ∗ (∃ f, ((c : Thread nD τ).loc cc0_scratch0) ↦{fullShare} f) ∗ (∃ f, ((c : Thread nD τ).loc cc0_scratch1) ↦{fullShare} f)
    ∗ (∃ f, ((c : Thread nD τ).loc cc0_scratch4) ↦{fullShare} f) ∗ outP m c d 0)

def St1 (c : Dev nD) (d : (cc0_stg5_0 : Ref sig .tc).ty.Contents (Elt F)) : sProp 𝕄 :=
  iprop(keep m K c ∗ flight m c 6 0 0 ∗ oOwn m c 0 ∗ lOwn m c 0 ∗ oSlabAny (F := F) c 1 ∗ lSlabAny (F := F) c 1
    ∗ (∃ f, ((c : Thread nD τ).loc cc0_scratch4) ↦{fullShare} f) ∗ outP m c d 0)

def St2 (c : Dev nD) (d : (cc0_stg5_0 : Ref sig .tc).ty.Contents (Elt F)) : sProp 𝕄 :=
  iprop(keep m K c ∗ flight m c 12 1 0 ∗ oOwn m c 0 ∗ lOwn m c 0 ∗ oOwn m c 1 ∗ lOwn m c 1
    ∗ (∃ f, ((c : Thread nD τ).loc cc0_scratch4) ↦{fullShare} f) ∗ outP m c d 0)

def St3 (c : Dev nD) (d : (cc0_stg5_0 : Ref sig .tc).ty.Contents (Elt F)) : sProp 𝕄 :=
  iprop(keep m K c ∗ flight m c 15 8 0 ∗ oOwn m c 0 ∗ lOwn m c 0 ∗ oOwn m c 1 ∗ lOwn m c 1 ∗ fSlabAny (F := F) c 1 ∗ outP m c d 1)

def St4 (c : Dev nD) (d : (cc0_stg5_0 : Ref sig .tc).ty.Contents (Elt F)) : sProp 𝕄 :=
  iprop(keep m K c ∗ flight m c 18 12 0 ∗ oOwn m c 0 ∗ lOwn m c 0 ∗ oOwn m c 1 ∗ lOwn m c 1 ∗ outP m c d 2)

def St5 (c : Dev nD) (d : (cc0_stg5_0 : Ref sig .tc).ty.Contents (Elt F)) : sProp 𝕄 :=
  iprop(keep m K c ∗ flight m c 18 18 2 ∗ oOwn m c 0 ∗ lOwn m c 0 ∗ oOwn m c 1 ∗ lOwn m c 1 ∗ outP m c d 8)

def St6 (c : Dev nD) (d : (cc0_stg5_0 : Ref sig .tc).ty.Contents (Elt F)) : sProp 𝕄 :=
  iprop(keep m K c ∗ flight m c 18 18 17 ∗ oOwn m c 0 ∗ lOwn m c 0 ∗ oOwn m c 1 ∗ lOwn m c 1 ∗ outP m c d 8)

def StEnd (c : Dev nD) : sProp 𝕄 :=
  iprop(scratchAny (F := F) c
    ∗ (bigSep (Finset.univ : Finset Xf) fun t => semVal (sndCell c t) 0)
    ∗ (bigSep (Finset.univ : Finset Xf) fun t => semVal (rcvCellX c t) 0)
    ∗ inP m c ∗ (((c : Thread nD τ).loc cc0_stg5_0) ↦{fullShare} KV.outVal m c)
    ∗ ∃ W : Waits sig Unit, owes (c : Thread nD τ) 0 W)

end Stages

-- a receive slot already waited for can be borrowed from the state and given back
theorem flight_rcv_acc (m : (ℓ : Loc nD τ sig) → Buf (Elt F) ℓ) (c : Dev nD) (ns nr nw : ℕ) (t : Xf) (ht : ordR t < nr) :
    flight m c ns nr nw ⊢ iprop(rcvPts m c t.1 t.2.1 t.2.2 ∗ (rcvPts m c t.1 t.2.1 t.2.2 -∗ flight m c ns nr nw)) := by
  have hmem : t ∈ (Finset.univ : Finset Xf).filter (fun t => ordR t < nr) := Finset.mem_filter.mpr ⟨Finset.mem_univ _, ht⟩
  have h6 : bigSep ((Finset.univ : Finset Xf).filter fun t => ordR t < nr) (fun t => iprop(semVal (rcvCellX c t) 0 ∗ rcvPts m c t.1 t.2.1 t.2.2))
      = iprop(iprop(semVal (rcvCellX c t) 0 ∗ rcvPts m c t.1 t.2.1 t.2.2)
          ∗ bigSep (((Finset.univ : Finset Xf).filter fun t => ordR t < nr).erase t) (fun t => iprop(semVal (rcvCellX c t) 0 ∗ rcvPts m c t.1 t.2.1 t.2.2))) :=
    bigSep_erase hmem
  unfold flight
  rw [h6]
  iintro ⟨H1, H2, H3, H4, H5, ⟨⟨Hz, Hp⟩, H6⟩, HO⟩
  isplitl [Hp]; · iexact Hp
  iintro Hp
  isplitl [H1]; · iexact H1
  isplitl [H2]; · iexact H2
  isplitl [H3]; · iexact H3
  isplitl [H4]; · iexact H4
  isplitl [H5]; · iexact H5
  isplitr [HO]
  · isplitr [H6]
    · isplitl [Hz]; · iexact Hz
      iexact Hp
    iexact H6
  iexact HO

/-- A load from a receive slot already waited for: the slot is borrowed from the state and given back. -/
theorem ld_slot (m : (ℓ : Loc nD τ sig) → Buf (Elt F) ℓ) (c : Dev nD) (ns nr nw : ℕ) (t : Xf) (ht : ordR t < nr)
    {s : Shape} {e : EltTy} (M : Memref sig .tc .vmem s e) {r : LoadRect s} (v : r.shape.Idx → Elt F e) {S : Finset _}
    {f : Buf (Elt F) (M.view.loc (c : Thread nD τ))}
    (hS : M.view.setOn r.set ⊆ S) (hv : M.view.readAt (Elt F) r f = v)
    (hp : rcvPts m c t.1 t.2.1 t.2.2 = (M.view.loc (c : Thread nD τ) ↦[S]{fullShare} f))
    {hl : M.view.LoadsAt r} {α : Type} {Q : α → sProp 𝕄} {k : (r.shape.Idx → Elt F e) → Prog (TpuEff nD τ sig (Elt F) Λ₀ .tc) α} :
    flight m c ns nr nw ⊢ iprop((flight m c ns nr nw -∗ wp frame (wpE (defs₀ (F := F)) 𝒱₀ (c : Thread nD τ) none) Set.univ (k v) Q)
        -∗ wp frame (wpE (defs₀ (F := F)) 𝒱₀ (c : Thread nD τ) none) Set.univ (.op (.load M r hl) k) Q) := by
  subst hv
  have h := flight_rcv_acc m c ns nr nw t ht
  rw [hp] at h
  iintro Hfl Hk
  ihave ⟨Hp, Hback⟩ := h $$ Hfl
  iapply (wp_load 𝒱₀ (c : Thread nD τ) none Set.univ hS) $$ Hp
  iintro Hp
  iapply Hk; iapply Hback; iexact Hp

end Cert.KernelIdeal.Proto

end
-- ==== Proof.Tables.lean ====
-- The schedule read cell by cell: the duties, amounts and payloads of a barrier, a send and a receive cell.
import proofs.«900757_g7700000000000758_dist_attn_cross_mha_kvseq_b2_sq128_skv128_d512_hq8_dh64_v7x_i4_f32_1_alg».proof.Proof.Proto

noncomputable section

namespace Cert.KernelIdeal.Proto

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ UU ℕ

theorem kindOf_bar : kindOf (.reg barS) = .bar := by
  show (if barS = barS then CellKind.bar else CellKind.other) = CellKind.bar
  exact if_pos rfl

theorem kindOf_send (k r : Fin 3) (b : Fin 2) : kindOf (.dma (sendIx k r b)) = .send k r b := by
  revert k r b; decide

theorem kindOf_recv (k s : Fin 3) (b : Fin 2) : kindOf (.dma (recvIx k s b)) = .recv k s b := by
  revert k s b; decide

section Tables
variable (m : (ℓ : Loc nD τ sig) → Buf (Elt F) ℓ)

theorem duties_bar (c : Dev nD) : (Rd (F := F) m).duties (barCell c) 0 = Finset.univ := by
  dsimp only [Rd]; rw [if_pos ⟨rfl, rfl⟩, kindOf_bar]

theorem duties_send (c : Dev nD) (k r : Fin 3) (b : Fin 2) : (Rd (F := F) m).duties (sendCell c k r b) 0 = {0} := by
  dsimp only [Rd]; rw [if_pos ⟨rfl, rfl⟩, kindOf_send]

theorem duties_recv (c : Dev nD) (k s : Fin 3) (b : Fin 2) : (Rd (F := F) m).duties (recvCell c k s b) 0 = {0} := by
  dsimp only [Rd]; rw [if_pos ⟨rfl, rfl⟩, kindOf_recv]

theorem duties_later (g : GSem nD τ sig) : ∀ r, 1 ≤ r → (Rd (F := F) m).duties g r = ∅ :=
  fun r hr => by dsimp only [Rd]; rw [if_neg fun h => by have := h.1; omega]

theorem amount_bar (c : Dev nD) (j : Fin 3) : (Rd (F := F) m).amount (barCell c) 0 j = 1 := by
  dsimp only [Rd]; rw [kindOf_bar]

theorem amount_send (c : Dev nD) (k r : Fin 3) (b : Fin 2) (j : Fin 3) : (Rd (F := F) m).amount (sendCell c k r b) 0 j = NK k := by
  dsimp only [Rd]; rw [kindOf_send]

theorem amount_recv (c : Dev nD) (k s : Fin 3) (b : Fin 2) (j : Fin 3) : (Rd (F := F) m).amount (recvCell c k s b) 0 j = NK k := by
  dsimp only [Rd]; rw [kindOf_recv]

theorem expect_bar (c : Dev nD) : (Rd (F := F) m).expect (barCell c) 0 = 3 := by
  unfold Schedule.expect Schedule.amountOf
  rw [duties_bar, Finset.sum_congr rfl fun d _ => amount_bar m c d, Finset.sum_const, Finset.card_univ, Fintype.card_fin, smul_eq_mul]

theorem expect_send (c : Dev nD) (k r : Fin 3) (b : Fin 2) : (Rd (F := F) m).expect (sendCell c k r b) 0 = NK k := by
  unfold Schedule.expect Schedule.amountOf; rw [duties_send, Finset.sum_singleton, amount_send]

theorem expect_recv (c : Dev nD) (k s : Fin 3) (b : Fin 2) : (Rd (F := F) m).expect (recvCell c k s b) 0 = NK k := by
  unfold Schedule.expect Schedule.amountOf; rw [duties_recv, Finset.sum_singleton, amount_recv]

theorem payload_bar (c : Dev nD) (j : Fin 3) : (Rd (F := F) m).payload (barCell c) 0 j = barPay c j := by
  dsimp only [Rd]; rw [kindOf_bar]

theorem payload_send (c : Dev nD) (k r : Fin 3) (b : Fin 2) (j : Fin 3) : (Rd (F := F) m).payload (sendCell c k r b) 0 j = srcPts m c k r b := by
  dsimp only [Rd]; rw [kindOf_send]

theorem payload_recv (c : Dev nD) (k s : Fin 3) (b : Fin 2) (j : Fin 3) : (Rd (F := F) m).payload (recvCell c k s b) 0 j = rcvPts m c k s b := by
  dsimp only [Rd]; rw [kindOf_recv]

end Tables

section Store
variable (m : (ℓ : Loc nD τ sig) → Buf (Elt F) ℓ)

instance srcPts_storable (c : Dev nD) (k r : Fin 3) (b : Fin 2) : BI.Storable (upEmb : UEmb _ 𝕄) (srcPts (F := F) m c k r b) := by
  unfold srcPts; split <;> infer_instance

instance rcvPts_storable (c : Dev nD) (k s : Fin 3) (b : Fin 2) : BI.Storable (upEmb : UEmb _ 𝕄) (rcvPts (F := F) m c k s b) := by
  unfold rcvPts; split <;> infer_instance

instance rcvAny_storable (c : Dev nD) (k s : Fin 3) (b : Fin 2) : BI.Storable (upEmb : UEmb _ 𝕄) (rcvAny (F := F) c k s b) := by
  unfold rcvAny; split <;> infer_instance

instance barPay_storable (c : Dev nD) (j : Fin 3) : BI.Storable (upEmb : UEmb _ 𝕄) (barPay (F := F) c j) := by
  unfold barPay; infer_instance

instance Rd_payload_storable (g : GSem nD τ sig) (r : ℕ) (d : Fin 3) :
    BI.Storable (upEmb : UEmb _ 𝕄) ((Rd (F := F) m).payload g r d) := by
  dsimp only [Rd]; split <;> infer_instance

end Store

section Rest
variable (m : (ℓ : Loc nD τ sig) → Buf (Elt F) ℓ)

theorem rest_send (c : Dev nD) (k r : Fin 3) (b : Fin 2) :
    bigSep ((Rd (F := F) m).duties (sendCell c k r b) 0 \ ∅) (fun d => (Rd (F := F) m).payload (sendCell c k r b) 0 d) = srcPts m c k r b := by
  rw [Finset.sdiff_empty, duties_send, bigSep_singleton, payload_send]

theorem rest_recv (c : Dev nD) (k s : Fin 3) (b : Fin 2) :
    bigSep ((Rd (F := F) m).duties (recvCell c k s b) 0 \ ∅) (fun d => (Rd (F := F) m).payload (recvCell c k s b) 0 d) = rcvPts m c k s b := by
  rw [Finset.sdiff_empty, duties_recv, bigSep_singleton, payload_recv]

theorem rest_bar (c : Dev nD) :
    bigSep ((Rd (F := F) m).duties (barCell c) 0 \ ∅) (fun d => (Rd (F := F) m).payload (barCell c) 0 d)
      = iprop(barPay (F := F) c 0 ∗ barPay (F := F) c 1 ∗ barPay (F := F) c 2) := by
  rw [Finset.sdiff_empty, duties_bar, bigSep_univ_eq_bigSepL [0, 1, 2] (by decide) (by decide), bigSepL_cons_cons, bigSepL_cons_cons, bigSepL_singleton,
    payload_bar, payload_bar, payload_bar]
  rfl

end Rest

theorem csem_zero : csem 0 = .reg barS := if_pos rfl

theorem csem_sIdx (k r : Fin 3) (b : Fin 2) : csem (sIdx k r b) = .dma (sendIx k r b) := by
  revert k r b; decide

theorem csem_rIdx (k s : Fin 3) (b : Fin 2) : csem (rIdx k s b) = .dma (recvIx k s b) := by
  revert k s b; decide

theorem kcell_bar (c : Dev nD) : kcell (c, 0) = barCell c := by
  show ((c : Thread nD τ), csem 0) = _; rw [csem_zero]

theorem kcell_send (c : Dev nD) (k r : Fin 3) (b : Fin 2) : kcell (c, sIdx k r b) = sendCell c k r b := by
  show ((c : Thread nD τ), csem (sIdx k r b)) = _; rw [csem_sIdx]

theorem kcell_recv (c : Dev nD) (k s : Fin 3) (b : Fin 2) : kcell (c, rIdx k s b) = recvCell c k s b := by
  show ((c : Thread nD τ), csem (rIdx k s b)) = _; rw [csem_rIdx]

theorem csem_injective : Function.Injective csem := by
  intro i j h
  unfold csem at h
  by_cases hi : i.val = 0 <;> by_cases hj : j.val = 0
  · exact Fin.ext (by omega)
  · rw [if_pos hi, if_neg hj] at h; cases h
  · rw [if_neg hi, if_pos hj] at h; cases h
  · rw [if_neg hi, if_neg hj] at h
    have h5 : i.val + 5 = j.val + 5 := congrArg Fin.val (SemLoc.dma.inj h)
    exact Fin.ext (by omega)

theorem kcell_injective : Function.Injective (kcell : Dev nD × Fin 37 → GSem nD τ sig) := by
  rintro ⟨c, i⟩ ⟨c', j⟩ h
  have h1 : c = c' := congrArg (fun g : GSem nD τ sig => g.1.1) h
  have h2 : i = j := csem_injective (congrArg Prod.snd h)
  rw [h1, h2]

section Records
variable (m : (ℓ : Loc nD τ sig) → Buf (Elt F) ℓ)

instance records_persistent (K : Dev nD × Fin 37 → ℕ) : BI.Persistent (records (F := F) m K) := by unfold records; infer_instance

theorem inv_at (K : Dev nD × Fin 37 → ℕ) (ck : Dev nD × Fin 37) : records (F := F) m K ⊢ cellInv ER (Rd m) (K ck) (kcell ck) := by
  unfold records
  exact sep_elim_left.trans (bigSep_elim (Finset.mem_univ ck))

theorem reached_at (K : Dev nD × Fin 37 → ℕ) (ck : Dev nD × Fin 37) : records (F := F) m K ⊢ reached ER (kcell ck) 0 := by
  unfold records
  exact sep_elim_right.trans (bigSep_elim (Finset.mem_univ ck))

theorem inv_bar (K : Dev nD × Fin 37 → ℕ) (d : Dev nD) : records (F := F) m K ⊢ cellInv ER (Rd m) (K (d, 0)) (barCell d) := by
  have h := inv_at m K (d, 0); rwa [kcell_bar] at h

theorem inv_send (K : Dev nD × Fin 37 → ℕ) (d : Dev nD) (k r : Fin 3) (b : Fin 2) :
    records (F := F) m K ⊢ cellInv ER (Rd m) (K (d, sIdx k r b)) (sendCell d k r b) := by
  have h := inv_at m K (d, sIdx k r b); rwa [kcell_send] at h

theorem inv_recv (K : Dev nD × Fin 37 → ℕ) (d : Dev nD) (k s : Fin 3) (b : Fin 2) :
    records (F := F) m K ⊢ cellInv ER (Rd m) (K (d, rIdx k s b)) (recvCell d k s b) := by
  have h := inv_at m K (d, rIdx k s b); rwa [kcell_recv] at h

theorem reached_bar (K : Dev nD × Fin 37 → ℕ) (d : Dev nD) : records (F := F) m K ⊢ reached ER (barCell d) 0 := by
  have h := reached_at m K (d, 0); rwa [kcell_bar] at h

theorem reached_send (K : Dev nD × Fin 37 → ℕ) (d : Dev nD) (k r : Fin 3) (b : Fin 2) :
    records (F := F) m K ⊢ reached ER (sendCell d k r b) 0 := by
  have h := reached_at m K (d, sIdx k r b); rwa [kcell_send] at h

theorem reached_recv (K : Dev nD × Fin 37 → ℕ) (d : Dev nD) (k s : Fin 3) (b : Fin 2) :
    records (F := F) m K ⊢ reached ER (recvCell d k s b) 0 := by
  have h := reached_at m K (d, rIdx k s b); rwa [kcell_recv] at h

end Records

end Cert.KernelIdeal.Proto

end
-- ==== Proof.Peel.lean ====
-- The copies in program order: taking the next one off a separating conjunction over those still to come, and off what is still owed.
import proofs.«900757_g7700000000000758_dist_attn_cross_mha_kvseq_b2_sq128_skv128_d512_hq8_dh64_v7x_i4_f32_1_alg».proof.Proof.Tables

noncomputable section

namespace Cert.KernelIdeal.Proto

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ UU ℕ

def xfS (n : ℕ) : Xf :=
  if n < 12 then (⟨n % 2, by omega⟩, ⟨n % 6 / 2, by omega⟩, ⟨n / 6 % 2, by omega⟩)
  else (2, ⟨(n - 12) % 3, by omega⟩, ⟨(n - 12) / 3 % 2, by omega⟩)

def xfR (n : ℕ) : Xf :=
  if n < 12 then (⟨n % 2, by omega⟩, ⟨2 - n % 6 / 2, by omega⟩, ⟨n / 6 % 2, by omega⟩)
  else (2, ⟨2 - (n - 12) % 3, by omega⟩, ⟨(n - 12) / 3 % 2, by omega⟩)

def xfW (n : ℕ) : Xf :=
  if n % 9 < 6 then (⟨n % 9 % 2, by omega⟩, ⟨n % 9 / 2 % 3, by omega⟩, ⟨n / 9 % 2, by omega⟩)
  else (2, ⟨(n % 9 - 6) % 3, by omega⟩, ⟨n / 9 % 2, by omega⟩)

theorem xfS_ordS (t : Xf) : xfS (ordS t) = t := by revert t; decide
theorem xfR_ordR (t : Xf) : xfR (ordR t) = t := by revert t; decide
theorem xfW_ordW (t : Xf) : xfW (ordW t) = t := by revert t; decide

theorem ordS_inj : Function.Injective ordS := Function.LeftInverse.injective xfS_ordS
theorem ordR_inj : Function.Injective ordR := Function.LeftInverse.injective xfR_ordR
theorem ordW_inj : Function.Injective ordW := Function.LeftInverse.injective xfW_ordW

theorem ordS_lt (t : Xf) : ordS t < 18 := by revert t; decide
theorem ordR_lt (t : Xf) : ordR t < 18 := by revert t; decide
theorem ordW_lt (t : Xf) : ordW t < 18 := by revert t; decide

theorem ordS_xfS (n : ℕ) (h : n < 18) : ordS (xfS n) = n := by interval_cases n <;> decide
theorem ordR_xfR (n : ℕ) (h : n < 18) : ordR (xfR n) = n := by interval_cases n <;> decide
theorem ordW_xfW (n : ℕ) (h : n < 18) : ordW (xfW n) = n := by interval_cases n <;> decide

theorem ordS_ge_twelve (t : Xf) : 12 ≤ ordS t ↔ t.1.val = 2 := by revert t; decide
section Peels
variable {I : Type} [Fintype I] [DecidableEq I]

theorem filter_ge_peel {ord : I → ℕ} (hinj : Function.Injective ord) {n : ℕ} {t : I} (ht : ord t = n) :
    ((Finset.univ : Finset I).filter fun x => n ≤ ord x) = insert t ((Finset.univ : Finset I).filter fun x => n + 1 ≤ ord x) := by
  ext x
  rw [Finset.mem_filter, Finset.mem_insert, Finset.mem_filter]
  constructor
  · rintro ⟨-, h⟩
    by_cases hx : ord x = n
    · exact Or.inl (hinj (hx.trans ht.symm))
    · exact Or.inr ⟨Finset.mem_univ x, by omega⟩
  · rintro (rfl | ⟨-, h⟩)
    · exact ⟨Finset.mem_univ _, by omega⟩
    · exact ⟨Finset.mem_univ x, by omega⟩

theorem filter_lt_peel {ord : I → ℕ} (hinj : Function.Injective ord) {n : ℕ} {t : I} (ht : ord t = n) :
    ((Finset.univ : Finset I).filter fun x => ord x < n + 1) = insert t ((Finset.univ : Finset I).filter fun x => ord x < n) := by
  ext x
  rw [Finset.mem_filter, Finset.mem_insert, Finset.mem_filter]
  constructor
  · rintro ⟨-, h⟩
    by_cases hx : ord x = n
    · exact Or.inl (hinj (hx.trans ht.symm))
    · exact Or.inr ⟨Finset.mem_univ x, by omega⟩
  · rintro (rfl | ⟨-, h⟩)
    · exact ⟨Finset.mem_univ _, by omega⟩
    · exact ⟨Finset.mem_univ x, by omega⟩

theorem filter_lt_ge_peel_left {o1 o2 : I → ℕ} (hinj : Function.Injective o1) {ns nw : ℕ} {t : I} (ht : o1 t = ns) (hw : nw ≤ o2 t) :
    ((Finset.univ : Finset I).filter fun x => o1 x < ns + 1 ∧ nw ≤ o2 x)
      = insert t ((Finset.univ : Finset I).filter fun x => o1 x < ns ∧ nw ≤ o2 x) := by
  ext x
  rw [Finset.mem_filter, Finset.mem_insert, Finset.mem_filter]
  constructor
  · rintro ⟨-, h1, h2⟩
    by_cases hx : o1 x = ns
    · exact Or.inl (hinj (hx.trans ht.symm))
    · exact Or.inr ⟨Finset.mem_univ x, by omega, h2⟩
  · rintro (rfl | ⟨-, h1, h2⟩)
    · exact ⟨Finset.mem_univ _, by omega, hw⟩
    · exact ⟨Finset.mem_univ x, by omega, h2⟩

theorem filter_lt_ge_peel_right {o1 o2 : I → ℕ} (hinj : Function.Injective o2) {ns nw : ℕ} {t : I} (ht : o2 t = nw) (hs : o1 t < ns) :
    ((Finset.univ : Finset I).filter fun x => o1 x < ns ∧ nw ≤ o2 x)
      = insert t ((Finset.univ : Finset I).filter fun x => o1 x < ns ∧ nw + 1 ≤ o2 x) := by
  ext x
  rw [Finset.mem_filter, Finset.mem_insert, Finset.mem_filter]
  constructor
  · rintro ⟨-, h1, h2⟩
    by_cases hx : o2 x = nw
    · exact Or.inl (hinj (hx.trans ht.symm))
    · exact Or.inr ⟨Finset.mem_univ x, h1, by omega⟩
  · rintro (rfl | ⟨-, h1, h2⟩)
    · exact ⟨Finset.mem_univ _, hs, by omega⟩
    · exact ⟨Finset.mem_univ x, h1, by omega⟩

theorem bigSep_ge_peel {ord : I → ℕ} (hinj : Function.Injective ord) {n : ℕ} {t : I} (ht : ord t = n) (Φ : I → sProp 𝕄) :
    bigSep ((Finset.univ : Finset I).filter fun x => n ≤ ord x) Φ
      = iprop(Φ t ∗ bigSep ((Finset.univ : Finset I).filter fun x => n + 1 ≤ ord x) Φ) := by
  rw [filter_ge_peel hinj ht, bigSep_insert (by rw [Finset.mem_filter]; rintro ⟨-, h⟩; omega)]; rfl

theorem bigSep_lt_peel {ord : I → ℕ} (hinj : Function.Injective ord) {n : ℕ} {t : I} (ht : ord t = n) (Φ : I → sProp 𝕄) :
    bigSep ((Finset.univ : Finset I).filter fun x => ord x < n + 1) Φ
      = iprop(bigSep ((Finset.univ : Finset I).filter fun x => ord x < n) Φ ∗ Φ t) := by
  rw [filter_lt_peel hinj ht, bigSep_insert (by rw [Finset.mem_filter]; rintro ⟨-, h⟩; omega)]
  exact BI.Entails.antisymm BI.sep_comm BI.sep_comm

theorem bigSep_lt_ge_peel_left {o1 o2 : I → ℕ} (hinj : Function.Injective o1) {ns nw : ℕ} {t : I} (ht : o1 t = ns) (hw : nw ≤ o2 t)
    (Φ : I → sProp 𝕄) :
    bigSep ((Finset.univ : Finset I).filter fun x => o1 x < ns + 1 ∧ nw ≤ o2 x) Φ
      = iprop(Φ t ∗ bigSep ((Finset.univ : Finset I).filter fun x => o1 x < ns ∧ nw ≤ o2 x) Φ) := by
  rw [filter_lt_ge_peel_left hinj ht hw, bigSep_insert (by rw [Finset.mem_filter]; rintro ⟨-, h, -⟩; omega)]; rfl

theorem bigSep_lt_ge_peel_right {o1 o2 : I → ℕ} (hinj : Function.Injective o2) {ns nw : ℕ} {t : I} (ht : o2 t = nw) (hs : o1 t < ns)
    (Φ : I → sProp 𝕄) :
    bigSep ((Finset.univ : Finset I).filter fun x => o1 x < ns ∧ nw ≤ o2 x) Φ
      = iprop(Φ t ∗ bigSep ((Finset.univ : Finset I).filter fun x => o1 x < ns ∧ nw + 1 ≤ o2 x) Φ) := by
  rw [filter_lt_ge_peel_right hinj ht hs, bigSep_insert (by rw [Finset.mem_filter]; rintro ⟨-, -, h⟩; omega)]; rfl

theorem bigSep_ge_top {ord : I → ℕ} {N : ℕ} (hlt : ∀ x, ord x < N) (Φ : I → sProp 𝕄) :
    bigSep ((Finset.univ : Finset I).filter fun x => N ≤ ord x) Φ = iprop(emp) := by
  rw [Finset.filter_false_of_mem (fun x _ => by have := hlt x; omega), bigSep_empty]; rfl

theorem bigSep_lt_zero {ord : I → ℕ} (Φ : I → sProp 𝕄) :
    bigSep ((Finset.univ : Finset I).filter fun x => ord x < 0) Φ = iprop(emp) := by
  rw [Finset.filter_false_of_mem (fun x _ => Nat.not_lt_zero _), bigSep_empty]; rfl

theorem bigSep_ge_zero {ord : I → ℕ} (Φ : I → sProp 𝕄) :
    bigSep ((Finset.univ : Finset I).filter fun x => 0 ≤ ord x) Φ = bigSep Finset.univ Φ := by
  rw [Finset.filter_true_of_mem (fun x _ => Nat.zero_le _)]

theorem bigSep_lt_top {ord : I → ℕ} {N : ℕ} (hlt : ∀ x, ord x < N) (Φ : I → sProp 𝕄) :
    bigSep ((Finset.univ : Finset I).filter fun x => ord x < N) Φ = bigSep Finset.univ Φ := by
  rw [Finset.filter_true_of_mem (fun x _ => hlt x)]

theorem bigSep_lt_ge_zero {o1 o2 : I → ℕ} {nw : ℕ} (Φ : I → sProp 𝕄) :
    bigSep ((Finset.univ : Finset I).filter fun x => o1 x < 0 ∧ nw ≤ o2 x) Φ = iprop(emp) := by
  rw [Finset.filter_false_of_mem (fun x _ h => Nat.not_lt_zero _ h.1), bigSep_empty]; rfl

theorem bigSep_lt_ge_top {o1 o2 : I → ℕ} {ns N : ℕ} (hlt : ∀ x, o2 x < N) (Φ : I → sProp 𝕄) :
    bigSep ((Finset.univ : Finset I).filter fun x => o1 x < ns ∧ N ≤ o2 x) Φ = iprop(emp) := by
  rw [Finset.filter_false_of_mem (fun x _ h => by have := hlt x; omega), bigSep_empty]; rfl

end Peels

theorem owedSigs_peel (c : Dev nD) (j : ℕ) (hj : j < 3) :
    owedSigs c j = owedSigs c (j + 1) + tallyAt (barCell (pl c (j + 1))) () 1 := by
  unfold owedSigs
  have hf := filter_ge_peel (I := Fin 3) (ord := fun d => d.val) Fin.val_injective (n := j) (t := ⟨j, hj⟩) rfl
  rw [hf, Finset.sum_insert (by rw [Finset.mem_filter]; rintro ⟨-, h⟩; exact absurd h (by show ¬ (j + 1 ≤ j); omega)), add_comm]

theorem owedSigs_three (c : Dev nD) : owedSigs c 3 = 0 := by
  unfold owedSigs
  rw [Finset.filter_false_of_mem (fun d _ => by have := d.isLt; omega), Finset.sum_empty]

theorem owedSends_peel (c : Dev nD) (n : ℕ) (t : Xf) (ht : ordS t = n) :
    owedSends c n = owedSends c (n + 1) + tallyAt (dstCell c t) () (NK t.1) := by
  unfold owedSends
  rw [filter_ge_peel ordS_inj ht, Finset.sum_insert (by rw [Finset.mem_filter]; rintro ⟨-, h⟩; omega), add_comm]

theorem owedSends_done (c : Dev nD) : owedSends c 18 = 0 := by
  unfold owedSends
  rw [Finset.filter_false_of_mem (fun t _ => by have := ordS_lt t; omega), Finset.sum_empty]

theorem owedSends_pos {c : Dev nD} {ns : ℕ} {g : GSem nD τ sig} {u : Unit} (h : 0 < owedSends c ns g u) :
    ∃ t : Xf, ns ≤ ordS t ∧ g = dstCell c t := by
  unfold owedSends at h
  obtain ⟨t, ht, hp⟩ := Pipeline.sum_pos_exists h
  exact ⟨t, (Finset.mem_filter.mp ht).2, (Pipeline.tallyAt_pos hp).1⟩

theorem owedSigs_pos {c : Dev nD} {j : ℕ} {g : GSem nD τ sig} {u : Unit} (h : 0 < owedSigs c j g u) :
    ∃ d : Fin 3, j ≤ d.val ∧ g = barCell (pl c (d.val + 1)) := by
  unfold owedSigs at h
  obtain ⟨d, hd, hp⟩ := Pipeline.sum_pos_exists h
  exact ⟨d, (Finset.mem_filter.mp hd).2, (Pipeline.tallyAt_pos hp).1⟩

theorem O₀_pos {c : Dev nD} {g : GSem nD τ sig} {u : Unit} (h : 0 < O₀ c g u) :
    (∃ t : Xf, g = dstCell c t) ∨ ∃ d : Fin 3, g = barCell (pl c (d.val + 1)) := by
  unfold O₀ at h
  rcases Pipeline.add_pos_cases h with h | h
  · obtain ⟨t, -, e⟩ := owedSends_pos h; exact Or.inl ⟨t, e⟩
  · obtain ⟨d, -, e⟩ := owedSigs_pos h; exact Or.inr ⟨d, e⟩

theorem L_tc (c : Dev nD) (sm : SemLoc sig) : L ((c : Thread nD τ), sm) = {()} := if_pos rfl

theorem kindOf_low (q : DmaSem sig) (hq : q.val < 6) : kindOf (.dma q) = .other := dif_pos hq

theorem lv_bar (c : Dev nD) : lv (barCell c) () = 1 := by
  show (match kindOf (.reg barS) with | .bar => 1 | .recv k _ b => (if k.val = 2 then 4 else 2) + b.val | _ => 0) = 1
  rw [kindOf_bar]
theorem lv_recv (c : Dev nD) (k s : Fin 3) (b : Fin 2) : lv (recvCell c k s b) () = (if k.val = 2 then 4 else 2) + b.val := by
  show (match kindOf (.dma (recvIx k s b)) with | .bar => 1 | .recv k _ b => (if k.val = 2 then 4 else 2) + b.val | _ => 0) = _
  rw [kindOf_recv]
theorem lv_low (c : Dev nD) (q : DmaSem sig) (hq : q.val < 6) : lv ((c : Thread nD τ), .dma q) () = 0 := by
  show (match kindOf (.dma q) with | .bar => 1 | .recv k _ b => (if k.val = 2 then 4 else 2) + b.val | _ => 0) = 0
  rw [kindOf_low q hq]
theorem lv_dst (c : Dev nD) (t : Xf) : lv (dstCell c t) () = (if t.1.val = 2 then 4 else 2) + t.2.2.val := lv_recv _ _ _ _
theorem lv_dst_ge (c : Dev nD) (t : Xf) : 2 ≤ lv (dstCell c t) () := by rw [lv_dst]; split <;> omega

theorem mayWait_stage (c : Dev nD) (q : DmaSem sig) (hq : q.val < 6) (O : CellTallies nD τ sig Unit) (hO : O = O₀ c ∨ O = 0) :
    (levAts L lv : sProp 𝕄) ⊢ MayWait (c : Thread nD τ) (.dma q) () O := by
  rcases hO with rfl | rfl
  · refine Pipeline.mayWait_of_levAts (by rw [L_tc]; exact Finset.mem_singleton_self _) (fun g u hg => ?_)
    cases u
    rw [lv_low c q hq]
    rcases O₀_pos hg with ⟨t, rfl⟩ | ⟨d, rfl⟩
    · exact ⟨by rw [L_tc]; exact Finset.mem_singleton_self _, lt_of_lt_of_le (by decide : 0 < 2) (lv_dst_ge c t)⟩
    · exact ⟨by rw [L_tc]; exact Finset.mem_singleton_self _, by rw [lv_bar]; omega⟩
  · rw [MayWait_zero]; iintro -; iempintro

theorem mayWait_bar (c : Dev nD) :
    (levAts L lv : sProp 𝕄) ⊢ MayWait (c : Thread nD τ) (.reg barS) () (owedSends c 0) := by
  refine Pipeline.mayWait_of_levAts (by rw [L_tc]; exact Finset.mem_singleton_self _) (fun g u hg => ?_)
  cases u
  obtain ⟨t, -, rfl⟩ := owedSends_pos hg
  refine ⟨by rw [L_tc]; exact Finset.mem_singleton_self _, ?_⟩
  have h1 : lv ((c : Thread nD τ), .reg barS) () = 1 := lv_bar c
  rw [h1]; exact lt_of_lt_of_le (by decide : 1 < 2) (lv_dst_ge c t)

theorem mayWait_recv (c : Dev nD) (k s : Fin 3) (b : Fin 2) (ns : ℕ)
    (h : ∀ t : Xf, ns ≤ ordS t → lv (recvCell c k s b) () < lv (dstCell c t) ()) :
    (levAts L lv : sProp 𝕄) ⊢ MayWait (c : Thread nD τ) (.dma (recvIx k s b)) () (owedSends c ns) := by
  refine Pipeline.mayWait_of_levAts (by rw [L_tc]; exact Finset.mem_singleton_self _) (fun g u hg => ?_)
  obtain ⟨t, ht, rfl⟩ := owedSends_pos hg
  exact ⟨by rw [L_tc]; exact Finset.mem_singleton_self _, h t ht⟩

theorem mayWait_recv_part (c : Dev nD) (k s : Fin 3) (b : Fin 2) (ns : ℕ) (hk : k.val ≠ 2) (hns : 12 ≤ ns) :
    (levAts L lv : sProp 𝕄) ⊢ MayWait (c : Thread nD τ) (.dma (recvIx k s b)) () (owedSends c ns) := by
  refine mayWait_recv c k s b ns (fun t ht => ?_)
  have h2 : t.1.val = 2 := (ordS_ge_twelve t).mp (le_trans hns ht)
  rw [lv_recv, lv_dst, if_neg hk, if_pos h2]; have := b.isLt; omega

theorem mayWait_recv_b0 (c : Dev nD) (k s : Fin 3) (hk : k.val ≠ 2) :
    (levAts L lv : sProp 𝕄) ⊢ MayWait (c : Thread nD τ) (.dma (recvIx k s 0)) () (owedSends c 12) :=
  mayWait_recv_part c k s 0 12 hk (le_refl _)

theorem mayWait_recv_b1 (c : Dev nD) (k s : Fin 3) (hk : k.val ≠ 2) :
    (levAts L lv : sProp 𝕄) ⊢ MayWait (c : Thread nD τ) (.dma (recvIx k s 1)) () (owedSends c 15) :=
  mayWait_recv_part c k s 1 15 hk (by decide)

theorem mayWait_done (c : Dev nD) (sm : SemLoc sig) :
    (levAts L lv : sProp 𝕄) ⊢ MayWait (c : Thread nD τ) sm () (owedSends c 18) := by
  rw [owedSends_done, MayWait_zero]; iintro -; iempintro

end Cert.KernelIdeal.Proto

end
-- ==== Proof.StepWait.lean ====
import proofs.«900757_g7700000000000758_dist_attn_cross_mha_kvseq_b2_sq128_skv128_d512_hq8_dh64_v7x_i4_f32_1_alg».proof.Proof.BodyDefs
import proofs.«900757_g7700000000000758_dist_attn_cross_mha_kvseq_b2_sq128_skv128_d512_hq8_dh64_v7x_i4_f32_1_alg».proof.Proof.Peel

noncomputable section

namespace Cert.KernelIdeal.Proto

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

theorem credit_O (v : View sig .tc .vmem S8x32x64 .bf16) : v.dmaCredit = NK 0 := rfl
theorem credit_L (v : View sig .tc .vmem S8x32 .f32) : v.dmaCredit = NK 1 := rfl
theorem credit_F (v : View sig .tc .vmem S32x512 .bf16) : v.dmaCredit = NK 2 := rfl

/-- A wait on a copy's cell is the shared wait clause at that copy's credit. -/
theorem wpE_wait_eq (c : Dev nD) (sem : DmaSem sig) {s : Shape} {e : EltTy} {dst src : Memref sig .tc .vmem s e} {N : ℕ}
    (hamt : src.view.dmaCredit = N) {hd : dst.view.WordExact} {hs : src.view.WordExact} (K' : PUnit → sProp 𝕄) :
    wpE (defs₀ (F := F)) 𝒱₀ (c : Thread nD τ) none Set.univ (.waitDma2 sem dst src hd hs) K'
      = waitSpec (c : Thread nD τ) Set.univ (.dma sem) N K' := hamt ▸ rfl

theorem step_wait_recv (m : (ℓ : Loc nD τ sig) → Buf (Elt F) ℓ) (K : Dev nD × Fin 37 → ℕ) (c : Dev nD) (t : Xf) (ns nr nw : ℕ)
    (hnr : ordR t = nr) (sem : DmaSem sig) (hsem : sem = recvIx t.1 t.2.1 t.2.2)
    (hlev : (levAts L lv : sProp 𝕄) ⊢ MayWait (c : Thread nD τ) (.dma sem) () (owedSends c ns))
    {s : Shape} {e : EltTy} {dst src : Memref sig .tc .vmem s e} (hamt : src.view.dmaCredit = NK t.1)
    {hd : dst.view.WordExact} {hs : src.view.WordExact}
    {α : Type} {Q : α → sProp 𝕄} {k : PUnit → Prog (TpuEff nD τ sig (Elt F) Λ₀ .tc) α} :
    iprop(records m K ∗ levAts L lv ∗ flight m c ns nr nw)
      ⊢ iprop((flight m c ns (nr + 1) nw -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sem dst src hd hs) k) Q) := by
  subst hsem hnr
  obtain ⟨kk, ss, bb⟩ := t
  iintro ⟨#Hrec, #Hlev, Hfl⟩ Hk
  unfold flight
  icases Hfl with ⟨H1, H2, H3, H4, H5, H6, ⟨%W, HO⟩⟩
  ihave H5' := (Entails.of_eq (bigSep_ge_peel ordR_inj (t := (kk, ss, bb)) rfl _)) $$ H5
  icases H5' with ⟨⟨Hc, Hat⟩, H5⟩
  ihave #Hinv := (inv_recv m K c kk ss bb) $$ Hrec
  iapply (Rounds.wp_wait_rest_token 𝒱₀ ER (Rd m) (c : Thread nD τ) none (κ := K (c, rIdx kk ss bb)) (wpE_wait_eq c (recvIx kk ss bb) hamt) (Set.mem_univ _) ()
      (O := owedSends c ns) (W := W) (R := 0) (m := 0) (T := ∅)
      (by rw [Nat.zero_add]; exact (expect_recv m c kk ss bb).symm)) $$ [Hc HO Hat]
  · iframe Hinv Hc HO Hat
    iapply hlev $$ Hlev
  iintro ⟨HO, Hat, -, Hpay⟩
  ihave Hslot := (Entails.of_eq (rest_recv m c kk ss bb)) $$ Hpay
  imod (Rounds.cell_close ER (Rd m) (Set.mem_univ (K (c, rIdx kk ss bb))) (fun h => h) (R := 0 + 1)
      (duties_later m (recvCell c kk ss bb))) $$ [Hat] with Hz
  · iframe Hinv Hat
  iapply Hk
  iframe H1 H2 H3 H4 H5
  isplitr [HO]
  · iapply (Entails.of_eq (bigSep_lt_peel ordR_inj (t := (kk, ss, bb)) rfl _).symm); iframe
  iexists _; iexact HO

theorem step_wait_send (m : (ℓ : Loc nD τ sig) → Buf (Elt F) ℓ) (K : Dev nD × Fin 37 → ℕ) (c : Dev nD) (t : Xf) (ns nr nw : ℕ)
    (hns : ns = 18) (hnw : ordW t = nw) (sem : DmaSem sig) (hsem : sem = sendIx t.1 t.2.1 t.2.2)
    {s : Shape} {e : EltTy} {dst src : Memref sig .tc .vmem s e} (hamt : src.view.dmaCredit = NK t.1)
    {hd : dst.view.WordExact} {hs : src.view.WordExact}
    {α : Type} {Q : α → sProp 𝕄} {k : PUnit → Prog (TpuEff nD τ sig (Elt F) Λ₀ .tc) α} :
    iprop(records m K ∗ levAts L lv ∗ flight m c ns nr nw)
      ⊢ iprop((flight m c ns nr (nw + 1) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sem dst src hd hs) k) Q) := by
  subst hsem hnw hns
  obtain ⟨kk, rr, bb⟩ := t
  iintro ⟨#Hrec, #Hlev, Hfl⟩ Hk
  unfold flight
  rw [owedSends_done]
  icases Hfl with ⟨H1, H2, H3, H4, H5, H6, ⟨%W, HO⟩⟩
  ihave H2' := (Entails.of_eq (bigSep_lt_ge_peel_right (o1 := ordS) (ns := 18) ordW_inj (t := (kk, rr, bb)) rfl (ordS_lt _) _)) $$ H2
  icases H2' with ⟨Hc, H2⟩
  ihave H3' := (Entails.of_eq (bigSep_ge_peel ordW_inj (t := (kk, rr, bb)) rfl _)) $$ H3
  icases H3' with ⟨Hat, H3⟩
  ihave #Hinv := (inv_send m K c kk rr bb) $$ Hrec
  iapply (Rounds.wp_wait_rest_token 𝒱₀ ER (Rd m) (c : Thread nD τ) none (κ := K (c, sIdx kk rr bb)) (wpE_wait_eq c (sendIx kk rr bb) hamt) (Set.mem_univ _) ()
      (O := 0) (W := W) (R := 0) (m := 0) (T := ∅)
      (by rw [Nat.zero_add]; exact (expect_send m c kk rr bb).symm)) $$ [Hc HO Hat]
  · iframe Hinv Hc HO Hat
    rw [MayWait_zero]; iempintro
  iintro ⟨HO, Hat, -, Hpay⟩
  ihave Hsrc := (Entails.of_eq (rest_send m c kk rr bb)) $$ Hpay
  imod (Rounds.cell_close ER (Rd m) (Set.mem_univ (K (c, sIdx kk rr bb))) (fun h => h) (R := 0 + 1)
      (duties_later m (sendCell c kk rr bb))) $$ [Hat] with Hz
  · iframe Hinv Hat
  iapply Hk
  iframe H1 H2 H3 H5 H6
  isplitr [HO]
  · iapply (Entails.of_eq (bigSep_lt_peel ordW_inj (t := (kk, rr, bb)) rfl _).symm); iframe
  iexists _; iexact HO

theorem step_wait_send_to (m : (ℓ : Loc nD τ sig) → Buf (Elt F) ℓ) (K : Dev nD × Fin 37 → ℕ) (c : Dev nD) (t : Xf) (ns nr nw nw' : ℕ)
    (hn : nw + 1 = nw') (hns : ns = 18) (hnw : ordW t = nw) (sem : DmaSem sig) (hsem : sem = sendIx t.1 t.2.1 t.2.2)
    {s : Shape} {e : EltTy} {dst src : Memref sig .tc .vmem s e} (hamt : src.view.dmaCredit = NK t.1)
    {hd : dst.view.WordExact} {hs : src.view.WordExact}
    {α : Type} {Q : α → sProp 𝕄} {k : PUnit → Prog (TpuEff nD τ sig (Elt F) Λ₀ .tc) α} :
    iprop(records m K ∗ levAts L lv ∗ flight m c ns nr nw)
      ⊢ iprop((flight m c ns nr nw' -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sem dst src hd hs) k) Q) :=
  hn ▸ step_wait_send m K c t ns nr nw hns hnw sem hsem hamt

end Cert.KernelIdeal.Proto

end
-- ==== Proof.GeoSrc.lean ====
import Idealize.ShloMosaic.Lib.Pipeline.Value
import proofs.«900757_g7700000000000758_dist_attn_cross_mha_kvseq_b2_sq128_skv128_d512_hq8_dh64_v7x_i4_f32_1_alg».proof.Proof.BodyDefs

noncomputable section

namespace Cert.KernelIdeal.Proto

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ UU ℕ

theorem eq_of_bi {P Q : sProp 𝕄} (h : P ⊣⊢ Q) : P = Q := BI.equiv_iff.mp ⟨h.1, h.2⟩

section
variable {ℓ : Loc nD τ sig} {q : PosShare TreeShare} {f : Buf (Elt F) ℓ}

theorem pointsTo_cut {I J : Finset (Idx ℓ)} (h : Disjoint I J) :
    (ℓ ↦[I ∪ J]{q} f : sProp 𝕄) = iprop((ℓ ↦[I]{q} f) ∗ ℓ ↦[J]{q} f) := eq_of_bi (pointsTo_union h)

/-- A key with the values 0 and 1 cuts the index set into its two fibres. -/
theorem pointsTo_halves {S : Finset (Idx ℓ)} {A : Fin 2 → Finset (Idx ℓ)} (hS : S = Finset.univ) (p : Idx ℓ → ℕ)
    (hp : ∀ i, p i < 2) (hA : ∀ b i, i ∈ A b ↔ i ∈ S ∧ p i = b.val) :
    (ℓ ↦[Finset.univ]{q} f : sProp 𝕄) = iprop((ℓ ↦[A 0]{q} f) ∗ ℓ ↦[A 1]{q} f) := by
  subst hS
  have e : (Finset.univ : Finset (Idx ℓ)) = A 0 ∪ A 1 := by
    ext i; have := hp i
    simp only [Finset.mem_univ, Finset.mem_union, hA, Fin.val_zero, Fin.val_one, true_and, true_iff]; omega
  rw [e, pointsTo_cut]
  exact Finset.disjoint_left.mpr fun i h0 h1 => by
    simp only [hA, Fin.val_zero, Fin.val_one] at h0 h1; omega

/-- `c+1, c+2, c+3, c` are the four residues mod 4: the fibres of a key over them cut a set in four. -/
theorem pointsTo_mod4 {S D : Finset (Idx ℓ)} {A : Fin 3 → Finset (Idx ℓ)} (k : Idx ℓ → ℕ) (c : ℕ) (hc : c < 4)
    (hk : ∀ i, k i < 4) (hA : ∀ r i, i ∈ A r ↔ i ∈ S ∧ k i = (c + r.val + 1) % 4)
    (hD : ∀ i, i ∈ D ↔ i ∈ S ∧ k i = c) :
    (ℓ ↦[S]{q} f : sProp 𝕄) = iprop((ℓ ↦[A 0]{q} f) ∗ (ℓ ↦[A 1]{q} f) ∗ (ℓ ↦[A 2]{q} f) ∗ ℓ ↦[D]{q} f) := by
  have e : S = A 0 ∪ (A 1 ∪ (A 2 ∪ D)) := by
    ext i; have := hk i
    simp only [Finset.mem_union, hA, hD, Fin.val_zero, Fin.val_one, Fin.val_two, ← and_or_left]
    exact ⟨fun h => ⟨h, by omega⟩, And.left⟩
  rw [e, pointsTo_cut, pointsTo_cut, pointsTo_cut]
  all_goals
    exact Finset.disjoint_left.mpr fun i h0 h1 => by
      simp only [Finset.mem_union, hA, hD, Fin.val_zero, Fin.val_one, Fin.val_two] at h0 h1; omega

end

/-- A unit rectangle one thick on axis `a₀` that agrees elsewhere with a rectangle containing it is that rectangle's slice. -/
theorem mem_unit_slice {s : Shape} (a₀ : Fin s.rank) {o z o' z' v : Fin s.rank → ℕ} {inb inb'} (ho : o' = v)
    (h : ∀ a, a ≠ a₀ → v a = o a ∧ z' a = z a) (h1 : z' a₀ = 1) (h0 : o a₀ ≤ v a₀ ∧ v a₀ < o a₀ + z a₀) (i : s.Idx) :
    i ∈ (Rect.unit (s := s) o' z' inb').set ↔ i ∈ (Rect.unit (s := s) o z inb).set ∧ (i a₀).val = v a₀ := by
  subst ho
  simp only [Rect.mem_set_unit]
  constructor
  · intro H
    refine ⟨fun a => ?_, by have := H a₀; omega⟩
    by_cases ha : a = a₀
    · subst ha; have := H a; omega
    · rw [← (h a ha).1, ← (h a ha).2]; exact H a
  · intro ⟨H, e⟩ a
    by_cases ha : a = a₀
    · subst ha; omega
    · rw [(h a ha).1, (h a ha).2]; exact H a

theorem setOn_whole {b : Ref sig .tc} (X : Finset b.ty.shape.Idx) : (View.whole b).setOn X = X := Finset.map_refl

abbrev oSendRect (c : Dev nD) (r : Fin 3) : Fin 2 → Rect S4x2x8x32x64
  | ⟨0, _⟩ => Rect.unit (s := S4x2x8x32x64) (k0_off1 c (BitVec.ofNat 32 (1 + r.val))) S1x1x8x32x64.size (k0_off1_inb c r)
  | ⟨_ + 1, _⟩ => Rect.unit (s := S4x2x8x32x64) (k0_off3 c (BitVec.ofNat 32 (1 + r.val))) S1x1x8x32x64.size (k0_off3_inb c r)

theorem mem_oSlab (b : Fin 2) (i : S4x2x8x32x64.Idx) :
    i ∈ (osrcM.access (oRect b)).set ↔ i ∈ (Rect.whole S4x2x8x32x64).set ∧ (i 1).val = b.val := by
  rw [View.set_slice_whole]; refine mem_unit_slice 1 rfl ?_ ?_ ?_ i <;> revert b <;> decide

theorem mem_oSend (c : Dev nD) (r : Fin 3) (b : Fin 2) (i : S4x2x8x32x64.Idx) :
    i ∈ (oSendRect c r b).set ↔ i ∈ (oRect b).set ∧ (i 0).val = (c.val + r.val + 1) % 4 := by
  match b with
  | 0 => refine mem_unit_slice 0 (k0_off1_eq c r) ?_ ?_ ?_ i <;> revert c r <;> decide
  | 1 => refine mem_unit_slice 0 (k0_off3_eq c r) ?_ ?_ ?_ i <;> revert c r <;> decide

theorem mem_oOwn (c : Dev nD) (b : Fin 2) (i : S4x2x8x32x64.Idx) :
    i ∈ (oOwnRect c b).set ↔ i ∈ (oRect b).set ∧ (i 0).val = c.val := by
  match b with
  | 0 => refine mem_unit_slice 0 (k0_off6_eq c) ?_ ?_ ?_ i <;> revert c <;> decide
  | 1 => refine mem_unit_slice 0 (k0_off9_eq c) ?_ ?_ ?_ i <;> revert c <;> decide

section
variable (m : (ℓ : Loc nD τ sig) → Buf (Elt F) ℓ)

theorem o_split (c : Dev nD) (f : Buf (Elt F) ((c : Thread nD τ).loc cc0_scratch0)) :
    ((((c : Thread nD τ).loc cc0_scratch0) ↦{fullShare} f) : sProp 𝕄) ⊣⊢
      iprop(((osrcM.access (oRect 0)).loc (c : Thread nD τ) ↦[(osrcM.access (oRect 0)).set]{fullShare} f)
        ∗ ((osrcM.access (oRect 1)).loc (c : Thread nD τ) ↦[(osrcM.access (oRect 1)).set]{fullShare} f)) :=
  .of_eq (pointsTo_halves (ℓ := (c : Thread nD τ).loc cc0_scratch0) (A := fun b => (osrcM.access (oRect b)).set)
    (Rect.set_whole S4x2x8x32x64) (fun i : S4x2x8x32x64.Idx => (i 1).val) (fun i => (i 1).isLt) mem_oSlab)

theorem o_stored (c : Dev nD) (b : Fin 2) (f : (osrcM.access (oRect b)).ty.Contents (Elt F)) :
    (((osrcM.access (oRect b)).loc (c : Thread nD τ) ↦[(osrcM.access (oRect b)).set]{fullShare}
        (osrcM.access (oRect b)).write (Elt F) f (KV.oS m c b) Finset.univ) : sProp 𝕄)
      = ((osrcM.access (oRect b)).loc (c : Thread nD τ) ↦[(osrcM.access (oRect b)).set]{fullShare} osrcF m c) := by
  refine pointsTo_congr fun i hi => ?_
  obtain ⟨y, -, rfl⟩ := Finset.mem_map.mp hi
  rw [View.write_emb_of_mem _ _ (Finset.mem_univ y), cast_eq]
  have h1 : (y 1).val < 1 := (y 1).isLt
  have e1 : ((osrcM.access (oRect b)).emb y) 1 = b := Fin.ext (by show b.val + 1 * (y 1).val = b.val; omega)
  unfold osrcF
  rw [e1]
  refine congrArg (KV.oS m c b) (funext fun a => ?_)
  match a with
  | ⟨0, _⟩ | ⟨2, _⟩ | ⟨3, _⟩ | ⟨4, _⟩ => exact Fin.ext ((Nat.zero_add _).trans (Nat.one_mul _)).symm
  | ⟨1, _⟩ => exact Fin.ext (Nat.lt_one_iff.mp (y 1).isLt)

theorem srcPts_o (c : Dev nD) (r : Fin 3) (b : Fin 2) :
    srcPts m c 0 r b = (((c : Thread nD τ).loc cc0_scratch0) ↦[(oSendRect c r b).set]{fullShare} osrcF m c) := by
  match b with
  | 0 | 1 => simp only [srcPts, View.set_reshape, View.set_slice_whole] <;> rfl

theorem oOwn_eq (c : Dev nD) (b : Fin 2) :
    oOwn m c b = (((c : Thread nD τ).loc cc0_scratch0) ↦[(oOwnRect c b).set]{fullShare} osrcF m c) := by
  match b with
  | 0 | 1 => simp only [oOwn, setOn_whole] <;> rfl

theorem o_blocks (c : Dev nD) (b : Fin 2) :
    (((osrcM.access (oRect b)).loc (c : Thread nD τ) ↦[(osrcM.access (oRect b)).set]{fullShare} osrcF m c) : sProp 𝕄) ⊣⊢
      iprop(srcPts m c 0 0 b ∗ srcPts m c 0 1 b ∗ srcPts m c 0 2 b ∗ oOwn m c b) := by
  rw [srcPts_o, srcPts_o, srcPts_o, oOwn_eq, View.set_slice_whole]
  exact .of_eq (pointsTo_mod4 (ℓ := (c : Thread nD τ).loc cc0_scratch0) (A := fun r => (oSendRect c r b).set) (fun i : S4x2x8x32x64.Idx => (i 0).val) c.val c.isLt
    (fun i => (i 0).isLt) (mem_oSend c · b) (mem_oOwn c b))

theorem o_whole (c : Dev nD) :
    iprop((srcPts m c 0 0 0 ∗ srcPts m c 0 1 0 ∗ srcPts m c 0 2 0 ∗ oOwn m c 0)
        ∗ (srcPts m c 0 0 1 ∗ srcPts m c 0 1 1 ∗ srcPts m c 0 2 1 ∗ oOwn m c 1))
      ⊢ (iprop(∃ f, ((c : Thread nD τ).loc cc0_scratch0) ↦{fullShare} f) : sProp 𝕄) := by
  rw [← eq_of_bi (o_blocks m c 0), ← eq_of_bi (o_blocks m c 1), ← eq_of_bi (o_split c (osrcF m c))]
  exact BIClass.exists_intro (osrcF m c)

end

abbrev lSendRect (c : Dev nD) (r : Fin 3) : Fin 2 → Rect S4x2x8x32
  | ⟨0, _⟩ => Rect.unit (s := S4x2x8x32) (k0_off2 c (BitVec.ofNat 32 (1 + r.val))) S1x1x8x32.size (k0_off2_inb c r)
  | ⟨_ + 1, _⟩ => Rect.unit (s := S4x2x8x32) (k0_off4 c (BitVec.ofNat 32 (1 + r.val))) S1x1x8x32.size (k0_off4_inb c r)

theorem mem_lSlab (b : Fin 2) (i : S4x2x8x32.Idx) :
    i ∈ (lsrcM.access (lRect b)).set ↔ i ∈ (Rect.whole S4x2x8x32).set ∧ (i 1).val = b.val := by
  rw [View.set_slice_whole]; refine mem_unit_slice 1 rfl ?_ ?_ ?_ i <;> revert b <;> decide

theorem mem_lSend (c : Dev nD) (r : Fin 3) (b : Fin 2) (i : S4x2x8x32.Idx) :
    i ∈ (lSendRect c r b).set ↔ i ∈ (lRect b).set ∧ (i 0).val = (c.val + r.val + 1) % 4 := by
  match b with
  | 0 => refine mem_unit_slice 0 (k0_off2_eq c r) ?_ ?_ ?_ i <;> revert c r <;> decide
  | 1 => refine mem_unit_slice 0 (k0_off4_eq c r) ?_ ?_ ?_ i <;> revert c r <;> decide

theorem mem_lOwn (c : Dev nD) (b : Fin 2) (i : S4x2x8x32.Idx) :
    i ∈ (lOwnRect c b).set ↔ i ∈ (lRect b).set ∧ (i 0).val = c.val := by
  match b with
  | 0 => refine mem_unit_slice 0 (k0_off5_eq c) ?_ ?_ ?_ i <;> revert c <;> decide
  | 1 => refine mem_unit_slice 0 (k0_off8_eq c) ?_ ?_ ?_ i <;> revert c <;> decide

section
variable (m : (ℓ : Loc nD τ sig) → Buf (Elt F) ℓ)

theorem l_split (c : Dev nD) (f : Buf (Elt F) ((c : Thread nD τ).loc cc0_scratch1)) :
    ((((c : Thread nD τ).loc cc0_scratch1) ↦{fullShare} f) : sProp 𝕄) ⊣⊢
      iprop(((lsrcM.access (lRect 0)).loc (c : Thread nD τ) ↦[(lsrcM.access (lRect 0)).set]{fullShare} f)
        ∗ ((lsrcM.access (lRect 1)).loc (c : Thread nD τ) ↦[(lsrcM.access (lRect 1)).set]{fullShare} f)) :=
  .of_eq (pointsTo_halves (ℓ := (c : Thread nD τ).loc cc0_scratch1) (A := fun b => (lsrcM.access (lRect b)).set)
    (Rect.set_whole S4x2x8x32) (fun i : S4x2x8x32.Idx => (i 1).val) (fun i => (i 1).isLt) mem_lSlab)

theorem l_stored (c : Dev nD) (b : Fin 2) (f : (lsrcM.access (lRect b)).ty.Contents (Elt F)) :
    (((lsrcM.access (lRect b)).loc (c : Thread nD τ) ↦[(lsrcM.access (lRect b)).set]{fullShare}
        (lsrcM.access (lRect b)).write (Elt F) f (KV.lS m c b) Finset.univ) : sProp 𝕄)
      = ((lsrcM.access (lRect b)).loc (c : Thread nD τ) ↦[(lsrcM.access (lRect b)).set]{fullShare} lsrcF m c) := by
  refine pointsTo_congr fun i hi => ?_
  obtain ⟨y, -, rfl⟩ := Finset.mem_map.mp hi
  rw [View.write_emb_of_mem _ _ (Finset.mem_univ y), cast_eq]
  have h1 : (y 1).val < 1 := (y 1).isLt
  have e1 : ((lsrcM.access (lRect b)).emb y) 1 = b := Fin.ext (by show b.val + 1 * (y 1).val = b.val; omega)
  unfold lsrcF
  rw [e1]
  refine congrArg (KV.lS m c b) (funext fun a => ?_)
  match a with
  | ⟨0, _⟩ | ⟨2, _⟩ | ⟨3, _⟩ => exact Fin.ext ((Nat.zero_add _).trans (Nat.one_mul _)).symm
  | ⟨1, _⟩ => exact Fin.ext (Nat.lt_one_iff.mp (y 1).isLt)

theorem srcPts_l (c : Dev nD) (r : Fin 3) (b : Fin 2) :
    srcPts m c 1 r b = (((c : Thread nD τ).loc cc0_scratch1) ↦[(lSendRect c r b).set]{fullShare} lsrcF m c) := by
  match b with
  | 0 | 1 => simp only [srcPts, View.set_reshape, View.set_slice_whole] <;> rfl

theorem lOwn_eq (c : Dev nD) (b : Fin 2) :
    lOwn m c b = (((c : Thread nD τ).loc cc0_scratch1) ↦[(lOwnRect c b).set]{fullShare} lsrcF m c) := by
  match b with
  | 0 | 1 => simp only [lOwn, setOn_whole] <;> rfl

theorem l_blocks (c : Dev nD) (b : Fin 2) :
    (((lsrcM.access (lRect b)).loc (c : Thread nD τ) ↦[(lsrcM.access (lRect b)).set]{fullShare} lsrcF m c) : sProp 𝕄) ⊣⊢
      iprop(srcPts m c 1 0 b ∗ srcPts m c 1 1 b ∗ srcPts m c 1 2 b ∗ lOwn m c b) := by
  rw [srcPts_l, srcPts_l, srcPts_l, lOwn_eq, View.set_slice_whole]
  exact .of_eq (pointsTo_mod4 (ℓ := (c : Thread nD τ).loc cc0_scratch1) (A := fun r => (lSendRect c r b).set) (fun i : S4x2x8x32.Idx => (i 0).val) c.val c.isLt
    (fun i => (i 0).isLt) (mem_lSend c · b) (mem_lOwn c b))

theorem l_whole (c : Dev nD) :
    iprop((srcPts m c 1 0 0 ∗ srcPts m c 1 1 0 ∗ srcPts m c 1 2 0 ∗ lOwn m c 0)
        ∗ (srcPts m c 1 0 1 ∗ srcPts m c 1 1 1 ∗ srcPts m c 1 2 1 ∗ lOwn m c 1))
      ⊢ (iprop(∃ f, ((c : Thread nD τ).loc cc0_scratch1) ↦{fullShare} f) : sProp 𝕄) := by
  rw [← eq_of_bi (l_blocks m c 0), ← eq_of_bi (l_blocks m c 1), ← eq_of_bi (l_split c (lsrcF m c))]
  exact BIClass.exists_intro (lsrcF m c)

end

theorem mem_fSlab (b : Fin 2) (i : S2x32x512.Idx) :
    i ∈ (fsrcM.access (fRect b)).set ↔ i ∈ (Rect.whole S2x32x512).set ∧ (i 0).val = b.val := by
  rw [View.set_slice_whole]; refine mem_unit_slice 0 rfl ?_ ?_ ?_ i <;> revert b <;> decide

section
variable (m : (ℓ : Loc nD τ sig) → Buf (Elt F) ℓ)

theorem f_split (c : Dev nD) (f : Buf (Elt F) ((c : Thread nD τ).loc cc0_scratch4)) :
    ((((c : Thread nD τ).loc cc0_scratch4) ↦{fullShare} f) : sProp 𝕄) ⊣⊢
      iprop(((fsrcM.access (fRect 0)).loc (c : Thread nD τ) ↦[(fsrcM.access (fRect 0)).set]{fullShare} f)
        ∗ ((fsrcM.access (fRect 1)).loc (c : Thread nD τ) ↦[(fsrcM.access (fRect 1)).set]{fullShare} f)) :=
  .of_eq (pointsTo_halves (ℓ := (c : Thread nD τ).loc cc0_scratch4) (A := fun b => (fsrcM.access (fRect b)).set)
    (Rect.set_whole S2x32x512) (fun i : S2x32x512.Idx => (i 0).val) (fun i => (i 0).isLt) mem_fSlab)

theorem f_stored (c : Dev nD) (b : Fin 2) (f : (fsrcM.access (fRect b)).ty.Contents (Elt F)) :
    (((fsrcM.access (fRect b)).loc (c : Thread nD τ) ↦[(fsrcM.access (fRect b)).set]{fullShare}
        (fsrcM.access (fRect b)).write (Elt F) f (KV.fS m c b) Finset.univ) : sProp 𝕄)
      = ((fsrcM.access (fRect b)).loc (c : Thread nD τ) ↦[(fsrcM.access (fRect b)).set]{fullShare} fsrcF m c) := by
  refine pointsTo_congr fun i hi => ?_
  obtain ⟨y, -, rfl⟩ := Finset.mem_map.mp hi
  rw [View.write_emb_of_mem _ _ (Finset.mem_univ y), cast_eq]
  have h0 : (y 0).val < 1 := (y 0).isLt
  have e0 : ((fsrcM.access (fRect b)).emb y) 0 = b := Fin.ext (by show b.val + 1 * (y 0).val = b.val; omega)
  unfold fsrcF
  rw [e0]
  refine congrArg (KV.fS m c b) (funext fun a => ?_)
  match a with
  | ⟨1, _⟩ | ⟨2, _⟩ => exact Fin.ext ((Nat.zero_add _).trans (Nat.one_mul _)).symm
  | ⟨0, _⟩ => exact Fin.ext (Nat.lt_one_iff.mp (y 0).isLt)

theorem f_shares (c : Dev nD) (b : Fin 2) :
    (((fsrcM.access (fRect b)).loc (c : Thread nD τ) ↦[(fsrcM.access (fRect b)).set]{fullShare} fsrcF m c) : sProp 𝕄) ⊣⊢
      iprop(srcPts m c 2 0 b ∗ srcPts m c 2 1 b ∗ srcPts m c 2 2 b) := by
  refine .of_eq ?_
  simp only [srcPts, fshare, View.set_reshape, View.set_slice_whole]
  rw [← eq_of_bi (pointsTo_share (PosShare.mem_left_op_right fullShare.right)),
    ← eq_of_bi (pointsTo_share (PosShare.mem_left_op_right fullShare)), View.set_slice_whole] <;> rfl

theorem f_whole (c : Dev nD) :
    iprop((srcPts m c 2 0 0 ∗ srcPts m c 2 1 0 ∗ srcPts m c 2 2 0) ∗ (srcPts m c 2 0 1 ∗ srcPts m c 2 1 1 ∗ srcPts m c 2 2 1))
      ⊢ (iprop(∃ f, ((c : Thread nD τ).loc cc0_scratch4) ↦{fullShare} f) : sProp 𝕄) := by
  rw [← eq_of_bi (f_shares m c 0), ← eq_of_bi (f_shares m c 1), ← eq_of_bi (f_split c (fsrcF m c))]
  exact BIClass.exists_intro (fsrcF m c)

end

end Cert.KernelIdeal.Proto

end
-- ==== Proof.GeoRcv.lean ====
import proofs.«900757_g7700000000000758_dist_attn_cross_mha_kvseq_b2_sq128_skv128_d512_hq8_dh64_v7x_i4_f32_1_alg».proof.Proof.BodyDefs
import Idealize.ShloMosaic.Lib.Pipeline.Value
import Idealize.ShloMosaic.Lib.Ring

noncomputable section

namespace Cert.KernelIdeal.Proto

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws

variable {F : FTy → Type} [FloatOps F]

local notation "𝕄" => MT nD τ sig Unit (Elt F) ℕ UU ℕ

theorem set_sq_slice_whole {κ : Kind} (b : Ref sig κ) (r : Rect b.ty.shape) (hr : ∀ a, r.stride a = 1) (s' : Shape)
    (hq : r.shape.Squeezes s') : (((Memref.whole b).slice r hr).squeeze s' hq).view.set = r.set := by
  rw [Memref.set_view_squeeze]
  exact View.set_slice_whole b r

section Grid
variable {S : Shape} {a₀ a₁ : Fin S.rank} {off : Fin 3 × Fin 2 → Fin S.rank → ℕ} {size : Fin S.rank → ℕ}

/-- Unit cells along an axis of extent 3 and an axis of extent 2, whole on every other axis. -/
abbrev Grid (S : Shape) (a₀ a₁ : Fin S.rank) (off : Fin 3 × Fin 2 → Fin S.rank → ℕ) (size : Fin S.rank → ℕ) : Prop :=
  (S.size a₀ = 3 ∧ S.size a₁ = 2 ∧ size a₀ = 1 ∧ size a₁ = 1) ∧
    ∀ t, off t a₀ = t.1.val ∧ off t a₁ = t.2.val ∧ ∀ a, a ≠ a₀ → a ≠ a₁ → off t a = 0 ∧ size a = S.size a

theorem Grid.mem (g : Grid S a₀ a₁ off size) (t : Fin 3 × Fin 2) (inb) (i : S.Idx) :
    i ∈ (Rect.unit (off t) size inb).set ↔ (i a₀).val = t.1.val ∧ (i a₁).val = t.2.val := by
  obtain ⟨⟨-, -, s0, s1⟩, h⟩ := g
  obtain ⟨o0, o1, hr⟩ := h t
  rw [Rect.mem_set_unit]
  constructor
  · intro hi
    have h0 := hi a₀; have h1 := hi a₁
    rw [o0, s0] at h0; rw [o1, s1] at h1
    omega
  · intro ⟨e0, e1⟩ a
    by_cases ha0 : a = a₀
    · rw [ha0, o0, s0]; omega
    by_cases ha1 : a = a₁
    · rw [ha1, o1, s1]; omega
    rw [(hr a ha0 ha1).1, (hr a ha0 ha1).2]; exact ⟨Nat.zero_le _, by have := (i a).isLt; omega⟩

/-- The cells are the fibres of the two coordinates, so they are disjoint and cover the shape. -/
theorem Grid.blocks (g : Grid S a₀ a₁ off size) (inb : ∀ t a, off t a + size a ≤ S.size a) :
    (∀ t t', t ≠ t' → Disjoint (Rect.unit (off t) size (inb t)).set (Rect.unit (off t') size (inb t')).set) ∧
      Finset.univ.biUnion (fun t => (Rect.unit (off t) size (inb t)).set) = Finset.univ := by
  refine ⟨fun t t' h => Finset.disjoint_left.mpr fun i hi hi' => h ?_, ?_⟩
  · have e := (g.mem t _ i).mp hi; have e' := (g.mem t' _ i).mp hi'
    exact Prod.ext (Fin.ext (e.1.symm.trans e'.1)) (Fin.ext (e.2.symm.trans e'.2))
  · ext i
    simp only [Finset.mem_biUnion, Finset.mem_univ, true_and, iff_true]
    exact ⟨(⟨i a₀, g.1.1 ▸ (i a₀).isLt⟩, ⟨i a₁, g.1.2.1 ▸ (i a₁).isLt⟩), (g.mem _ _ i).mpr ⟨rfl, rfl⟩⟩

end Grid

section Slots
variable (b : Ref sig .tc) {a₀ a₁ : Fin b.ty.shape.rank} {off : Fin 3 × Fin 2 → Fin b.ty.shape.rank → ℕ}
  {size : Fin b.ty.shape.rank → ℕ} (g : Grid b.ty.shape a₀ a₁ off size) {inb : ∀ t a, off t a + size a ≤ b.ty.shape.size a}
  (c : Dev nD) {K : Fin 3 × Fin 2 → Finset (Idx ((c : Thread nD τ).loc b))} (hK : ∀ t, K t = (Rect.unit (off t) size (inb t)).set)

include g hK in
theorem slots_give : (iprop(∃ f, ((c : Thread nD τ).loc b) ↦{fullShare} f) : sProp 𝕄)
    ⊢ bigSep Finset.univ fun t => iprop(∃ f, ((c : Thread nD τ).loc b) ↦[K t]{fullShare} f) := by
  obtain rfl := funext hK
  refine exists_elim fun f => ?_
  rw [Ring.pointsTo_blocks _ (g.blocks inb).1 (g.blocks inb).2 f]
  exact bigSep_mono fun t _ => exists_intro (Φ := fun f => ((c : Thread nD τ).loc b ↦[_]{fullShare} f : sProp 𝕄)) f

include g hK in
theorem slots_take (f : Buf (Elt F) ((c : Thread nD τ).loc b)) :
    (bigSep Finset.univ fun t => ((c : Thread nD τ).loc b) ↦[K t]{fullShare} f)
      ⊢ (iprop(∃ f, ((c : Thread nD τ).loc b) ↦{fullShare} f) : sProp 𝕄) := by
  obtain rfl := funext hK
  exact Ring.pointsTo_blocks_join _ (g.blocks inb).1 (g.blocks inb).2 (fun _ => f) f

end Slots

theorem orcv_grid : Grid S3x2x8x32x64 (0 : Fin 5) (1 : Fin 5) (fun t => ![t.1.val, t.2.val, 0, 0, 0]) S1x1x8x32x64.size := by decide
theorem lrcv_grid : Grid S3x2x8x32 (0 : Fin 4) (1 : Fin 4) (fun t => ![t.1.val, t.2.val, 0, 0]) S1x1x8x32.size := by decide
theorem frcv_grid : Grid S3x2x32x512 (0 : Fin 4) (1 : Fin 4) (fun t => ![t.1.val, t.2.val, 0, 0]) S1x1x32x512.size := by decide

theorem o_give (c : Dev nD) : (iprop(∃ f, ((c : Thread nD τ).loc cc0_scratch2) ↦{fullShare} f) : sProp 𝕄)
    ⊢ bigSep Finset.univ fun sb : Fin 3 × Fin 2 => rcvAny (F := F) c 0 sb.1 sb.2 :=
  slots_give cc0_scratch2 orcv_grid c fun _ => set_sq_slice_whole _ _ _ _ _
theorem l_give (c : Dev nD) : (iprop(∃ f, ((c : Thread nD τ).loc cc0_scratch3) ↦{fullShare} f) : sProp 𝕄)
    ⊢ bigSep Finset.univ fun sb : Fin 3 × Fin 2 => rcvAny (F := F) c 1 sb.1 sb.2 :=
  slots_give cc0_scratch3 lrcv_grid c fun _ => set_sq_slice_whole _ _ _ _ _
theorem f_give (c : Dev nD) : (iprop(∃ f, ((c : Thread nD τ).loc cc0_scratch5) ↦{fullShare} f) : sProp 𝕄)
    ⊢ bigSep Finset.univ fun sb : Fin 3 × Fin 2 => rcvAny (F := F) c 2 sb.1 sb.2 :=
  slots_give cc0_scratch5 frcv_grid c fun _ => set_sq_slice_whole _ _ _ _ _

theorem o_take (m : (ℓ : Loc nD τ sig) → Buf (Elt F) ℓ) (c : Dev nD) : (bigSep Finset.univ fun sb : Fin 3 × Fin 2 => rcvPts m c 0 sb.1 sb.2)
    ⊢ (iprop(∃ f, ((c : Thread nD τ).loc cc0_scratch2) ↦{fullShare} f) : sProp 𝕄) :=
  slots_take cc0_scratch2 orcv_grid c (fun _ => set_sq_slice_whole _ _ _ _ _) (orcvF m c)
theorem l_take (m : (ℓ : Loc nD τ sig) → Buf (Elt F) ℓ) (c : Dev nD) : (bigSep Finset.univ fun sb : Fin 3 × Fin 2 => rcvPts m c 1 sb.1 sb.2)
    ⊢ (iprop(∃ f, ((c : Thread nD τ).loc cc0_scratch3) ↦{fullShare} f) : sProp 𝕄) :=
  slots_take cc0_scratch3 lrcv_grid c (fun _ => set_sq_slice_whole _ _ _ _ _) (lrcvF m c)
theorem f_take (m : (ℓ : Loc nD τ sig) → Buf (Elt F) ℓ) (c : Dev nD) : (bigSep Finset.univ fun sb : Fin 3 × Fin 2 => rcvPts m c 2 sb.1 sb.2)
    ⊢ (iprop(∃ f, ((c : Thread nD τ).loc cc0_scratch5) ↦{fullShare} f) : sProp 𝕄) :=
  slots_take cc0_scratch5 frcv_grid c (fun _ => set_sq_slice_whole _ _ _ _ _) (frcvF m c)

section Lead
variable {n N N' u w : ℕ} {D d o : Fin n → ℕ}

/-- Along a leading axis of extent one a block sits at its offset; the other axes are a block of their own. -/
theorem idx_cons (inb : ∀ a, Matrix.vecCons u o a + Matrix.vecCons 1 d a ≤ (⟨n + 1, Matrix.vecCons N D⟩ : Shape).size a)
    (x : (Rect.unit (s := ⟨n + 1, Matrix.vecCons N D⟩) (Matrix.vecCons u o) (Matrix.vecCons 1 d) inb).shape.Idx) :
    (Rect.unit (s := ⟨n + 1, Matrix.vecCons N D⟩) (Matrix.vecCons u o) (Matrix.vecCons 1 d) inb).toLoadRect.idx x
      = Fin.cons ⟨u, Nat.lt_of_succ_le (inb 0)⟩
          ((Rect.unit (s := ⟨n, D⟩) o d fun a => inb a.succ).toLoadRect.idx (Fin.tail x)) := by
  funext a
  refine Fin.cases ?_ (fun a => rfl) a
  exact Fin.ext (by show u + 1 * (x 0).val = u; have : (x 0).val < 1 := (x 0).isLt; omega)

/-- A block at offset zero is indexed as the array is. -/
theorem idx_zero {S : Shape} {o d : Fin S.rank → ℕ} (ho : ∀ a, o a = 0) (inb) (x : (Rect.unit (s := S) o d inb).shape.Idx) :
    (Rect.unit o d inb).toLoadRect.idx x = fun a => ⟨(x a).val, (x a).isLt.trans_le ((Nat.le_add_left _ _).trans (inb a))⟩ :=
  funext fun a => Fin.ext (by show o a + 1 * (x a).val = (x a).val; rw [ho a, Nat.zero_add, Nat.one_mul])

/-- Two leading unit axes, the rest whole from zero: the block index is (u, w, x₂, x₃, …). -/
theorem idx_cons₂ (ho : ∀ a, o a = 0) (inb) (x) :
    (Rect.unit (s := ⟨n + 2, Matrix.vecCons N (Matrix.vecCons N' D)⟩) (Matrix.vecCons u (Matrix.vecCons w o)) (Matrix.vecCons 1 (Matrix.vecCons 1 d)) inb).toLoadRect.idx x
      = Fin.cons ⟨u, Nat.lt_of_succ_le (inb 0)⟩
          (Fin.cons ⟨w, Nat.lt_of_succ_le (inb 1)⟩ fun a =>
            ⟨(x a.succ.succ).val, (x a.succ.succ).isLt.trans_le ((Nat.le_add_left _ _).trans (inb a.succ.succ))⟩) :=
  (idx_cons _ x).trans (congrArg _ ((idx_cons _ _).trans (congrArg _ (idx_zero ho _ _))))

/-- A slot squeezed of two leading unit axes reads at j what a load at its rectangle reads at (0, 0, j). -/
theorem read_sq₂ {κ : Kind} {cs : Space} {e : EltTy} {Val : EltTy → Type} {Dd : Fin (n + 2) → ℕ} (M : Memref sig κ cs ⟨n + 2, Dd⟩ e)
    (off inb hr hq) (hc : (⟨n + 2, Matrix.vecCons 1 (Matrix.vecCons 1 d)⟩ : Shape).ShapeCasts ⟨n, d⟩) (f) {g}
    (h : M.view.readAt Val (Rect.unit off (Matrix.vecCons 1 (Matrix.vecCons 1 d)) inb).toLoadRect f = g) :
    ((M.slice (Rect.unit off (Matrix.vecCons 1 (Matrix.vecCons 1 d)) inb) hr).squeeze ⟨n, d⟩ hq).view.read Val f
      = fun j => g (Fin.cons ⟨0, Nat.one_pos⟩
          (Fin.cons ⟨0, Nat.one_pos⟩ j)) := by
  subst h
  funext j
  refine (congrFun (Memref.read_squeeze_slice M _ hr hq hc f) j).trans (shapeCast_apply _ hc j _ ?_)
  show (Shape.rowMajorPi _ _).val = (Shape.rowMajorPi d j).val
  rw [Shape.rowMajorPi_succ_val, Shape.rowMajorPi_succ_val]
  show 0 * _ + (0 * _ + (Shape.rowMajorPi d j).val) = _
  rw [Nat.zero_mul, Nat.zero_mul, Nat.zero_add, Nat.zero_add]

end Lead

/-- What a load at a rectangle of a whole buffer touches lies in the slot sliced there. -/
theorem ld_sub {κ : Kind} (b : Ref sig κ) (r : Rect b.ty.shape) (hr : ∀ a, r.stride a = 1) (s' : Shape) (hq : r.shape.Squeezes s') :
    (Memref.whole b).view.setOn r.toLoadRect.set ⊆ (((Memref.whole b).slice r hr).squeeze s' hq).view.set := by
  rw [set_sq_slice_whole]
  show Finset.map (Function.Embedding.refl _) _ ⊆ _
  rw [Finset.map_refl]

theorem o_ld_rcv_sub (s : Fin 3) (b : Fin 2) :
    orcvM.view.setOn (Rect.unit (s := S3x2x8x32x64) ![s.val, b.val, 0, 0, 0] S1x1x8x32x64.size (by revert s b; decide)).toLoadRect.set
      ⊆ (orcvSl s b).view.set := ld_sub cc0_scratch2 _ _ _ _
theorem l_ld_rcv_sub (s : Fin 3) (b : Fin 2) :
    lrcvM.view.setOn (Rect.unit (s := S3x2x8x32) ![s.val, b.val, 0, 0] S1x1x8x32.size (by revert s b; decide)).toLoadRect.set
      ⊆ (lrcvSl s b).view.set := ld_sub cc0_scratch3 _ _ _ _
theorem f_ld_rcv_sub (s : Fin 3) (b : Fin 2) :
    frcvM.view.setOn (Rect.unit (s := S3x2x32x512) ![s.val, b.val, 0, 0] S1x1x32x512.size (by revert s b; decide)).toLoadRect.set
      ⊆ (frcvSl s b).view.set := ld_sub cc0_scratch5 _ _ _ _

section Reads
variable (m : (ℓ : Loc nD τ sig) → Buf (Elt F) ℓ)

theorem o_ld_rcv (c : Dev nD) (s : Fin 3) (b : Fin 2) :
    orcvM.view.readAt (Elt F) (Rect.unit (s := S3x2x8x32x64) ![s.val, b.val, 0, 0, 0] S1x1x8x32x64.size (by revert s b; decide)).toLoadRect (orcvF m c)
      = KV.oBlk1 m (KV.pl c (s.val + 1)) c b := by
  funext x
  rw [View.readAt_apply, idx_cons₂ (by decide)]
  rfl

theorem l_ld_rcv (c : Dev nD) (s : Fin 3) (b : Fin 2) :
    lrcvM.view.readAt (Elt F) (Rect.unit (s := S3x2x8x32) ![s.val, b.val, 0, 0] S1x1x8x32.size (by revert s b; decide)).toLoadRect (lrcvF m c)
      = KV.lBlk1 m (KV.pl c (s.val + 1)) c b := by
  funext x
  rw [View.readAt_apply, idx_cons₂ (by decide)]
  rfl

theorem f_ld_rcv (c : Dev nD) (s : Fin 3) (b : Fin 2) :
    frcvM.view.readAt (Elt F) (Rect.unit (s := S3x2x32x512) ![s.val, b.val, 0, 0] S1x1x32x512.size (by revert s b; decide)).toLoadRect (frcvF m c)
      = KV.fBlk1 m (KV.pl c (s.val + 1)) b := by
  funext x
  rw [View.readAt_apply, idx_cons₂ (by decide)]
  rfl

theorem o_ld_at (c : Dev nD) (t : Fin 4) (b : Fin 2) {off : Fin 5 → ℕ} {n : ℕ} (hoff : off = ![n, b.val, 0, 0, 0]) (hn : n = t.val)
    (inb : ∀ a, off a + S1x1x8x32x64.size a ≤ S4x2x8x32x64.size a) :
    osrcM.view.readAt (Elt F) (Rect.unit (s := S4x2x8x32x64) off S1x1x8x32x64.size inb).toLoadRect (osrcF m c) = KV.oBlk1 m c t b := by
  subst hoff hn
  funext x
  rw [View.readAt_apply, idx_cons₂ (by decide)]
  rfl

theorem l_ld_at (c : Dev nD) (t : Fin 4) (b : Fin 2) {off : Fin 4 → ℕ} {n : ℕ} (hoff : off = ![n, b.val, 0, 0]) (hn : n = t.val)
    (inb : ∀ a, off a + S1x1x8x32.size a ≤ S4x2x8x32.size a) :
    lsrcM.view.readAt (Elt F) (Rect.unit (s := S4x2x8x32) off S1x1x8x32.size inb).toLoadRect (lsrcF m c) = KV.lBlk1 m c t b := by
  subst hoff hn
  funext x
  rw [View.readAt_apply, idx_cons₂ (by decide)]
  rfl

theorem o_ld_own0 (c : Dev nD) : osrcM.view.readAt (Elt F) (oOwnRect c 0).toLoadRect (osrcF m c) = KV.oBlk1 m c c 0 :=
  o_ld_at m c c 0 (k0_off6_eq c) rfl _
theorem o_ld_own1 (c : Dev nD) : osrcM.view.readAt (Elt F) (oOwnRect c 1).toLoadRect (osrcF m c) = KV.oBlk1 m c c 1 :=
  o_ld_at m c c 1 (k0_off9_eq c) rfl _
theorem l_ld_own0 (c : Dev nD) : lsrcM.view.readAt (Elt F) (lOwnRect c 0).toLoadRect (lsrcF m c) = KV.lBlk1 m c c 0 :=
  l_ld_at m c c 0 (k0_off5_eq c) rfl _
theorem l_ld_own1 (c : Dev nD) : lsrcM.view.readAt (Elt F) (lOwnRect c 1).toLoadRect (lsrcF m c) = KV.lBlk1 m c c 1 :=
  l_ld_at m c c 1 (k0_off8_eq c) rfl _

end Reads

section Land
variable (m : (ℓ : Loc nD τ sig) → Buf (Elt F) ℓ)

theorem pl_val (c : Dev nD) (r : Fin 3) : (c.val + r.val + 1) % 4 = (pl c (r.val + 1)).val := congrArg (· % 4) (Nat.add_assoc _ _ _)

theorem osrc_read0 (c : Dev nD) (r : Fin 3) : (osrcSl c r 0).view.read (Elt F) (osrcF m c) = KV.oBlk m c (pl c (r.val + 1)) 0 :=
  read_sq₂ osrcM _ _ _ squeezes_S1x1x8x32x64_S8x32x64 shapeCasts_S1x1x8x32x64_S8x32x64 _ (o_ld_at m c _ 0 (k0_off1_eq c r) (pl_val c r) _)
theorem osrc_read1 (c : Dev nD) (r : Fin 3) : (osrcSl c r 1).view.read (Elt F) (osrcF m c) = KV.oBlk m c (pl c (r.val + 1)) 1 :=
  read_sq₂ osrcM _ _ _ squeezes_S1x1x8x32x64_S8x32x64 shapeCasts_S1x1x8x32x64_S8x32x64 _ (o_ld_at m c _ 1 (k0_off3_eq c r) (pl_val c r) _)
theorem lsrc_read0 (c : Dev nD) (r : Fin 3) : (lsrcSl c r 0).view.read (Elt F) (lsrcF m c) = KV.lBlk m c (pl c (r.val + 1)) 0 :=
  read_sq₂ lsrcM _ _ _ squeezes_S1x1x8x32_S8x32 shapeCasts_S1x1x8x32_S8x32 _ (l_ld_at m c _ 0 (k0_off2_eq c r) (pl_val c r) _)
theorem lsrc_read1 (c : Dev nD) (r : Fin 3) : (lsrcSl c r 1).view.read (Elt F) (lsrcF m c) = KV.lBlk m c (pl c (r.val + 1)) 1 :=
  read_sq₂ lsrcM _ _ _ squeezes_S1x1x8x32_S8x32 shapeCasts_S1x1x8x32_S8x32 _ (l_ld_at m c _ 1 (k0_off4_eq c r) (pl_val c r) _)

theorem fsrc_read (c : Dev nD) (b : Fin 2) : (fsrcSl b).view.read (Elt F) (fsrcF m c) = KV.fBlk m c b := by
  funext y
  rw [Memref.read_squeeze_slice fsrcM _ _ _ shapeCasts_S1x32x512_S32x512, shapeCast_dropUnit_apply, View.readAt_apply,
    (idx_cons _ _).trans (congrArg _ (idx_zero (by decide) _ _))]
  rfl

theorem orcv_read (c : Dev nD) (s : Fin 3) (b : Fin 2) :
    (orcvSl s b).view.read (Elt F) (orcvF m c) = KV.oBlk m (pl c (s.val + 1)) c b :=
  read_sq₂ orcvM _ _ _ _ shapeCasts_S1x1x8x32x64_S8x32x64 _ (o_ld_rcv m c s b)
theorem lrcv_read (c : Dev nD) (s : Fin 3) (b : Fin 2) :
    (lrcvSl s b).view.read (Elt F) (lrcvF m c) = KV.lBlk m (pl c (s.val + 1)) c b :=
  read_sq₂ lrcvM _ _ _ _ shapeCasts_S1x1x8x32_S8x32 _ (l_ld_rcv m c s b)
theorem frcv_read (c : Dev nD) (s : Fin 3) (b : Fin 2) :
    (frcvSl s b).view.read (Elt F) (frcvF m c) = KV.fBlk m (pl c (s.val + 1)) b :=
  read_sq₂ frcvM _ _ _ _ shapeCasts_S1x1x32x512_S32x512 _ (f_ld_rcv m c s b)

theorem pl_back (c : Dev nD) (r : Fin 3) : pl (pl c (r.val + 1)) ((slotOf r).val + 1) = c := by
  have h : r.val + 1 + ((slotOf r).val + 1) = 4 := by
    show r.val + 1 + (2 - r.val + 1) = 4
    have := r.isLt; omega
  rw [pl_pl, h, pl_four]

/-- A slot overwritten whole with what another view reads holds any contents that read the same. -/
theorem land {sp sp' : Space} {S : Shape} {e : EltTy} (dst : Memref sig .tc sp S e) (src : Memref sig .tc sp' S e) (p : Dev nD)
    (fd : dst.view.ty.Contents (Elt F)) {g fs} (h : src.view.read (Elt F) fs = dst.view.read (Elt F) g) :
    (dst.view.loc (p : Thread nD τ) ↦[dst.view.set]{fullShare} dst.view.write (Elt F) fd (src.view.read (Elt F) fs) Finset.univ : sProp 𝕄)
      ⊢ dst.view.loc (p : Thread nD τ) ↦[dst.view.set]{fullShare} g := by
  refine Entails.of_eq (pointsTo_congr fun i hi => ?_)
  obtain ⟨y, rfl⟩ := View.exists_emb_of_mem_set dst.view hi
  rw [View.write_emb_of_mem _ _ (Finset.mem_univ y), h, View.read_apply, cast_cast, cast_eq]

theorem o_land0 (c : Dev nD) (r : Fin 3) (fd : Buf (Elt F) ((orcvSl (slotOf r) 0).view.loc (pl c (r.val + 1) : Thread nD τ))) :
    ((orcvSl (slotOf r) 0).view.loc (pl c (r.val + 1) : Thread nD τ) ↦[(orcvSl (slotOf r) 0).view.set]{fullShare}
        (orcvSl (slotOf r) 0).view.write (Elt F) fd ((osrcSl c r 0).view.read (Elt F) (osrcF m c)) Finset.univ : sProp 𝕄)
      ⊢ rcvPts m (pl c (r.val + 1)) 0 (slotOf r) 0 :=
  land (orcvSl (slotOf r) 0) (osrcSl c r 0) _ fd (by rw [osrc_read0, orcv_read, pl_back])
theorem o_land1 (c : Dev nD) (r : Fin 3) (fd : Buf (Elt F) ((orcvSl (slotOf r) 1).view.loc (pl c (r.val + 1) : Thread nD τ))) :
    ((orcvSl (slotOf r) 1).view.loc (pl c (r.val + 1) : Thread nD τ) ↦[(orcvSl (slotOf r) 1).view.set]{fullShare}
        (orcvSl (slotOf r) 1).view.write (Elt F) fd ((osrcSl c r 1).view.read (Elt F) (osrcF m c)) Finset.univ : sProp 𝕄)
      ⊢ rcvPts m (pl c (r.val + 1)) 0 (slotOf r) 1 :=
  land (orcvSl (slotOf r) 1) (osrcSl c r 1) _ fd (by rw [osrc_read1, orcv_read, pl_back])
theorem l_land0 (c : Dev nD) (r : Fin 3) (fd : Buf (Elt F) ((lrcvSl (slotOf r) 0).view.loc (pl c (r.val + 1) : Thread nD τ))) :
    ((lrcvSl (slotOf r) 0).view.loc (pl c (r.val + 1) : Thread nD τ) ↦[(lrcvSl (slotOf r) 0).view.set]{fullShare}
        (lrcvSl (slotOf r) 0).view.write (Elt F) fd ((lsrcSl c r 0).view.read (Elt F) (lsrcF m c)) Finset.univ : sProp 𝕄)
      ⊢ rcvPts m (pl c (r.val + 1)) 1 (slotOf r) 0 :=
  land (lrcvSl (slotOf r) 0) (lsrcSl c r 0) _ fd (by rw [lsrc_read0, lrcv_read, pl_back])
theorem l_land1 (c : Dev nD) (r : Fin 3) (fd : Buf (Elt F) ((lrcvSl (slotOf r) 1).view.loc (pl c (r.val + 1) : Thread nD τ))) :
    ((lrcvSl (slotOf r) 1).view.loc (pl c (r.val + 1) : Thread nD τ) ↦[(lrcvSl (slotOf r) 1).view.set]{fullShare}
        (lrcvSl (slotOf r) 1).view.write (Elt F) fd ((lsrcSl c r 1).view.read (Elt F) (lsrcF m c)) Finset.univ : sProp 𝕄)
      ⊢ rcvPts m (pl c (r.val + 1)) 1 (slotOf r) 1 :=
  land (lrcvSl (slotOf r) 1) (lsrcSl c r 1) _ fd (by rw [lsrc_read1, lrcv_read, pl_back])
theorem f_land (c : Dev nD) (r : Fin 3) (b : Fin 2) (fd : Buf (Elt F) ((frcvSl (slotOf r) b).view.loc (pl c (r.val + 1) : Thread nD τ))) :
    ((frcvSl (slotOf r) b).view.loc (pl c (r.val + 1) : Thread nD τ) ↦[(frcvSl (slotOf r) b).view.set]{fullShare}
        (frcvSl (slotOf r) b).view.write (Elt F) fd ((fsrcSl b).view.read (Elt F) (fsrcF m c)) Finset.univ : sProp 𝕄)
      ⊢ rcvPts m (pl c (r.val + 1)) 2 (slotOf r) b :=
  land (frcvSl (slotOf r) b) (fsrcSl b) _ fd (by rw [fsrc_read, frcv_read, pl_back])

end Land

end Cert.KernelIdeal.Proto

end
-- ==== Proof.GeoOut.lean ====
import proofs.«900757_g7700000000000758_dist_attn_cross_mha_kvseq_b2_sq128_skv128_d512_hq8_dh64_v7x_i4_f32_1_alg».proof.Proof.BodyDefs
import Idealize.ShloMosaic.Lib.Pipeline.Value
import Idealize.ShloMosaic.Lib.WritesUnit

namespace Cert.KernelIdeal.Proto

open Cert.KernelIdeal Cert.KernelIdeal.Gen
open Idealize.ShloMosaic Idealize.ShloMosaic.ValueIdx

variable {F : FTy → Type} [FloatOps F]

-- A block written at rows `32 t … 32 t + 31` of batch `bb` is read back there, row by row; every other entry keeps `f`.
theorem write_rows {off : Fin 3 → Nat} {inb : ∀ a, off a + S1x32x512.size a ≤ S2x128x512.size a} {bb t : ℕ}
    (h : off = ![bb, 32 * t, 0]) (f : (cc0_stg5_0 : Ref sig .tc).ty.Contents (Elt F)) (w : FVec F S1x32x512 .f32)
    (i : S2x128x512.Idx) :
    (outM.access (Rect.unit (s := S2x128x512) off S1x32x512.size inb)).write (Elt F) f w Finset.univ i
      = if (i 0).val = bb ∧ (i 1).val / 32 = t then w (ix3 0 ⟨(i 1).val % 32, Nat.mod_lt _ (by decide)⟩ (i 2)) else f i := by
  split
  · next hin =>
    have := View.read_writes_cons_unit_of_mem outM.view f inb w [] i
      (ix3 0 ⟨(i 1).val % 32, Nat.mod_lt _ (by decide)⟩ (i 2)) h fun a => by
        match a with
        | ⟨0, _⟩ => show (i 0).val = bb + 0; omega
        | ⟨1, _⟩ => show (i 1).val = 32 * t + (i 1).val % 32; omega
        | ⟨2, _⟩ => show (i 2).val = 0 + (i 2).val; omega
    rwa [View.writes_cons, View.writes_nil, View.read_whole] at this
  · next hout =>
    have := View.read_writes_cons_unit_of_not_mem outM.view f inb w [] i h
    rw [View.writes_cons, View.writes_nil, View.read_whole] at this
    rcases not_and_or.mp hout with h0 | h1
    · exact this 0 (by show (i 0).val < bb ∨ bb + 1 ≤ (i 0).val; omega)
    · exact this 1 (by show (i 1).val < 32 * t ∨ 32 * t + 32 ≤ (i 1).val; omega)

-- The eight blocks written, one for each batch and each of the row blocks `c, c + 1, c + 2, c + 3` modulo 4, tile the buffer.
theorem out_final (m : (ℓ : Loc nD τ sig) → Buf (Elt F) ℓ) (c : Dev nD) (d : (cc0_stg5_0 : Ref sig .tc).ty.Contents (Elt F)) :
    outX m c d 8 = KV.outVal m c := by
  funext i
  simp only [outX]
  erw [write_rows (k0_off12_eq c 2), write_rows (k0_off12_eq c 1), write_rows (k0_off12_eq c 0),
    write_rows (k0_off11_eq c 2), write_rows (k0_off11_eq c 1), write_rows (k0_off11_eq c 0),
    write_rows (k0_off10_eq c) _ (KV.own m c 1), write_rows (k0_off7_eq c) _ (KV.own m c 0)]
  have h0 : (i 0).val < 2 := (i 0).isLt
  have h1 : (i 1).val < 128 := (i 1).isLt
  have hc : c.val < 4 := c.isLt
  obtain hr | hr | hr | hr : (i 1).val / 32 = c.val ∨ (i 1).val / 32 = (c.val + 1) % 4 ∨ (i 1).val / 32 = (c.val + 2) % 4
      ∨ (i 1).val / 32 = (c.val + 3) % 4 := by omega
  all_goals
    obtain hv | hv : (i 0).val = 0 ∨ (i 0).val = 1 := by omega
  all_goals
    simp (disch := omega) only [KV.outVal, ↓if_pos, ↓if_neg]
    congr 2
    exact (Fin.ext hv).symm

end Cert.KernelIdeal.Proto
-- ==== Proof.StageEnd.lean ====
-- The last wait; every buffer is whole again and the result is outVal.
import proofs.«900757_g7700000000000758_dist_attn_cross_mha_kvseq_b2_sq128_skv128_d512_hq8_dh64_v7x_i4_f32_1_alg».proof.Proof.BodyDefs
import proofs.«900757_g7700000000000758_dist_attn_cross_mha_kvseq_b2_sq128_skv128_d512_hq8_dh64_v7x_i4_f32_1_alg».proof.Proof.Peel
import proofs.«900757_g7700000000000758_dist_attn_cross_mha_kvseq_b2_sq128_skv128_d512_hq8_dh64_v7x_i4_f32_1_alg».proof.Proof.StepWait
import proofs.«900757_g7700000000000758_dist_attn_cross_mha_kvseq_b2_sq128_skv128_d512_hq8_dh64_v7x_i4_f32_1_alg».proof.Proof.GeoSrc
import proofs.«900757_g7700000000000758_dist_attn_cross_mha_kvseq_b2_sq128_skv128_d512_hq8_dh64_v7x_i4_f32_1_alg».proof.Proof.GeoRcv
import proofs.«900757_g7700000000000758_dist_attn_cross_mha_kvseq_b2_sq128_skv128_d512_hq8_dh64_v7x_i4_f32_1_alg».proof.Proof.GeoOut

noncomputable section

namespace Cert.KernelIdeal.Proto

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ UU ℕ

def sbAll : List (Fin 3 × Fin 2) := [(0, 0), (1, 0), (2, 0), (0, 1), (1, 1), (2, 1)]

theorem sbAll_univ : (Finset.univ : Finset (Fin 3 × Fin 2)) = sbAll.toFinset := by decide
theorem sbAll_nodup : sbAll.Nodup := by decide

theorem rcv_whole (m : (ℓ : Loc nD τ sig) → Buf (Elt F) ℓ) (c : Dev nD) (k : Fin 3) {P : sProp 𝕄}
    (h : (bigSep Finset.univ fun sb : Fin 3 × Fin 2 => rcvPts m c k sb.1 sb.2) ⊢ P) :
    iprop(rcvPts m c k 0 0 ∗ rcvPts m c k 1 0 ∗ rcvPts m c k 2 0 ∗ rcvPts m c k 0 1 ∗ rcvPts m c k 1 1 ∗ rcvPts m c k 2 1) ⊢ P :=
  (Entails.of_eq (by rw [bigSep_univ_eq_bigSepL sbAll sbAll_univ sbAll_nodup]; rfl)).trans h

def xfAll : List Xf :=
  [(0, 0, 0), (0, 1, 0), (0, 2, 0), (0, 0, 1), (0, 1, 1), (0, 2, 1),
   (1, 0, 0), (1, 1, 0), (1, 2, 0), (1, 0, 1), (1, 1, 1), (1, 2, 1),
   (2, 0, 0), (2, 1, 0), (2, 2, 0), (2, 0, 1), (2, 1, 1), (2, 2, 1)]

theorem xfAll_univ : (Finset.univ : Finset Xf) = xfAll.toFinset := by decide
theorem xfAll_nodup : xfAll.Nodup := by decide

theorem xfAll_sep (g : Fin 3 → Fin 3 → Fin 2 → sProp 𝕄) : (bigSepL xfAll fun t : Xf => g t.1 t.2.1 t.2.2) ⊢
    iprop(g 0 0 0 ∗ g 0 1 0 ∗ g 0 2 0 ∗ g 0 0 1 ∗ g 0 1 1 ∗ g 0 2 1 ∗ g 1 0 0 ∗ g 1 1 0 ∗ g 1 2 0 ∗ g 1 0 1 ∗ g 1 1 1 ∗ g 1 2 1
      ∗ g 2 0 0 ∗ g 2 1 0 ∗ g 2 2 0 ∗ g 2 0 1 ∗ g 2 1 1 ∗ g 2 2 1) := Entails.of_eq rfl

theorem flight_done (m : (ℓ : Loc nD τ sig) → Buf (Elt F) ℓ) (c : Dev nD) :
    flight m c 18 18 18 ⊢
      iprop((bigSep (Finset.univ : Finset Xf) fun t => semVal (sndCell c t) 0)
        ∗ (bigSepL xfAll fun t : Xf => srcPts m c t.1 t.2.1 t.2.2)
        ∗ (bigSep (Finset.univ : Finset Xf) fun t => semVal (rcvCellX c t) 0)
        ∗ (bigSepL xfAll fun t : Xf => rcvPts m c t.1 t.2.1 t.2.2)
        ∗ ∃ W : Waits sig Unit, owes (c : Thread nD τ) 0 W) := by
  unfold flight
  rw [bigSep_ge_top ordS_lt, bigSep_lt_ge_top ordW_lt, bigSep_ge_top ordW_lt, bigSep_lt_top ordW_lt, bigSep_ge_top ordR_lt, bigSep_lt_top ordR_lt, owedSends_done,
    bigSep_sep', bigSep_sep',
    bigSep_univ_eq_bigSepL xfAll xfAll_univ xfAll_nodup (fun t : Xf => srcPts m c t.1 t.2.1 t.2.2),
    bigSep_univ_eq_bigSepL xfAll xfAll_univ xfAll_nodup (fun t : Xf => rcvPts m c t.1 t.2.1 t.2.2)]
  iintro ⟨-, -, -, ⟨Hs, Hsrc⟩, -, ⟨Hr, Hrcv⟩, HO⟩
  iframe

theorem stageEnd_proof (m : (ℓ : Loc nD τ sig) → Buf (Elt F) ℓ) (K : Dev nD × Fin 37 → ℕ) (c : Dev nD) (d : (cc0_stg5_0 : Ref sig .tc).ty.Contents (Elt F)) :
    St6 m K c d ⊢ wp frame (wpE (defs₀ (F := F)) 𝒱₀ (c : Thread nD τ) none) Set.univ
      (do
        let v832 : Memref sig .tc .vmem S1x1x32x512 .bf16 := frcvM.slice (Rect.unit (s := S3x2x32x512) ![0, 1, 0, 0] S1x1x32x512.size inb_S3x2x32x512_S1x1x32x512_0_1_0_0) (fun _ => rfl)
        let v833 : Memref sig .tc .vmem S32x512 .bf16 := v832.squeeze S32x512 squeezes_S1x1x32x512_S32x512
        let v828 : DmaSems sig S1x1 := cc0_scratch8.slice (Rect.unit (s := S3x2) ![2, 1] S1x1.size inb_S3x2_S1x1_2_1)
        let v829 : DmaSems sig S_ := v828.squeeze S_ squeezes_S1x1_S_
        let v830 : Memref sig .tc .vmem S1x32x512 .bf16 := fsrcM.slice (Rect.unit (s := S2x32x512) ![1, 0, 0] S1x32x512.size inb_S2x32x512_S1x32x512_1_0_0) (fun _ => rfl)
        let v831 : Memref sig .tc .vmem S32x512 .bf16 := v830.squeeze S32x512 squeezes_S1x32x512_S32x512
        Prog.lift (.waitDma2 v829.sem v833 v831 (((Memref.isWhole_whole cc0_scratch5).wordExact_slice rfl _ wordsbf16_S3x2x32x512_S1x1x32x512_0_1_0_0).reshape _ _) (((Memref.isWhole_whole cc0_scratch4).wordExact_slice rfl _ wordsbf16_S2x32x512_S1x32x512_1_0_0).reshape _ _))
        pure ⟨⟩ : Prog (TpuEff nD τ sig (Elt F) Λ₀ .tc) PUnit)
      (fun _ => StEnd m c) := by
  simp only [Prog.lift, Prog.bind_op, Prog.bind_ret, Prog.pure_eq_ret, wp_bind]
  unfold St6 keep
  iintro ⟨⟨#Hrec, #Hlev, Hin⟩, Hfl, Ho0, Hl0, Ho1, Hl1, Hout⟩
  iapply (step_wait_send_to m K c (2, 2, 1) 18 18 17 18 rfl rfl (by decide) _ (by decide) (credit_F _)) $$ [Hfl]
  · iframe # ∗
  iintro Hfl
  rw [wp_ret]
  ihave Hd := (flight_done m c) $$ Hfl
  icases Hd with ⟨Hs, Hsrc, Hr, Hrcv, HO⟩

  ihave Hsrc' := (xfAll_sep (srcPts m c)) $$ Hsrc
  icases Hsrc' with ⟨O00, O10, O20, O01, O11, O21, L00, L10, L20, L01, L11, L21, F00, F10, F20, F01, F11, F21⟩
  ihave Hrcv' := (xfAll_sep (rcvPts m c)) $$ Hrcv
  icases Hrcv' with ⟨RO00, RO10, RO20, RO01, RO11, RO21, RL00, RL10, RL20, RL01, RL11, RL21, RF00, RF10, RF20, RF01, RF11, RF21⟩
  ihave B0 := (o_whole m c) $$ [O00 O10 O20 Ho0 O01 O11 O21 Ho1]
  · iframe
  ihave B1 := (l_whole m c) $$ [L00 L10 L20 Hl0 L01 L11 L21 Hl1]
  · iframe
  ihave B2 := (rcv_whole m c 0 (o_take m c)) $$ [RO00 RO10 RO20 RO01 RO11 RO21]
  · iframe
  ihave B3 := (rcv_whole m c 1 (l_take m c)) $$ [RL00 RL10 RL20 RL01 RL11 RL21]
  · iframe
  ihave B4 := (f_whole m c) $$ [F00 F10 F20 F01 F11 F21]
  · iframe
  ihave B5 := (rcv_whole m c 2 (f_take m c)) $$ [RF00 RF10 RF20 RF01 RF11 RF21]
  · iframe
  imodintro
  unfold StEnd scratchAny outP
  rw [out_final m c d]
  iframe

end Cert.KernelIdeal.Proto

end
-- ==== Proof.StepSend.lean ====
import proofs.«900757_g7700000000000758_dist_attn_cross_mha_kvseq_b2_sq128_skv128_d512_hq8_dh64_v7x_i4_f32_1_alg».proof.Proof.BodyDefs
import proofs.«900757_g7700000000000758_dist_attn_cross_mha_kvseq_b2_sq128_skv128_d512_hq8_dh64_v7x_i4_f32_1_alg».proof.Proof.Peel
import proofs.«900757_g7700000000000758_dist_attn_cross_mha_kvseq_b2_sq128_skv128_d512_hq8_dh64_v7x_i4_f32_1_alg».proof.Proof.GeoRcv

noncomputable section

namespace Cert.KernelIdeal.Proto

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section Steps
variable (m : (ℓ : Loc nD τ sig) → Buf (Elt F) ℓ) (K : Dev nD × Fin 37 → ℕ)

/-- One addressed copy of any kind `k`: the views, the share and the landing fact are parameters. -/
theorem step_send_kind (c : Dev nD) (k r : Fin 3) (b : Fin 2) (ns nr : ℕ) (hns : ordS (k, r, b) = ns)
    {s : Shape} {e : EltTy} (src dst : Memref sig .tc .vmem s e) (q : PosShare TreeShare) (fs : Buf (Elt F) (src.view.loc (c : Thread nD τ)))
    (hN : dst.view.amount (.dma (recvIx k (slotOf r) b)) = NK k)
    (hs : (src.view.loc (c : Thread nD τ) ↦[src.view.set]{q} fs : sProp 𝕄) ⊢ srcPts m c k r b)
    (ha : rcvAny (F := F) (pl c (r.val + 1)) k (slotOf r) b ⊢ iprop(∃ f, dst.view.loc (pl c (r.val + 1) : Thread nD τ) ↦[dst.view.set]{fullShare} f))
    (hl : ∀ fd, (dst.view.loc (pl c (r.val + 1) : Thread nD τ) ↦[dst.view.set]{fullShare}
        dst.view.write (Elt F) fd (src.view.read (Elt F) fs) Finset.univ : sProp 𝕄) ⊢ rcvPts m (pl c (r.val + 1)) k (slotOf r) b)
    {hsc : dst.view.ref.isScScratch = false} {hsrc : src.view.WordExact} {hdst : dst.view.WordExact}
    {hsem : DmaTarget.Typed .vmem (.dma (recvIx k (slotOf r) b)) (.remote (Dev.tc (pl c (r.val + 1)) : Thread nD τ) dst (.dma (sendIx k r b)) hsc)}
    {α : Type} {Q : α → sProp 𝕄} {k' : PUnit → Prog (TpuEff nD τ sig (Elt F) Λ₀ .tc) α} :
    iprop(records m K ∗ flight m c ns nr 0 ∗ (src.view.loc (c : Thread nD τ) ↦[src.view.set]{q} fs))
      ⊢ iprop((flight m c (ns + 1) nr 0 -∗ wp frame (wpE (defs₀ (F := F)) 𝒱₀ (c : Thread nD τ) none) Set.univ (k' ⟨⟩) Q)
          -∗ wp frame (wpE (defs₀ (F := F)) 𝒱₀ (c : Thread nD τ) none) Set.univ
              (.op (.enqueueDma src (.remote (Dev.tc (pl c (r.val + 1)) : Thread nD τ) dst (.dma (sendIx k r b)) hsc) (.dma (recvIx k (slotOf r) b)) hsrc hdst hsem) k') Q) := by
  iintro ⟨#Hrec, Hfl, Hsrc⟩ Hk
  unfold flight
  icases Hfl with ⟨H1, H2, H3, H4, H5, H6, ⟨%W, HO⟩⟩
  ihave H1' := (Entails.of_eq (bigSep_ge_peel ordS_inj hns _)) $$ H1
  unfold sendTok
  icases H1' with ⟨⟨⟨Ht1, Ht2⟩, Hany⟩, H1⟩
  ihave Hany' := ha $$ Hany
  icases Hany' with ⟨%fd, Hdst⟩
  iapply (Rounds.wp_send_pointsTo 𝒱₀ ER (Rd m) (c : Thread nD τ) none (fd := fd)
      (κ₁ := K (c, sIdx k r b)) (κ₂ := K (pl c (r.val + 1), rIdx k (slotOf r) b)) (r₁ := 0) (r₂ := 0) (d₁ := 0) (d₂ := 0)
      (by rw [duties_send]; exact Finset.mem_singleton_self _) (by rw [duties_recv]; exact Finset.mem_singleton_self _)
      () () (NK k) hN (amount_send m c k r b 0) (amount_recv m (pl c (r.val + 1)) k (slotOf r) b 0)
      (owedSends c (ns + 1)) (owedSends_peel c ns (k, r, b) hns) (W := W)
      (by rw [payload_send]; exact hs) (by rw [payload_recv]; exact hl fd)) $$ [Hsrc Hdst HO Ht1 Ht2]
  · iframe Hsrc Hdst HO Ht1 Ht2
    isplitr; · iapply (inv_send m K c k r b); iexact Hrec
    isplitr; · iapply (inv_recv m K (pl c (r.val + 1)) k (slotOf r) b); iexact Hrec
    isplitr; · iapply (reached_send m K c k r b); iexact Hrec
    iapply (reached_recv m K (pl c (r.val + 1)) k (slotOf r) b); iexact Hrec
  iintro ⟨Hc, HO⟩
  iapply Hk
  iframe H1 H3 H4 H5 H6
  isplitr [HO]
  · iapply (Entails.of_eq (bigSep_lt_ge_peel_left (o2 := ordW) (nw := 0) ordS_inj hns (Nat.zero_le _) _).symm); iframe
  iexists W; iexact HO

theorem step_send_O (c n : Dev nD) (r : Fin 3) (b : Fin 2) (hn : n = pl c (r.val + 1)) (ns nr : ℕ) (hns : ordS (0, r, b) = ns)
    (sS sR : DmaSem sig) (hS : sS = sendIx 0 r b) (hR : sR = recvIx 0 (slotOf r) b)
    {hsc : ((orcvSl (slotOf r) b : Memref sig (Dev.tc n : Thread nD τ).2.kind .vmem S8x32x64 .bf16)).view.ref.isScScratch = false}
    {hsrc : (osrcSl c r b).view.WordExact} {hdst : (orcvSl (slotOf r) b).view.WordExact}
    {hsem : DmaTarget.Typed .vmem (.dma sR) (.remote (Dev.tc n : Thread nD τ) (orcvSl (slotOf r) b) (.dma sS) hsc)}
    {α : Type} {Q : α → sProp 𝕄} {k : PUnit → Prog (TpuEff nD τ sig (Elt F) Λ₀ .tc) α} :
    iprop(records m K ∗ flight m c ns nr 0 ∗ srcPts m c 0 r b)
      ⊢ iprop((flight m c (ns + 1) nr 0 -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (osrcSl c r b) (.remote (Dev.tc n : Thread nD τ) (orcvSl (slotOf r) b) (.dma sS) hsc) (.dma sR) hsrc hdst hsem) k) Q) := by
  subst hn hS hR
  rcases b with ⟨_ | _ | b, hb⟩
  exacts [step_send_kind m K c 0 r 0 ns nr hns (osrcSl c r 0) (orcvSl (slotOf r) 0) fullShare (osrcF m c) rfl Entails.rfl Entails.rfl (o_land0 m c r),
    step_send_kind m K c 0 r 1 ns nr hns (osrcSl c r 1) (orcvSl (slotOf r) 1) fullShare (osrcF m c) rfl Entails.rfl Entails.rfl (o_land1 m c r), by omega]

theorem step_send_L (c n : Dev nD) (r : Fin 3) (b : Fin 2) (hn : n = pl c (r.val + 1)) (ns nr : ℕ) (hns : ordS (1, r, b) = ns)
    (sS sR : DmaSem sig) (hS : sS = sendIx 1 r b) (hR : sR = recvIx 1 (slotOf r) b)
    {hsc : ((lrcvSl (slotOf r) b : Memref sig (Dev.tc n : Thread nD τ).2.kind .vmem S8x32 .f32)).view.ref.isScScratch = false}
    {hsrc : (lsrcSl c r b).view.WordExact} {hdst : (lrcvSl (slotOf r) b).view.WordExact}
    {hsem : DmaTarget.Typed .vmem (.dma sR) (.remote (Dev.tc n : Thread nD τ) (lrcvSl (slotOf r) b) (.dma sS) hsc)}
    {α : Type} {Q : α → sProp 𝕄} {k : PUnit → Prog (TpuEff nD τ sig (Elt F) Λ₀ .tc) α} :
    iprop(records m K ∗ flight m c ns nr 0 ∗ srcPts m c 1 r b)
      ⊢ iprop((flight m c (ns + 1) nr 0 -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (lsrcSl c r b) (.remote (Dev.tc n : Thread nD τ) (lrcvSl (slotOf r) b) (.dma sS) hsc) (.dma sR) hsrc hdst hsem) k) Q) := by
  subst hn hS hR
  rcases b with ⟨_ | _ | b, hb⟩
  exacts [step_send_kind m K c 1 r 0 ns nr hns (lsrcSl c r 0) (lrcvSl (slotOf r) 0) fullShare (lsrcF m c) rfl Entails.rfl Entails.rfl (l_land0 m c r),
    step_send_kind m K c 1 r 1 ns nr hns (lsrcSl c r 1) (lrcvSl (slotOf r) 1) fullShare (lsrcF m c) rfl Entails.rfl Entails.rfl (l_land1 m c r), by omega]

theorem step_send_F (c n : Dev nD) (r : Fin 3) (b : Fin 2) (hn : n = pl c (r.val + 1)) (ns nr : ℕ) (hns : ordS (2, r, b) = ns)
    (sS sR : DmaSem sig) (hS : sS = sendIx 2 r b) (hR : sR = recvIx 2 (slotOf r) b)
    {hsc : ((frcvSl (slotOf r) b : Memref sig (Dev.tc n : Thread nD τ).2.kind .vmem S32x512 .bf16)).view.ref.isScScratch = false}
    {hsrc : (fsrcSl b).view.WordExact} {hdst : (frcvSl (slotOf r) b).view.WordExact}
    {hsem : DmaTarget.Typed .vmem (.dma sR) (.remote (Dev.tc n : Thread nD τ) (frcvSl (slotOf r) b) (.dma sS) hsc)}
    {α : Type} {Q : α → sProp 𝕄} {k : PUnit → Prog (TpuEff nD τ sig (Elt F) Λ₀ .tc) α} :
    iprop(records m K ∗ flight m c ns nr 0 ∗ srcPts m c 2 r b)
      ⊢ iprop((flight m c (ns + 1) nr 0 -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (fsrcSl b) (.remote (Dev.tc n : Thread nD τ) (frcvSl (slotOf r) b) (.dma sS) hsc) (.dma sR) hsrc hdst hsem) k) Q) := by
  subst hn hS hR
  exact step_send_kind m K c 2 r b ns nr hns (fsrcSl b) (frcvSl (slotOf r) b) (fshare r) (fsrcF m c) rfl Entails.rfl Entails.rfl (f_land m c r b)

end Steps

end Cert.KernelIdeal.Proto

end
-- ==== Proof.StageC.lean ====
-- Stage C: batch 0 of the owned rows: the partial sums received are added to the own block, divided, projected, stored in the result, and the finished rows sent to the three peers.
import proofs.«900757_g7700000000000758_dist_attn_cross_mha_kvseq_b2_sq128_skv128_d512_hq8_dh64_v7x_i4_f32_1_alg».proof.Proof.StepWait
import proofs.«900757_g7700000000000758_dist_attn_cross_mha_kvseq_b2_sq128_skv128_d512_hq8_dh64_v7x_i4_f32_1_alg».proof.Proof.StepSend
import proofs.«900757_g7700000000000758_dist_attn_cross_mha_kvseq_b2_sq128_skv128_d512_hq8_dh64_v7x_i4_f32_1_alg».proof.Proof.GeoSrc

noncomputable section

namespace Cert.KernelIdeal.Proto

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

namespace StageC

theorem lOwn_zero (m : (ℓ : Loc nD τ sig) → Buf (Elt F) ℓ) (c : Dev nD) :
    lOwn m c 0 = (lsrcM.view.loc (c : Thread nD τ) ↦[lsrcM.view.setOn (lOwnRect c 0).toLoadRect.set]{fullShare} lsrcF m c) := rfl
theorem oOwn_zero (m : (ℓ : Loc nD τ sig) → Buf (Elt F) ℓ) (c : Dev nD) :
    oOwn m c 0 = (osrcM.view.loc (c : Thread nD τ) ↦[osrcM.view.setOn (oOwnRect c 0).toLoadRect.set]{fullShare} osrcF m c) := rfl

end StageC

open StageC

set_option maxRecDepth 65536 in
set_option maxHeartbeats 1600000 in
theorem stageC_proof (m : (ℓ : Loc nD τ sig) → Buf (Elt F) ℓ) (K : Dev nD × Fin 37 → ℕ) (c : Dev nD) (d : (cc0_stg5_0 : Ref sig .tc).ty.Contents (Elt F))
    (v71 v216 c291 v2 v93 v141 v163 v185 : BitVec 32) (Kt : PUnit → sProp 𝕄)
    (next : ∀ v163' v185' v2' v375 v387 v399 : BitVec 32, St3 m K c d ⊢
        wp frame (wpE (defs₀ (F := F)) 𝒱₀ (c : Thread nD τ) none) Set.univ (tailD (F := F) c v163' v185' v2' (KV.wo m c) v375 v387 v399) Kt) :
    St2 m K c d ⊢ wp frame (wpE (defs₀ (F := F)) 𝒱₀ (c : Thread nD τ) none) Set.univ (tailC (F := F) c v71 v216 c291 v2 v93 (KV.wo m c) v141 v163 v185) Kt := by
  unfold tailC atBufs
  rw [k0_part10_eq_skeleton, k0_part11_eq_skeleton, k0_part12_eq_skeleton, k0_part13_eq_skeleton, k0_part14_eq_skeleton, k0_part15_eq_skeleton, k0_part16_eq_skeleton]
  unfold k0_part10_skel k0_part11_skel k0_part12_skel k0_part13_skel k0_part14_skel k0_part15_skel k0_part16_skel
  simp only [Prog.lift, Prog.bind_op, Prog.bind_ret, Prog.pure_eq_ret, wp_bind]
  unfold St2 keep
  iintro ⟨⟨#Hrec, #Hlev, Hin⟩, Hfl, HoO0, HlO0, HoO1, HlO1, Hfs, Hout⟩
  iapply (step_wait_recv m K c (1, 2, 0) 12 1 0 (by decide) _ (by decide) (mayWait_recv_b0 c 1 2 (by decide)) (credit_L _)) $$ [Hfl]
  · iframe Hrec Hlev Hfl
  iintro Hfl
  iapply (step_wait_recv m K c (0, 1, 0) 12 2 0 (by decide) _ (by decide) (mayWait_recv_b0 c 0 1 (by decide)) (credit_O _)) $$ [Hfl]
  · iframe Hrec Hlev Hfl
  iintro Hfl
  iapply (step_wait_recv m K c (1, 1, 0) 12 3 0 (by decide) _ (by decide) (mayWait_recv_b0 c 1 1 (by decide)) (credit_L _)) $$ [Hfl]
  · iframe Hrec Hlev Hfl
  iintro Hfl
  iapply (step_wait_recv m K c (0, 0, 0) 12 4 0 (by decide) _ (by decide) (mayWait_recv_b0 c 0 0 (by decide)) (credit_O _)) $$ [Hfl]
  · iframe Hrec Hlev Hfl
  iintro Hfl
  iapply (step_wait_recv m K c (1, 0, 0) 12 5 0 (by decide) _ (by decide) (mayWait_recv_b0 c 1 0 (by decide)) (credit_L _)) $$ [Hfl]
  · iframe Hrec Hlev Hfl
  iintro Hfl
  ihave HlO0 := (Entails.of_eq (lOwn_zero m c)) $$ HlO0
  iapply (wp_load 𝒱₀ (c : Thread nD τ) none Set.univ (m := lsrcM) (r := (lOwnRect c 0).toLoadRect) (Finset.Subset.refl _)) $$ HlO0
  iintro HlO0
  rw [l_ld_own0 m c]
  iapply (ld_slot m c 12 6 0 (1, 0, 0) (by decide) lrcvM (KV.lBlk1 m (KV.pl c 1) c 0) (l_ld_rcv_sub 0 0) (l_ld_rcv m c 0 0) rfl) $$ Hfl
  iintro Hfl
  iapply (ld_slot m c 12 6 0 (1, 1, 0) (by decide) lrcvM (KV.lBlk1 m (KV.pl c 2) c 0) (l_ld_rcv_sub 1 0) (l_ld_rcv m c 1 0) rfl) $$ Hfl
  iintro Hfl
  iapply (ld_slot m c 12 6 0 (1, 2, 0) (by decide) lrcvM (KV.lBlk1 m (KV.pl c 3) c 0) (l_ld_rcv_sub 2 0) (l_ld_rcv m c 2 0) rfl) $$ Hfl
  iintro Hfl
  ihave HoO0 := (Entails.of_eq (oOwn_zero m c)) $$ HoO0
  iapply (wp_load 𝒱₀ (c : Thread nD τ) none Set.univ (m := osrcM) (r := (oOwnRect c 0).toLoadRect) (Finset.Subset.refl _)) $$ HoO0
  iintro HoO0
  rw [o_ld_own0 m c]
  iapply (ld_slot m c 12 6 0 (0, 0, 0) (by decide) orcvM (KV.oBlk1 m (KV.pl c 1) c 0) (o_ld_rcv_sub 0 0) (o_ld_rcv m c 0 0) rfl) $$ Hfl
  iintro Hfl
  iapply (ld_slot m c 12 6 0 (0, 1, 0) (by decide) orcvM (KV.oBlk1 m (KV.pl c 2) c 0) (o_ld_rcv_sub 1 0) (o_ld_rcv m c 1 0) rfl) $$ Hfl
  iintro Hfl
  iapply (ld_slot m c 12 6 0 (0, 2, 0) (by decide) orcvM (KV.oBlk1 m (KV.pl c 3) c 0) (o_ld_rcv_sub 2 0) (o_ld_rcv m c 2 0) rfl) $$ Hfl
  iintro Hfl
  icases Hfs with ⟨%f4, Hfs⟩
  ihave Hf := (f_split c f4).mp $$ Hfs
  icases Hf with ⟨Hf0, Hf1⟩
  iapply (wp_load_rect 𝒱₀ (c : Thread nD τ) none Set.univ (m := fsrcM) (r := fRect 0) (Finset.Subset.refl _)) $$ Hf0
  iintro Hf0
  iapply (wp_store 𝒱₀ (c : Thread nD τ) none Set.univ (m := fsrcM) (r := fRect 0) (Mk := Finset.univ)
      (S := (fsrcM.access (fRect 0)).set) (f := f4) (Finset.Subset.refl _)) $$ Hf0
  iintro Hf0
  ihave Hf0 : ((fsrcM.access (fRect 0)).loc (c : Thread nD τ) ↦[(fsrcM.access (fRect 0)).set]{fullShare}
      (fsrcM.access (fRect 0)).write (Elt F) f4 (KV.fS m c 0) Finset.univ) $$ [Hf0]
  · iexact Hf0
  ihave Hf0 := (Entails.of_eq (f_stored m c 0 f4)) $$ Hf0
  ihave Hsrc := (f_shares m c 0).mp $$ Hf0
  icases Hsrc with ⟨Hs0, Hs1, Hs2⟩
  unfold outP
  iapply (wp_load 𝒱₀ (c : Thread nD τ) none Set.univ (m := outM) (r := (outOwnRect c 0).toLoadRect) (Finset.subset_univ _)) $$ Hout
  iintro Hout
  iapply (wp_store 𝒱₀ (c : Thread nD τ) none Set.univ (m := outM) (r := outOwnRect c 0) (Mk := Finset.univ)
      (S := Finset.univ) (f := outX m c d 0) (Finset.subset_univ _)) $$ Hout
  iintro Hout
  iapply (step_send_F m K c _ 0 0 (Fin.ext (k0_dev16_eq c)) 12 6 rfl _ _ rfl rfl) $$ [Hfl Hs0]
  · iframe Hrec Hfl Hs0
  iintro Hfl
  iapply (step_send_F m K c _ 1 0 (Fin.ext (k0_dev17_eq c)) 13 6 rfl _ _ rfl rfl) $$ [Hfl Hs1]
  · iframe Hrec Hfl Hs1
  iintro Hfl
  iapply (step_send_F m K c _ 2 0 (Fin.ext (k0_dev18_eq c)) 14 6 rfl _ _ rfl rfl) $$ [Hfl Hs2]
  · iframe Hrec Hfl Hs2
  iintro Hfl
  iapply (step_wait_recv m K c (0, 2, 1) 15 6 0 (by decide) _ (by decide) (mayWait_recv_b1 c 0 2 (by decide)) (credit_O _)) $$ [Hfl]
  · iframe Hrec Hlev Hfl
  iintro Hfl
  iapply (step_wait_recv m K c (1, 2, 1) 15 7 0 (by decide) _ (by decide) (mayWait_recv_b1 c 1 2 (by decide)) (credit_L _)) $$ [Hfl]
  · iframe Hrec Hlev Hfl
  iintro Hfl
  iapply (next _ _ _ _ _ _)
  unfold St3 keep outP fSlabAny
  iframe Hrec Hlev Hin Hfl HoO1 HlO1
  isplitl [HoO0]; · iapply (Entails.of_eq (oOwn_zero m c).symm); iexact HoO0
  isplitl [HlO0]; · iapply (Entails.of_eq (lOwn_zero m c).symm); iexact HlO0
  isplitl [Hf1]; · iexists f4; iexact Hf1
  rw [show outX m c d 1 = (outM.access (outOwnRect c 0)).write (Elt F) (outX m c d 0) (KV.own0 m c) Finset.univ by conv_lhs => rw [outX]]
  iexact Hout

end Cert.KernelIdeal.Proto

end
-- ==== Proof.StageD.lean ====
-- Stage D: the same for batch 1.
import proofs.«900757_g7700000000000758_dist_attn_cross_mha_kvseq_b2_sq128_skv128_d512_hq8_dh64_v7x_i4_f32_1_alg».proof.Proof.StepWait
import proofs.«900757_g7700000000000758_dist_attn_cross_mha_kvseq_b2_sq128_skv128_d512_hq8_dh64_v7x_i4_f32_1_alg».proof.Proof.StepSend
import proofs.«900757_g7700000000000758_dist_attn_cross_mha_kvseq_b2_sq128_skv128_d512_hq8_dh64_v7x_i4_f32_1_alg».proof.Proof.GeoSrc

noncomputable section

namespace Cert.KernelIdeal.Proto

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

namespace StageD

theorem lOwn_one (m : (ℓ : Loc nD τ sig) → Buf (Elt F) ℓ) (c : Dev nD) :
    (lOwn m c 1 : sProp 𝕄) = (lsrcM.view.loc (c : Thread nD τ) ↦[lsrcM.view.setOn (lOwnRect c 1).toLoadRect.set]{fullShare} lsrcF m c) := rfl
theorem oOwn_one (m : (ℓ : Loc nD τ sig) → Buf (Elt F) ℓ) (c : Dev nD) :
    (oOwn m c 1 : sProp 𝕄) = (osrcM.view.loc (c : Thread nD τ) ↦[osrcM.view.setOn (oOwnRect c 1).toLoadRect.set]{fullShare} osrcF m c) := rfl

end StageD

open StageD

set_option maxHeartbeats 1600000 in
theorem stageD_proof (m : (ℓ : Loc nD τ sig) → Buf (Elt F) ℓ) (K : Dev nD × Fin 37 → ℕ) (c : Dev nD) (d : (cc0_stg5_0 : Ref sig .tc).ty.Contents (Elt F))
    (v163 v185 v2 v375 v387 v399 : BitVec 32) (Kt : PUnit → sProp 𝕄)
    (next : ∀ v2' v387' v399' v577 v589 v601 : BitVec 32, St4 m K c d ⊢
        wp frame (wpE (defs₀ (F := F)) 𝒱₀ (c : Thread nD τ) none) Set.univ (tailE (F := F) v2' v387' v399' c v577 v589 v601) Kt) :
    St3 m K c d ⊢ wp frame (wpE (defs₀ (F := F)) 𝒱₀ (c : Thread nD τ) none) Set.univ (tailD (F := F) c v163 v185 v2 (KV.wo m c) v375 v387 v399) Kt := by
  unfold tailD atBufs
  rw [k0_part17_eq_skeleton, k0_part18_eq_skeleton, k0_part19_eq_skeleton, k0_part20_eq_skeleton, k0_part21_eq_skeleton, k0_part22_eq_skeleton]
  unfold k0_part17_skel k0_part18_skel k0_part19_skel k0_part20_skel k0_part21_skel k0_part22_skel
  simp only [Prog.lift, Prog.bind_op, Prog.bind_ret, Prog.pure_eq_ret, wp_bind]
  unfold St3 keep
  iintro ⟨⟨#Hrec, #Hlev, Hin⟩, Hfl, Ho0, Hl0, Ho1, Hl1, Hf1, Hout⟩
  iapply (step_wait_recv m K c (0, 1, 1) 15 8 0 (by decide) _ (by decide) (mayWait_recv_b1 c 0 1 (by decide)) (credit_O _)) $$ [Hfl]
  · iframe Hrec Hlev Hfl
  iintro Hfl
  iapply (step_wait_recv m K c (1, 1, 1) 15 9 0 (by decide) _ (by decide) (mayWait_recv_b1 c 1 1 (by decide)) (credit_L _)) $$ [Hfl]
  · iframe Hrec Hlev Hfl
  iintro Hfl
  iapply (step_wait_recv m K c (0, 0, 1) 15 10 0 (by decide) _ (by decide) (mayWait_recv_b1 c 0 0 (by decide)) (credit_O _)) $$ [Hfl]
  · iframe Hrec Hlev Hfl
  iintro Hfl
  iapply (step_wait_recv m K c (1, 0, 1) 15 11 0 (by decide) _ (by decide) (mayWait_recv_b1 c 1 0 (by decide)) (credit_L _)) $$ [Hfl]
  · iframe Hrec Hlev Hfl
  iintro Hfl
  ihave Hl1 := (Entails.of_eq (lOwn_one m c)) $$ Hl1
  iapply (wp_load 𝒱₀ (c : Thread nD τ) none Set.univ (m := lsrcM) (r := (lOwnRect c 1).toLoadRect) (Finset.Subset.refl _)) $$ Hl1
  iintro Hl1
  rw [l_ld_own1 m c]
  iapply (ld_slot m c 15 12 0 (1, 0, 1) (by decide) lrcvM (KV.lBlk1 m (KV.pl c 1) c 1) (l_ld_rcv_sub 0 1) (l_ld_rcv m c 0 1) rfl) $$ Hfl
  iintro Hfl
  iapply (ld_slot m c 15 12 0 (1, 1, 1) (by decide) lrcvM (KV.lBlk1 m (KV.pl c 2) c 1) (l_ld_rcv_sub 1 1) (l_ld_rcv m c 1 1) rfl) $$ Hfl
  iintro Hfl
  iapply (ld_slot m c 15 12 0 (1, 2, 1) (by decide) lrcvM (KV.lBlk1 m (KV.pl c 3) c 1) (l_ld_rcv_sub 2 1) (l_ld_rcv m c 2 1) rfl) $$ Hfl
  iintro Hfl
  ihave Ho1 := (Entails.of_eq (oOwn_one m c)) $$ Ho1
  iapply (wp_load 𝒱₀ (c : Thread nD τ) none Set.univ (m := osrcM) (r := (oOwnRect c 1).toLoadRect) (Finset.Subset.refl _)) $$ Ho1
  iintro Ho1
  rw [o_ld_own1 m c]
  iapply (ld_slot m c 15 12 0 (0, 0, 1) (by decide) orcvM (KV.oBlk1 m (KV.pl c 1) c 1) (o_ld_rcv_sub 0 1) (o_ld_rcv m c 0 1) rfl) $$ Hfl
  iintro Hfl
  iapply (ld_slot m c 15 12 0 (0, 1, 1) (by decide) orcvM (KV.oBlk1 m (KV.pl c 2) c 1) (o_ld_rcv_sub 1 1) (o_ld_rcv m c 1 1) rfl) $$ Hfl
  iintro Hfl
  iapply (ld_slot m c 15 12 0 (0, 2, 1) (by decide) orcvM (KV.oBlk1 m (KV.pl c 3) c 1) (o_ld_rcv_sub 2 1) (o_ld_rcv m c 2 1) rfl) $$ Hfl
  iintro Hfl
  unfold fSlabAny
  icases Hf1 with ⟨%f, Hf1⟩
  iapply (wp_load_rect 𝒱₀ (c : Thread nD τ) none Set.univ (m := fsrcM) (r := fRect 1) (Finset.Subset.refl _)) $$ Hf1
  iintro Hf1
  beta_reduce
  iapply (wp_store 𝒱₀ (c : Thread nD τ) none Set.univ (m := fsrcM) (r := fRect 1) (Mk := Finset.univ)
    (show (fsrcM.access (fRect 1)).setOn Finset.univ ⊆ (fsrcM.access (fRect 1)).set from Finset.Subset.refl _)) $$ Hf1
  iintro Hf1
  ihave Hf1 : ((fsrcM.access (fRect 1)).loc (c : Thread nD τ) ↦[(fsrcM.access (fRect 1)).set]{fullShare}
      (fsrcM.access (fRect 1)).write (Elt F) f (KV.fS m c 1) Finset.univ) $$ [Hf1]
  · iexact Hf1
  ihave Hf1 := (Entails.of_eq (f_stored m c 1 f)) $$ Hf1
  ihave Hsrc := (f_shares m c 1).mp $$ Hf1
  icases Hsrc with ⟨Hs0, Hs1, Hs2⟩
  unfold outP
  iapply (wp_load_rect 𝒱₀ (c : Thread nD τ) none Set.univ (m := outM) (r := Rect.unit (s := S2x128x512) (k0_off10 c) S1x32x512.size (k0_off10_inb c)) (Finset.subset_univ _)) $$ Hout
  iintro Hout
  beta_reduce
  iapply (wp_store 𝒱₀ (c : Thread nD τ) none Set.univ (m := outM) (r := Rect.unit (s := S2x128x512) (k0_off10 c) S1x32x512.size (k0_off10_inb c)) (Mk := Finset.univ) (Finset.subset_univ _)) $$ Hout
  iintro Hout
  iapply (step_send_F m K c _ 0 1 (Fin.ext (k0_dev19_eq c)) 15 12 rfl _ _ (by decide) (by decide)) $$ [Hfl Hs0]
  · iframe Hrec Hfl Hs0
  iintro Hfl
  iapply (step_send_F m K c _ 1 1 (Fin.ext (k0_dev20_eq c)) 16 12 rfl _ _ (by decide) (by decide)) $$ [Hfl Hs1]
  · iframe Hrec Hfl Hs1
  iintro Hfl
  iapply (step_send_F m K c _ 2 1 (Fin.ext (k0_dev21_eq c)) 17 12 rfl _ _ (by decide) (by decide)) $$ [Hfl Hs2]
  · iframe Hrec Hfl Hs2
  iintro Hfl
  iapply (next _ _ _ _ _ _)
  unfold St4 keep outP
  iframe Hrec Hlev Hin Hfl Ho0 Hl0
  isplitl [Ho1]; · iapply (Entails.of_eq (oOwn_one m c).symm) $$ Ho1
  isplitl [Hl1]; · iapply (Entails.of_eq (lOwn_one m c).symm) $$ Hl1
  rw [show outX m c d 2 = (outM.access (outOwnRect c 1)).write (Elt F) (outX m c d 1) (KV.own1 m c) Finset.univ by conv_lhs => rw [outX]]
  iexact Hout

end Cert.KernelIdeal.Proto

end
-- ==== Proof.StageB.lean ====
-- Stage B: batch 1 stored and its six copies issued; the first receive wait.
import proofs.«900757_g7700000000000758_dist_attn_cross_mha_kvseq_b2_sq128_skv128_d512_hq8_dh64_v7x_i4_f32_1_alg».proof.Proof.BodyDefs
import proofs.«900757_g7700000000000758_dist_attn_cross_mha_kvseq_b2_sq128_skv128_d512_hq8_dh64_v7x_i4_f32_1_alg».proof.Proof.Peel
import proofs.«900757_g7700000000000758_dist_attn_cross_mha_kvseq_b2_sq128_skv128_d512_hq8_dh64_v7x_i4_f32_1_alg».proof.Proof.GeoSrc
import proofs.«900757_g7700000000000758_dist_attn_cross_mha_kvseq_b2_sq128_skv128_d512_hq8_dh64_v7x_i4_f32_1_alg».proof.Proof.StepSend
import proofs.«900757_g7700000000000758_dist_attn_cross_mha_kvseq_b2_sq128_skv128_d512_hq8_dh64_v7x_i4_f32_1_alg».proof.Proof.StepWait

noncomputable section

namespace Cert.KernelIdeal.Proto

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ UU ℕ

theorem stageB_proof (m : (ℓ : Loc nD τ sig) → Buf (Elt F) ℓ) (K : Dev nD × Fin 37 → ℕ) (c : Dev nD) (d : (cc0_stg5_0 : Ref sig .tc).ty.Contents (Elt F))
    (v2 v49 v71 v93 : BitVec 32) (Kt : PUnit → sProp 𝕄)
    (next : ∀ v71' v216 c291 v2' v93' v141 v163 v185 : BitVec 32, St2 m K c d ⊢
        wp frame (wpE (defs₀ (F := F)) 𝒱₀ (c : Thread nD τ) none) Set.univ (tailC (F := F) c v71' v216 c291 v2' v93' (KV.wo m c) v141 v163 v185) Kt) :
    St1 m K c d ⊢ wp frame (wpE (defs₀ (F := F)) 𝒱₀ (c : Thread nD τ) none) Set.univ (tailB (F := F) c v2 (k0_pay6 (KV.vV1 m c)) (k0_pay7 (KV.qAll m c) (KV.vK1 m c)) (k0_pay8 (KV.qAll m c) (KV.vK1 m c)) v49 v71 v93) Kt := by
  unfold tailB atBufs
  rw [k0_part6_eq_skeleton, k0_part7_eq_skeleton, k0_part8_eq_skeleton, k0_part9_eq_skeleton]
  unfold k0_part6_skel k0_part7_skel k0_part8_skel k0_part9_skel
  simp only [Prog.lift, Prog.bind_op, Prog.bind_ret, Prog.pure_eq_ret, wp_bind]
  unfold St1 keep
  iintro ⟨⟨#Hrec, #Hlev, Hin⟩, Hfl, HoO0, HlO0, HoS, HlS, Hs4, Hout⟩
  unfold oSlabAny lSlabAny
  icases HoS with ⟨%fo, HoS⟩
  icases HlS with ⟨%fl, HlS⟩

  iapply (wp_load_rect 𝒱₀ (c : Thread nD τ) none Set.univ (m := osrcM) (r := oRect 1) (Finset.Subset.refl _)) $$ HoS
  iintro HoS
  iapply (wp_store 𝒱₀ (c : Thread nD τ) none Set.univ (m := osrcM) (r := oRect 1) (Mk := Finset.univ) (S := (osrcM.access (oRect 1)).set) (Finset.Subset.refl _)) $$ HoS
  iintro HoS
  have hoS := o_stored m c 1 fo
  rw [show KV.oS m c 1 = k0_pay9 (k0_pay6 (KV.vV1 m c)) (k0_pay7 (KV.qAll m c) (KV.vK1 m c)) from rfl] at hoS
  icases ((Entails.of_eq hoS).trans (o_blocks m c 1).1) $$ HoS with ⟨Ho0, Ho1, Ho2, HoO1⟩

  iapply (wp_load_rect 𝒱₀ (c : Thread nD τ) none Set.univ (m := lsrcM) (r := lRect 1) (Finset.Subset.refl _)) $$ HlS
  iintro HlS
  iapply (wp_store 𝒱₀ (c : Thread nD τ) none Set.univ (m := lsrcM) (r := lRect 1) (Mk := Finset.univ) (S := (lsrcM.access (lRect 1)).set) (Finset.Subset.refl _)) $$ HlS
  iintro HlS
  have hlS := l_stored m c 1 fl
  rw [show KV.lS m c 1 = k0_pay10 (k0_pay8 (KV.qAll m c) (KV.vK1 m c)) from rfl] at hlS
  icases ((Entails.of_eq hlS).trans (l_blocks m c 1).1) $$ HlS with ⟨Hl0, Hl1, Hl2, HlO1⟩

  iapply (step_send_O m K c _ 0 1 (by exact Fin.ext (k0_dev10_eq c)) 6 0 rfl _ _ (by rfl) (by rfl)) $$ [Hfl Ho0]
  · iframe Hrec Hfl Ho0
  iintro Hfl
  iapply (step_send_L m K c _ 0 1 (by exact Fin.ext (k0_dev11_eq c)) 7 0 rfl _ _ (by rfl) (by rfl)) $$ [Hfl Hl0]
  · iframe Hrec Hfl Hl0
  iintro Hfl
  iapply (step_send_O m K c _ 1 1 (by exact Fin.ext (k0_dev12_eq c)) 8 0 rfl _ _ (by rfl) (by rfl)) $$ [Hfl Ho1]
  · iframe Hrec Hfl Ho1
  iintro Hfl
  iapply (step_send_L m K c _ 1 1 (by exact Fin.ext (k0_dev13_eq c)) 9 0 rfl _ _ (by rfl) (by rfl)) $$ [Hfl Hl1]
  · iframe Hrec Hfl Hl1
  iintro Hfl
  iapply (step_send_O m K c _ 2 1 (by exact Fin.ext (k0_dev14_eq c)) 10 0 rfl _ _ (by rfl) (by rfl)) $$ [Hfl Ho2]
  · iframe Hrec Hfl Ho2
  iintro Hfl
  iapply (step_send_L m K c _ 2 1 (by exact Fin.ext (k0_dev15_eq c)) 11 0 rfl _ _ (by rfl) (by rfl)) $$ [Hfl Hl2]
  · iframe Hrec Hfl Hl2
  iintro Hfl

  unfold inP
  icases Hin with ⟨Hi0, Hi1, Hi2, Hi3, Hi4⟩
  iapply (wp_load 𝒱₀ (c : Thread nD τ) none Set.univ (m := woM) (Finset.subset_univ _)) $$ Hi2
  iintro Hi2

  iapply (step_wait_recv m K c (0, 2, 0) 12 0 0 rfl _ (by decide) (mayWait_recv_b0 c 0 2 (by decide)) (credit_O _)) $$ [Hfl]
  · iframe Hrec Hlev Hfl
  iintro Hfl
  iapply (next _ _ _ _ _ _ _ _)
  unfold St2 keep inP
  iframe Hrec Hlev Hi0 Hi1 Hi2 Hi3 Hi4 Hfl HoO0 HlO0 HoO1 HlO1 Hs4 Hout

end Cert.KernelIdeal.Proto

end
-- ==== Proof.StepEntry.lean ====
-- The entry handshake: three signals out, three units in, and with them the peers' receive slots.
import proofs.«900757_g7700000000000758_dist_attn_cross_mha_kvseq_b2_sq128_skv128_d512_hq8_dh64_v7x_i4_f32_1_alg».proof.Proof.BodyDefs
import proofs.«900757_g7700000000000758_dist_attn_cross_mha_kvseq_b2_sq128_skv128_d512_hq8_dh64_v7x_i4_f32_1_alg».proof.Proof.Peel
import proofs.«900757_g7700000000000758_dist_attn_cross_mha_kvseq_b2_sq128_skv128_d512_hq8_dh64_v7x_i4_f32_1_alg».proof.Proof.GeoRcv

noncomputable section

namespace Cert.KernelIdeal.Proto

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ UU ℕ

private theorem dev1_eq (c : Dev nD) : (⟨k0_dev1 c, k0_dev1_lt c⟩ : Dev nD) = pl c 1 := Fin.ext (k0_dev1_eq c)
private theorem dev2_eq (c : Dev nD) : (⟨k0_dev2 c, k0_dev2_lt c⟩ : Dev nD) = pl c 2 := Fin.ext (k0_dev2_eq c)
private theorem dev3_eq (c : Dev nD) : (⟨k0_dev3 c, k0_dev3_lt c⟩ : Dev nD) = pl c 3 := Fin.ext (k0_dev3_eq c)

private theorem sep_fst (P Q : sProp 𝕄) : iprop(P ∗ Q) ⊢ P := by iintro ⟨H, -⟩; iexact H

private theorem bigSep_three (Φ : Fin 3 → sProp 𝕄) : bigSep Finset.univ Φ = iprop(Φ 0 ∗ Φ 1 ∗ Φ 2) :=
  bigSep_univ_eq_bigSepL [0, 1, 2] (by decide) (by decide) Φ

private theorem regroup (A : Fin 3 → Fin 3 → Fin 2 → sProp 𝕄) :
    (bigSep Finset.univ fun k : Fin 3 => bigSep Finset.univ fun sb : Fin 3 × Fin 2 => A k sb.1 sb.2)
      = bigSep Finset.univ fun s : Fin 3 => bigSep Finset.univ fun kb : Fin 3 × Fin 2 => A kb.1 s kb.2 := by
  simp only [bigSep_univ_prod]
  exact bigSep_univ_comm (fun (k s : Fin 3) => bigSep Finset.univ fun b : Fin 2 => A k s b)

private theorem barPay_back (c : Dev nD) (j : Fin 3) :
    barPay (F := F) (pl c (j.val + 1)) (slotOf j)
      = bigSep Finset.univ (fun kb : Fin 3 × Fin 2 => iprop(rcvAny (F := F) c kb.1 j kb.2 ∗ reached ER (recvCell c kb.1 j kb.2) 0)) := by
  unfold barPay
  have hs : (⟨2 - (slotOf j).val, by omega⟩ : Fin 3) = j := Fin.ext (by have := j.isLt; show 2 - (2 - j.val) = j.val; omega)
  rw [hs, pl_back]

section Give
variable (m : (ℓ : Loc nD τ sig) → Buf (Elt F) ℓ) (K : Dev nD × Fin 37 → ℕ)

private theorem give_all (c : Dev nD) :
    iprop(records m K ∗ (∃ f, ((c : Thread nD τ).loc cc0_scratch2) ↦{fullShare} f) ∗ (∃ f, ((c : Thread nD τ).loc cc0_scratch3) ↦{fullShare} f)
        ∗ (∃ f, ((c : Thread nD τ).loc cc0_scratch5) ↦{fullShare} f))
      ⊢ iprop(barPay (F := F) (pl c 1) 2 ∗ barPay (F := F) (pl c 2) 1 ∗ barPay (F := F) (pl c 3) 0) := by
  have hgo : iprop(records m K ∗ bigSep Finset.univ fun s : Fin 3 => bigSep Finset.univ fun kb : Fin 3 × Fin 2 => rcvAny (F := F) c kb.1 s kb.2)
      ⊢ bigSep Finset.univ fun s : Fin 3 => barPay (F := F) (pl c (s.val + 1)) (slotOf s) :=
    bigSep_with_persistent fun s _ => by
      rw [barPay_back]
      exact bigSep_with_persistent fun kb _ => by
        iintro ⟨#Hrec, H⟩
        isplitl [H]; · iexact H
        iapply (reached_recv m K c kb.1 s kb.2); iexact Hrec
  iintro ⟨#Hrec, H2, H3, H5⟩
  ihave Ho := (o_give (F := F) c) $$ H2
  ihave Hl := (l_give (F := F) c) $$ H3
  ihave Hf := (f_give (F := F) c) $$ H5
  ihave Hall := (Entails.of_eq (bigSep_three (fun k : Fin 3 => bigSep Finset.univ fun sb : Fin 3 × Fin 2 => rcvAny (F := F) c k sb.1 sb.2)).symm) $$ [Ho Hl Hf]
  · iframe Ho Hl Hf
  ihave Hall' := (Entails.of_eq (regroup (fun k s b => rcvAny (F := F) c k s b))) $$ Hall
  ihave Hp := hgo $$ [Hall']
  · iframe Hrec Hall'
  ihave Hp' := (Entails.of_eq (bigSep_three (fun s : Fin 3 => barPay (F := F) (pl c (s.val + 1)) (slotOf s)))) $$ Hp
  iexact Hp'

end Give

private theorem dst_all (c : Dev nD) :
    iprop(barPay (F := F) c 0 ∗ barPay (F := F) c 1 ∗ barPay (F := F) c 2)
      ⊢ bigSep (Finset.univ : Finset Xf) fun t => rcvAny (F := F) (tgt c t) t.1 (slotOf t.2.1) t.2.2 := by
  rw [← bigSep_three (fun j : Fin 3 => barPay (F := F) c j)]
  have h2 : (bigSep Finset.univ fun j : Fin 3 => bigSep Finset.univ fun kb : Fin 3 × Fin 2 => rcvAny (F := F) (pl c (j.val + 1)) kb.1 (slotOf j) kb.2)
      = bigSep (Finset.univ : Finset Xf) fun t => rcvAny (F := F) (tgt c t) t.1 (slotOf t.2.1) t.2.2 := by
    rw [← regroup (fun k r b => rcvAny (F := F) (pl c (r.val + 1)) k (slotOf r) b)]
    exact (bigSep_univ_prod (fun t : Xf => rcvAny (F := F) (tgt c t) t.1 (slotOf t.2.1) t.2.2)).symm
  rw [← h2]
  refine bigSep_mono fun j _ => ?_
  unfold barPay
  exact bigSep_mono fun kb _ => sep_fst _ _

section Entry
variable (m : (ℓ : Loc nD τ sig) → Buf (Elt F) ℓ)

private theorem flight_zero (c : Dev nD) :
    iprop((bigSep (Finset.univ : Finset Xf) fun t => sendTok (F := F) c t)
        ∗ (bigSep (Finset.univ : Finset Xf) fun t => rcvAny (F := F) (tgt c t) t.1 (slotOf t.2.1) t.2.2)
        ∗ (bigSep (Finset.univ : Finset Xf) fun t => atPos ER (sndCell c t) 0 ∅ 0)
        ∗ (bigSep (Finset.univ : Finset Xf) fun t => iprop(cred (tallyAt (rcvCellX c t) () (NK t.1)) ∗ atPos ER (rcvCellX c t) 0 ∅ 0))
        ∗ (∃ W : Waits sig Unit, owes (c : Thread nD τ) (owedSends c 0) W))
      ⊢ flight m c 0 0 0 := by
  unfold flight
  rw [bigSep_ge_zero (ord := ordS), bigSep_lt_ge_zero (o1 := ordS), bigSep_ge_zero (ord := ordW), bigSep_lt_zero (ord := ordW), bigSep_ge_zero (ord := ordR), bigSep_lt_zero (ord := ordR),
    bigSep_sep' Finset.univ (fun t : Xf => sendTok (F := F) c t) (fun t : Xf => rcvAny (F := F) (tgt c t) t.1 (slotOf t.2.1) t.2.2)]
  iintro ⟨H1, H2, H3, H4, H5⟩
  iframe

private theorem signal_peer (K : Dev nD × Fin 37 → ℕ) (c : Dev nD) (j : Fin 3) (O : CellTallies nD τ sig Unit)
    (hO : owedSends c 0 + owedSigs c (j.val + 1) = O) {W : Waits sig Unit} {α : Type} {Q : α → sProp 𝕄}
    {k : PUnit → Prog (TpuEff nD τ sig (Elt F) Λ₀ .tc) α} :
    iprop(records m K ∗ owes (c : Thread nD τ) (owedSends c 0 + owedSigs c j.val) W ∗ sigTok (F := F) c j
        ∗ barPay (F := F) (pl c (j.val + 1)) (slotOf j))
      ⊢ iprop((owes (c : Thread nD τ) O W -∗ wp frame (wpE (defs₀ (F := F)) 𝒱₀ (c : Thread nD τ) none) Set.univ (k ⟨⟩) Q)
          -∗ wp frame (wpE (defs₀ (F := F)) 𝒱₀ (c : Thread nD τ) none) Set.univ
              (.op (.semSignal ((pl c (j.val + 1) : Dev nD) : Thread nD τ) barS (1#32).toNat) k) Q) := by
  subst hO
  unfold sigTok
  iintro ⟨#Hrec, HO, Ht, Hp⟩
  iapply (Rounds.wp_signal 𝒱₀ ER (Rd m) (c : Thread nD τ) none (κ := K (pl c (j.val + 1), 0)) (d := slotOf j)
      (O₀ := owedSends c 0 + owedSigs c j.val)
      (by rw [duties_bar]; exact Finset.mem_univ _) ((amount_bar m (pl c (j.val + 1)) (slotOf j)).trans (by decide)) () _
      (by rw [owedSigs_peel c j.val j.isLt, add_assoc]; rfl))
  isplitr; · iapply (inv_bar m K (pl c (j.val + 1))); iexact Hrec
  isplitl [HO]; · iexact HO
  isplitl [Ht]; · iexact Ht
  isplitl [Hp]; · rw [payload_bar]; iexact Hp
  iapply (reached_bar m K (pl c (j.val + 1))); iexact Hrec

theorem stage_entry (m : (ℓ : Loc nD τ sig) → Buf (Elt F) ℓ) (K : Dev nD × Fin 37 → ℕ) (c : Dev nD) (d : (cc0_stg5_0 : Ref sig .tc).ty.Contents (Elt F))
    (Kt : (Σ' (d0 : Dev nD) (v2 : BitVec 32) (v21 : FVec F S256x512 .f32), FVec F S8x128x64 .f32) → sProp 𝕄) :
    iprop(St0 m K c d ∗ (StH m K c d -∗ Kt ⟨c, Scalar.remsi (Scalar.divsi (Dev.word c) 1#32) 4#32, KV.qAll m c, k0_pay2 (KV.vK0 m c)⟩))
      ⊢ wp frame (wpE (defs₀ (F := F)) 𝒱₀ (c : Thread nD τ) none) Set.univ (atBufs (k0_part1 (F := F))) Kt := by
  unfold KV.qAll KV.vWq KV.vX KV.vK0
  simp only [k0_part1_eq_skeleton]; unfold k0_part1_skel
  simp only [semSignalWord, semWaitWord, Prog.lift, Prog.bind_op, Prog.bind_ret, Prog.pure_eq_ret, wp_deviceId]
  unfold St0 keep O₀
  iintro ⟨⟨⟨#Hrec, #Hlev, Hin⟩, HatB, HcB, ⟨Ht0, Ht1, Ht2⟩, HsT, HatS, HrC, Hscr, Hout, ⟨%W, HO⟩⟩, Hk⟩
  unfold scratchAny
  icases Hscr with ⟨Hs0, Hs1, Hs2, Hs3, Hs4, Hs5⟩
  ihave Hpay := (give_all m K c) $$ [Hs2 Hs3 Hs5]
  · iframe Hrec Hs2 Hs3 Hs5
  icases Hpay with ⟨Hp1, Hp2, Hp3⟩
  simp only [dev1_eq c, dev2_eq c, dev3_eq c]
  iapply (signal_peer m K c 0 _ rfl) $$ [HO Ht0 Hp1]
  · isplitr; · iexact Hrec
    isplitl [HO]; · iexact HO
    isplitl [Ht0]; · iexact Ht0
    iexact Hp1
  iintro HO
  iapply (signal_peer m K c 1 _ rfl) $$ [HO Ht1 Hp2]
  · isplitr; · iexact Hrec
    isplitl [HO]; · iexact HO
    isplitl [Ht1]; · iexact Ht1
    iexact Hp2
  iintro HO
  iapply (signal_peer m K c 2 (owedSends c 0) (by show _ + owedSigs c 3 = _; rw [owedSigs_three, add_zero])) $$ [HO Ht2 Hp3]
  · isplitr; · iexact Hrec
    isplitl [HO]; · iexact HO
    isplitl [Ht2]; · iexact Ht2
    iexact Hp3
  iintro HO
  iapply (Rounds.wp_wait_rest_token 𝒱₀ ER (Rd m) (c : Thread nD τ) none (κ := K (c, 0))
      (wpE_semWait_eq 𝒱₀ (c : Thread nD τ) none Set.univ) (Set.mem_univ _) () (O := owedSends c 0) (W := W) (R := 0) (m := 0) (T := ∅)
      (by rw [expect_bar]; decide)) $$ [HcB HO HatB]
  · isplitr; · iapply (inv_bar m K c); iexact Hrec
    isplitl [HcB]; · iexact HcB
    isplitl [HO]; · iexact HO
    isplitr; · iapply (mayWait_bar c); iexact Hlev
    iexact HatB
  iintro ⟨HO, -, -, Hpay⟩
  ihave Hp := (Entails.of_eq (rest_bar m c)) $$ Hpay
  ihave Hdst := (dst_all c) $$ Hp

  unfold inP
  icases Hin with ⟨Hx, Hwq, Hwo, Hk0, Hv0⟩
  iapply (wp_load 𝒱₀ (c : Thread nD τ) none Set.univ (m := wqM) (Finset.subset_univ _)) $$ Hwq
  iintro Hwq
  iapply (wp_load 𝒱₀ (c : Thread nD τ) none Set.univ (m := xM) (Finset.subset_univ _)) $$ Hx
  iintro Hx
  iapply (wp_load 𝒱₀ (c : Thread nD τ) none Set.univ (m := kM) (Finset.subset_univ _)) $$ Hk0
  iintro Hk0
  iapply le_wp_ret
  iapply Hk
  unfold StH keep inP
  iframe Hrec Hlev Hx Hwq Hwo Hk0 Hv0 Hs0 Hs1 Hs4 Hout
  iapply (flight_zero m c)
  iframe HsT Hdst HatS HrC
  iexists (insert (SemLoc.reg barS, ()) W); iexact HO

end Entry

end Cert.KernelIdeal.Proto

end
-- ==== Proof.StageA.lean ====
-- Stage A: the handshake, queries, weights and partial sums; batch 0 stored in the send slabs and its six copies issued.
import proofs.«900757_g7700000000000758_dist_attn_cross_mha_kvseq_b2_sq128_skv128_d512_hq8_dh64_v7x_i4_f32_1_alg».proof.Proof.StepSend
import proofs.«900757_g7700000000000758_dist_attn_cross_mha_kvseq_b2_sq128_skv128_d512_hq8_dh64_v7x_i4_f32_1_alg».proof.Proof.GeoSrc
import proofs.«900757_g7700000000000758_dist_attn_cross_mha_kvseq_b2_sq128_skv128_d512_hq8_dh64_v7x_i4_f32_1_alg».proof.Proof.StepEntry

noncomputable section

namespace Cert.KernelIdeal.Proto

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ UU ℕ

section StageA
variable (m : (ℓ : Loc nD τ sig) → Buf (Elt F) ℓ)

private theorem vV0_eq (c : Dev nD) :
    (vM : Memref sig .tc .vmem S2x128x8x64 .f32).view.readAt (Elt F) (Rect.unit (s := S2x128x8x64) ![0, 0, 0, 0] S1x128x8x64.size inb_S2x128x8x64_S1x128x8x64_0_0_0_0).toLoadRect (KV.stg4 m c)
      = KV.vV0 m c := rfl
private theorem oS0_eq (c : Dev nD) : k0_pay4 (KV.qAll m c) (k0_pay2 (KV.vK0 m c)) (KV.vV0 m c) = KV.oS m c 0 := rfl
private theorem lS0_eq (c : Dev nD) : k0_pay5 (KV.qAll m c) (k0_pay2 (KV.vK0 m c)) = KV.lS m c 0 := rfl

set_option maxHeartbeats 1600000 in

theorem stageA_proof (m : (ℓ : Loc nD τ sig) → Buf (Elt F) ℓ) (K : Dev nD × Fin 37 → ℕ) (c : Dev nD) (d : (cc0_stg5_0 : Ref sig .tc).ty.Contents (Elt F))
    (Kt : PUnit → sProp 𝕄)
    (next : ∀ v2 v49 v71 v93 : BitVec 32, St1 m K c d ⊢
        wp frame (wpE (defs₀ (F := F)) 𝒱₀ (c : Thread nD τ) none) Set.univ (tailB (F := F) c v2 (k0_pay6 (KV.vV1 m c)) (k0_pay7 (KV.qAll m c) (KV.vK1 m c)) (k0_pay8 (KV.qAll m c) (KV.vK1 m c)) v49 v71 v93) Kt) :
    St0 m K c d ⊢ wp frame (wpE (defs₀ (F := F)) 𝒱₀ (c : Thread nD τ) none) Set.univ (tailA (F := F)) Kt := by
  unfold tailA atBufs
  rw [wp_bind]
  iintro H0
  iapply (stage_entry m K c d)
  isplitl [H0]; · iexact H0
  iintro HH
  simp only []
  rw [k0_part2_eq_skeleton, k0_part3_eq_skeleton, k0_part4_eq_skeleton, k0_part5_eq_skeleton]
  unfold k0_part2_skel k0_part3_skel k0_part4_skel k0_part5_skel
  simp only [Prog.lift, Prog.bind_op, Prog.bind_ret, Prog.pure_eq_ret, wp_bind]
  unfold StH keep
  icases HH with ⟨⟨#Hrec, #Hlev, Hin⟩, Hfl, ⟨%f0, Hs0⟩, ⟨%f1, Hs1⟩, Hs4, Hout⟩
  unfold inP
  icases Hin with ⟨Hx, Hwq, Hwo, Hk0, Hv0⟩

  iapply (wp_load 𝒱₀ (c : Thread nD τ) none Set.univ (m := vM) (Finset.subset_univ _)) $$ Hv0
  iintro Hv0
  rw [vV0_eq m c, oS0_eq m c, lS0_eq m c]

  icases (o_split c f0).mp $$ Hs0 with ⟨Ho0, Ho1⟩
  iapply (wp_load_rect 𝒱₀ (c : Thread nD τ) none Set.univ (m := osrcM) (r := oRect 0) (Finset.Subset.refl _)) $$ Ho0
  iintro Ho0
  iapply (wp_store 𝒱₀ (c : Thread nD τ) none Set.univ (m := osrcM) (r := oRect 0) (Mk := Finset.univ) (S := (osrcM.access (oRect 0)).set) (Finset.Subset.refl _)) $$ Ho0
  iintro Ho0
  icases ((Entails.of_eq (o_stored m c 0 f0)).trans (o_blocks m c 0).mp) $$ Ho0 with ⟨HsO0, HsO1, HsO2, HoOwn⟩

  icases (l_split c f1).mp $$ Hs1 with ⟨Hl0, Hl1⟩
  iapply (wp_load_rect 𝒱₀ (c : Thread nD τ) none Set.univ (m := lsrcM) (r := lRect 0) (Finset.Subset.refl _)) $$ Hl0
  iintro Hl0
  iapply (wp_store 𝒱₀ (c : Thread nD τ) none Set.univ (m := lsrcM) (r := lRect 0) (Mk := Finset.univ) (S := (lsrcM.access (lRect 0)).set) (Finset.Subset.refl _)) $$ Hl0
  iintro Hl0
  icases ((Entails.of_eq (l_stored m c 0 f1)).trans (l_blocks m c 0).mp) $$ Hl0 with ⟨HsL0, HsL1, HsL2, HlOwn⟩

  iapply (step_send_O m K c _ 0 0 (Fin.ext (k0_dev4_eq c)) 0 0 rfl _ _ rfl rfl) $$ [Hfl HsO0]
  · iframe Hrec Hfl HsO0
  iintro Hfl
  iapply (step_send_L m K c _ 0 0 (Fin.ext (k0_dev5_eq c)) 1 0 rfl _ _ rfl rfl) $$ [Hfl HsL0]
  · iframe Hrec Hfl HsL0
  iintro Hfl
  iapply (step_send_O m K c _ 1 0 (Fin.ext (k0_dev6_eq c)) 2 0 rfl _ _ rfl rfl) $$ [Hfl HsO1]
  · iframe Hrec Hfl HsO1
  iintro Hfl
  iapply (step_send_L m K c _ 1 0 (Fin.ext (k0_dev7_eq c)) 3 0 rfl _ _ rfl rfl) $$ [Hfl HsL1]
  · iframe Hrec Hfl HsL1
  iintro Hfl
  iapply (step_send_O m K c _ 2 0 (Fin.ext (k0_dev8_eq c)) 4 0 rfl _ _ rfl rfl) $$ [Hfl HsO2]
  · iframe Hrec Hfl HsO2
  iintro Hfl
  iapply (step_send_L m K c _ 2 0 (Fin.ext (k0_dev9_eq c)) 5 0 rfl _ _ rfl rfl) $$ [Hfl HsL2]
  · iframe Hrec Hfl HsL2
  iintro Hfl

  iapply (wp_load 𝒱₀ (c : Thread nD τ) none Set.univ (m := kM) (Finset.subset_univ _)) $$ Hk0
  iintro Hk0
  iapply (wp_load 𝒱₀ (c : Thread nD τ) none Set.univ (m := vM) (Finset.subset_univ _)) $$ Hv0
  iintro Hv0
  iapply (next _ _ _ _)
  unfold St1 keep inP oSlabAny lSlabAny
  iframe Hrec Hlev Hx Hwq Hwo Hk0 Hv0 Hfl HoOwn HlOwn Hs4 Hout
  isplitl [Ho1]; · iexists f0; iexact Ho1
  iexists f1; iexact Hl1

end StageA

end Cert.KernelIdeal.Proto

end
-- ==== Proof.StageE.lean ====
-- Stage E: the finished rows received from the three peers, both batches, placed in the result.
import proofs.«900757_g7700000000000758_dist_attn_cross_mha_kvseq_b2_sq128_skv128_d512_hq8_dh64_v7x_i4_f32_1_alg».proof.Proof.BodyDefs
import proofs.«900757_g7700000000000758_dist_attn_cross_mha_kvseq_b2_sq128_skv128_d512_hq8_dh64_v7x_i4_f32_1_alg».proof.Proof.Peel
import proofs.«900757_g7700000000000758_dist_attn_cross_mha_kvseq_b2_sq128_skv128_d512_hq8_dh64_v7x_i4_f32_1_alg».proof.Proof.StepWait
import proofs.«900757_g7700000000000758_dist_attn_cross_mha_kvseq_b2_sq128_skv128_d512_hq8_dh64_v7x_i4_f32_1_alg».proof.Proof.GeoRcv

noncomputable section

namespace Cert.KernelIdeal.Proto

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ UU ℕ

namespace StageE

section Pieces
variable (m : (ℓ : Loc nD τ sig) → Buf (Elt F) ℓ)

theorem rcvPts_two (c : Dev nD) (s : Fin 3) (b : Fin 2) :
    rcvPts m c 2 s b = ((frcvSl s b).view.loc (c : Thread nD τ) ↦[(frcvSl s b).view.set]{fullShare} (frcvF m c)) := rfl

theorem step_block (c : Dev nD) (s : Fin 3) (b : Fin 2) (ns nr nw : ℕ) (ht : ordR (2, s, b) < nr) (off : Fin 3 → ℕ)
    (hoff : ∀ a, off a + S1x32x512.size a ≤ S2x128x512.size a)
    (X X' : (cc0_stg5_0 : Ref sig .tc).ty.Contents (Elt F))
    (w : Vec F S1x1x32x512 .bf16 → FVec F S1x32x512 .f32)
    (hX' : X' = (outM.access (Rect.unit (s := S2x128x512) off S1x32x512.size hoff)).write (Elt F) X (w (KV.fBlk1 m (KV.pl c (s.val + 1)) b)) Finset.univ)
    {hin : ∀ a, (![s.val, b.val, 0, 0] : Fin 4 → ℕ) a + S1x1x32x512.size a ≤ S3x2x32x512.size a}
    {hl1 : (frcvM : Memref sig .tc .vmem S3x2x32x512 .bf16).view.LoadsAt (Rect.unit (s := S3x2x32x512) ![s.val, b.val, 0, 0] S1x1x32x512.size hin).toLoadRect}
    {hl2 : (outM : Memref sig .tc .vmem S2x128x512 .f32).view.LoadsAt (Rect.unit (s := S2x128x512) off S1x32x512.size hoff).toLoadRect}
    {hx : ((outM : Memref sig .tc .vmem S2x128x512 .f32).access (Rect.unit (s := S2x128x512) off S1x32x512.size hoff)).Stores Finset.univ}
    {hm : (Finset.univ : Finset (Rect.unit (s := S2x128x512) off S1x32x512.size hoff).shape.Idx) = Finset.univ ∨ ∀ a, (Rect.unit (s := S2x128x512) off S1x32x512.size hoff).stride a = 1}
    {α : Type} {Q : α → sProp 𝕄} {k : PUnit → Prog (TpuEff nD τ sig (Elt F) Λ₀ .tc) α} :
    iprop(flight m c ns nr nw ∗ (((c : Thread nD τ).loc cc0_stg5_0) ↦{fullShare} X))
      ⊢ iprop((iprop(flight m c ns nr nw ∗ (((c : Thread nD τ).loc cc0_stg5_0) ↦{fullShare} X'))
            -∗ wp frame (wpE (defs₀ (F := F)) 𝒱₀ (c : Thread nD τ) none) Set.univ (k ⟨⟩) Q)
          -∗ wp frame (wpE (defs₀ (F := F)) 𝒱₀ (c : Thread nD τ) none) Set.univ
              (.op (.load frcvM (Rect.unit (s := S3x2x32x512) ![s.val, b.val, 0, 0] S1x1x32x512.size hin).toLoadRect hl1) fun v =>
                .op (.load outM (Rect.unit (s := S2x128x512) off S1x32x512.size hoff).toLoadRect hl2) fun _ =>
                .op (.store outM (Rect.unit (s := S2x128x512) off S1x32x512.size hoff) (w v) Finset.univ hx hm) k) Q) := by
  subst hX'
  iintro ⟨Hfl, Ho⟩ Hk
  ihave Hacc := (flight_rcv_acc m c ns nr nw (2, s, b) ht) $$ Hfl
  icases Hacc with ⟨Hs, Hback⟩
  simp only [rcvPts_two]
  iapply (wp_load 𝒱₀ (c : Thread nD τ) none Set.univ (m := frcvM) (f_ld_rcv_sub s b)) $$ Hs
  iintro Hs
  rw [f_ld_rcv m c s b]
  iapply (wp_load 𝒱₀ (c : Thread nD τ) none Set.univ (m := outM) (Finset.subset_univ _)) $$ Ho
  iintro Ho
  iapply (wp_store 𝒱₀ (c : Thread nD τ) none Set.univ (m := outM) (r := Rect.unit (s := S2x128x512) off S1x32x512.size hoff) (Mk := Finset.univ) (Finset.subset_univ _)) $$ Ho
  iintro Ho
  iapply Hk
  ihave Hfl := Hback $$ Hs
  iframe

end Pieces

end StageE

open StageE

section StageE
variable (m : (ℓ : Loc nD τ sig) → Buf (Elt F) ℓ) (K : Dev nD × Fin 37 → ℕ) (c : Dev nD) (d : (cc0_stg5_0 : Ref sig .tc).ty.Contents (Elt F))

theorem stageE_proof (v2 v387 v399 v577 v589 v601 : BitVec 32) (Kt : PUnit → sProp 𝕄)
    (next : St5 m K c d ⊢ wp frame (wpE (defs₀ (F := F)) 𝒱₀ (c : Thread nD τ) none) Set.univ (tailF (F := F) c) Kt) :
    St4 m K c d ⊢ wp frame (wpE (defs₀ (F := F)) 𝒱₀ (c : Thread nD τ) none) Set.univ (tailE (F := F) v2 v387 v399 c v577 v589 v601) Kt := by
  unfold tailE atBufs
  rw [k0_part23_eq_skeleton, k0_part24_eq_skeleton, k0_part25_eq_skeleton, k0_part26_eq_skeleton, k0_part27_eq_skeleton]
  unfold k0_part23_skel k0_part24_skel k0_part25_skel k0_part26_skel k0_part27_skel
  simp only [Prog.lift, Prog.bind_op, Prog.bind_ret, Prog.pure_eq_ret, wp_bind]
  unfold St4 keep outP
  iintro ⟨⟨#Hrec, #Hlev, Hin⟩, Hfl, Ho0, Hl0, Ho1, Hl1, Hout⟩

  iapply (step_wait_recv m K c (2, 2, 0) 18 12 0 (by decide) _ (by decide) (mayWait_done c _) (credit_F _)) $$ [Hfl]
  · iframe # ∗
  iintro Hfl
  iapply (step_wait_recv m K c (2, 1, 0) 18 13 0 (by decide) _ (by decide) (mayWait_done c _) (credit_F _)) $$ [Hfl]
  · iframe # ∗
  iintro Hfl
  iapply (step_wait_recv m K c (2, 0, 0) 18 14 0 (by decide) _ (by decide) (mayWait_done c _) (credit_F _)) $$ [Hfl]
  · iframe # ∗
  iintro Hfl

  iapply (step_block m c 0 0 18 15 0 (by decide) (k0_off11 c 0#32) (k0_off11_inb c 0) (outX m c d 2) (outX m c d 3) k0_pay37 (by (conv_lhs => rw [outX]); rfl)) $$ [Hfl Hout]
  · iframe
  iintro ⟨Hfl, Hout⟩
  iapply (step_block m c 1 0 18 15 0 (by decide) (k0_off11 c 1#32) (k0_off11_inb c 1) (outX m c d 3) (outX m c d 4) k0_pay38 (by (conv_lhs => rw [outX]); rfl)) $$ [Hfl Hout]
  · iframe
  iintro ⟨Hfl, Hout⟩
  iapply (step_block m c 2 0 18 15 0 (by decide) (k0_off11 c 2#32) (k0_off11_inb c 2) (outX m c d 4) (outX m c d 5) k0_pay39 (by (conv_lhs => rw [outX]); rfl)) $$ [Hfl Hout]
  · iframe
  iintro ⟨Hfl, Hout⟩

  iapply (step_wait_recv m K c (2, 2, 1) 18 15 0 (by decide) _ (by decide) (mayWait_done c _) (credit_F _)) $$ [Hfl]
  · iframe # ∗
  iintro Hfl
  iapply (step_wait_recv m K c (2, 1, 1) 18 16 0 (by decide) _ (by decide) (mayWait_done c _) (credit_F _)) $$ [Hfl]
  · iframe # ∗
  iintro Hfl
  iapply (step_wait_recv m K c (2, 0, 1) 18 17 0 (by decide) _ (by decide) (mayWait_done c _) (credit_F _)) $$ [Hfl]
  · iframe # ∗
  iintro Hfl
  iapply (step_block m c 0 1 18 18 0 (by decide) (k0_off12 c 0#32) (k0_off12_inb c 0) (outX m c d 5) (outX m c d 6) k0_pay40 (by (conv_lhs => rw [outX]); rfl)) $$ [Hfl Hout]
  · iframe
  iintro ⟨Hfl, Hout⟩
  iapply (step_block m c 1 1 18 18 0 (by decide) (k0_off12 c 1#32) (k0_off12_inb c 1) (outX m c d 6) (outX m c d 7) k0_pay41 (by (conv_lhs => rw [outX]); rfl)) $$ [Hfl Hout]
  · iframe
  iintro ⟨Hfl, Hout⟩
  iapply (step_block m c 2 1 18 18 0 (by decide) (k0_off12 c 2#32) (k0_off12_inb c 2) (outX m c d 7) (outX m c d 8) k0_pay42 (by (conv_lhs => rw [outX]); rfl)) $$ [Hfl Hout]
  · iframe
  iintro ⟨Hfl, Hout⟩

  iapply (step_wait_send m K c (0, 0, 0) 18 18 0 rfl (by decide) _ (by decide) (credit_O _)) $$ [Hfl]
  · iframe # ∗
  iintro Hfl
  iapply (step_wait_send m K c (1, 0, 0) 18 18 1 rfl (by decide) _ (by decide) (credit_L _)) $$ [Hfl]
  · iframe # ∗
  iintro Hfl

  iapply next
  unfold St5 keep outP
  iframe # ∗

end StageE

end Cert.KernelIdeal.Proto

end
-- ==== Proof.StageF.lean ====
-- Stage F: the send waits.
import proofs.«900757_g7700000000000758_dist_attn_cross_mha_kvseq_b2_sq128_skv128_d512_hq8_dh64_v7x_i4_f32_1_alg».proof.Proof.BodyDefs
import proofs.«900757_g7700000000000758_dist_attn_cross_mha_kvseq_b2_sq128_skv128_d512_hq8_dh64_v7x_i4_f32_1_alg».proof.Proof.Tables
import proofs.«900757_g7700000000000758_dist_attn_cross_mha_kvseq_b2_sq128_skv128_d512_hq8_dh64_v7x_i4_f32_1_alg».proof.Proof.StepWait

noncomputable section

namespace Cert.KernelIdeal.Proto

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ UU ℕ

theorem wait_send_fr (m : (ℓ : Loc nD τ sig) → Buf (Elt F) ℓ) (K : Dev nD × Fin 37 → ℕ) (c : Dev nD) (A B : sProp 𝕄) (t : Xf) (nw : ℕ)
    (hnw : ordW t = nw) (sem : DmaSem sig) (hsem : sem = sendIx t.1 t.2.1 t.2.2)
    {s : Shape} {e : EltTy} {dst src : Memref sig .tc .vmem s e} (hamt : src.view.dmaCredit = NK t.1)
    {hd : dst.view.WordExact} {hs : src.view.WordExact}
    {α : Type} {Q : α → sProp 𝕄} {k : PUnit → Prog (TpuEff nD τ sig (Elt F) Λ₀ .tc) α}
    (hk : iprop((records m K ∗ levAts L lv ∗ A) ∗ flight m c 18 18 (nw + 1) ∗ B)
      ⊢ wp frame (wpE (defs₀ (F := F)) 𝒱₀ (c : Thread nD τ) none) Set.univ (k ⟨⟩) Q) :
    iprop((records m K ∗ levAts L lv ∗ A) ∗ flight m c 18 18 nw ∗ B)
      ⊢ wp frame (wpE (defs₀ (F := F)) 𝒱₀ (c : Thread nD τ) none) Set.univ (.op (.waitDma2 sem dst src hd hs) k) Q := by
  iintro ⟨⟨#Hrec, #Hlev, HA⟩, Hfl, HB⟩
  iapply (step_wait_send m K c t 18 18 nw rfl hnw sem hsem hamt) $$ [Hfl]
  · iframe # ∗
  iintro Hfl
  iapply hk
  iframe # ∗

theorem stageF_proof (m : (ℓ : Loc nD τ sig) → Buf (Elt F) ℓ) (K : Dev nD × Fin 37 → ℕ) (c : Dev nD) (d : (cc0_stg5_0 : Ref sig .tc).ty.Contents (Elt F))
    (Kt : PUnit → sProp 𝕄) (next : St6 m K c d ⊢ Kt ⟨⟩) :
    St5 m K c d ⊢ wp frame (wpE (defs₀ (F := F)) 𝒱₀ (c : Thread nD τ) none) Set.univ (tailF (F := F) c) Kt := by
  unfold tailF atBufs
  rw [k0_part28_eq_skeleton, k0_part29_eq_skeleton, k0_part30_eq_skeleton, k0_part31_eq_skeleton, k0_part32_eq_skeleton]
  unfold k0_part28_skel k0_part29_skel k0_part30_skel k0_part31_skel k0_part32_skel
  simp only [Prog.lift, Prog.bind_op, Prog.bind_ret, Prog.pure_eq_ret, wp_bind]
  unfold St5 keep
  refine wait_send_fr m K c _ _ (0, 1, 0) 2 (by decide) _ (by decide) (credit_O _) ?_
  refine wait_send_fr m K c _ _ (1, 1, 0) 3 (by decide) _ (by decide) (credit_L _) ?_
  refine wait_send_fr m K c _ _ (0, 2, 0) 4 (by decide) _ (by decide) (credit_O _) ?_
  refine wait_send_fr m K c _ _ (1, 2, 0) 5 (by decide) _ (by decide) (credit_L _) ?_
  refine wait_send_fr m K c _ _ (2, 0, 0) 6 (by decide) _ (by decide) (credit_F _) ?_
  refine wait_send_fr m K c _ _ (2, 1, 0) 7 (by decide) _ (by decide) (credit_F _) ?_
  refine wait_send_fr m K c _ _ (2, 2, 0) 8 (by decide) _ (by decide) (credit_F _) ?_
  refine wait_send_fr m K c _ _ (0, 0, 1) 9 (by decide) _ (by decide) (credit_O _) ?_
  refine wait_send_fr m K c _ _ (1, 0, 1) 10 (by decide) _ (by decide) (credit_L _) ?_
  refine wait_send_fr m K c _ _ (0, 1, 1) 11 (by decide) _ (by decide) (credit_O _) ?_
  refine wait_send_fr m K c _ _ (1, 1, 1) 12 (by decide) _ (by decide) (credit_L _) ?_
  refine wait_send_fr m K c _ _ (0, 2, 1) 13 (by decide) _ (by decide) (credit_O _) ?_
  refine wait_send_fr m K c _ _ (1, 2, 1) 14 (by decide) _ (by decide) (credit_L _) ?_
  refine wait_send_fr m K c _ _ (2, 0, 1) 15 (by decide) _ (by decide) (credit_F _) ?_
  refine wait_send_fr m K c _ _ (2, 1, 1) 16 (by decide) _ (by decide) (credit_F _) ?_
  rw [wp_ret]
  iintro H
  imodintro
  iapply next
  unfold St6 keep
  iexact H

end Cert.KernelIdeal.Proto

end
-- ==== Proof.Stages.lean ====
import proofs.«900757_g7700000000000758_dist_attn_cross_mha_kvseq_b2_sq128_skv128_d512_hq8_dh64_v7x_i4_f32_1_alg».proof.Proof.StageEnd
import proofs.«900757_g7700000000000758_dist_attn_cross_mha_kvseq_b2_sq128_skv128_d512_hq8_dh64_v7x_i4_f32_1_alg».proof.Proof.StageC
import proofs.«900757_g7700000000000758_dist_attn_cross_mha_kvseq_b2_sq128_skv128_d512_hq8_dh64_v7x_i4_f32_1_alg».proof.Proof.StageD
import proofs.«900757_g7700000000000758_dist_attn_cross_mha_kvseq_b2_sq128_skv128_d512_hq8_dh64_v7x_i4_f32_1_alg».proof.Proof.StageB
import proofs.«900757_g7700000000000758_dist_attn_cross_mha_kvseq_b2_sq128_skv128_d512_hq8_dh64_v7x_i4_f32_1_alg».proof.Proof.StageA
import proofs.«900757_g7700000000000758_dist_attn_cross_mha_kvseq_b2_sq128_skv128_d512_hq8_dh64_v7x_i4_f32_1_alg».proof.Proof.StageE
import proofs.«900757_g7700000000000758_dist_attn_cross_mha_kvseq_b2_sq128_skv128_d512_hq8_dh64_v7x_i4_f32_1_alg».proof.Proof.StageF

noncomputable section

namespace Cert.KernelIdeal.Proto

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ UU ℕ

section Stages
variable (m : (ℓ : Loc nD τ sig) → Buf (Elt F) ℓ) (K : Dev nD × Fin 37 → ℕ) (c : Dev nD) (d : (cc0_stg5_0 : Ref sig .tc).ty.Contents (Elt F))

-- the body is its seven stages in sequence, each handing its state to the next
set_option maxRecDepth 65536 in
theorem body_main :
    St0 m K c d ⊢ wp frame (wpE (defs₀ (F := F)) 𝒱₀ (c : Thread nD τ) none) Set.univ (atBufs (cc0_body (F := F))) (fun _ => StEnd m c) := by
  show St0 m K c d ⊢ wp frame (wpE (defs₀ (F := F)) 𝒱₀ (c : Thread nD τ) none) Set.univ (atBufs (cc0_body_skel (F := F))) (fun _ => StEnd m c)
  unfold cc0_body_skel
  show St0 m K c d ⊢ wp frame (wpE (defs₀ (F := F)) 𝒱₀ (c : Thread nD τ) none) Set.univ ((tailA (F := F)) >>= fun _ => _) (fun _ => StEnd m c)
  rw [wp_bind]
  exact stageA_proof m K c d _ fun v2 v49 v71 v93 => stageB_proof m K c d v2 v49 v71 v93 _ fun v71' v216 c291 v2' v93' v141 v163 v185 =>
    stageC_proof m K c d v71' v216 c291 v2' v93' v141 v163 v185 _ fun v163' v185' v2'' v375 v387 v399 =>
    stageD_proof m K c d v163' v185' v2'' v375 v387 v399 _ fun v2''' v387' v399' v577 v589 v601 =>
    stageE_proof m K c d v2''' v387' v399' v577 v589 v601 _ (stageF_proof m K c d _ (stageEnd_proof m K c d))

end Stages

end Cert.KernelIdeal.Proto

end
-- ==== Proof.LaunchK.lean ====
-- The launch: from the body, proved at a symbolic device, to the run of all four devices; the cells' ghost state is dealt at entry and the result read back at exit.
import proofs.«900757_g7700000000000758_dist_attn_cross_mha_kvseq_b2_sq128_skv128_d512_hq8_dh64_v7x_i4_f32_1_alg».proof.Proof.Gen.KernelIdeal.Points
import proofs.«900757_g7700000000000758_dist_attn_cross_mha_kvseq_b2_sq128_skv128_d512_hq8_dh64_v7x_i4_f32_1_alg».proof.Proof.BodyDefs
import proofs.«900757_g7700000000000758_dist_attn_cross_mha_kvseq_b2_sq128_skv128_d512_hq8_dh64_v7x_i4_f32_1_alg».proof.Proof.Peel

noncomputable section

namespace Cert.KernelIdeal.Proto

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ UU ℕ

abbrev BodyHyp (m : (ℓ : Loc nD τ sig) → Buf (Elt F) ℓ) : Prop :=
  ∀ (K : Dev nD × Fin 37 → ℕ) (c : Dev nD) (d : (cc0_stg5_0 : Ref sig .tc).ty.Contents (Elt F)),
    St0 m K c d ⊢ wp frame (wpE (defs₀ (F := F)) 𝒱₀ (c : Thread nD τ) none) Set.univ
      (atBufs (cc0_body (F := F))) (fun _ => StEnd m c)

section Data
variable (m : (ℓ : Loc nD τ sig) → Buf (Elt F) ℓ) (ρ : Dev nD → PrngReg)

def ghost (K : Dev nD × Fin 37 → ℕ) (c : Dev nD) : sProp 𝕄 :=
  iprop(records m K ∗ atPos ER (barCell c) 0 ∅ 0
    ∗ (sigTok (F := F) c 0 ∗ sigTok (F := F) c 1 ∗ sigTok (F := F) c 2)
    ∗ (bigSep (Finset.univ : Finset Xf) fun t => sendTok (F := F) c t)
    ∗ (bigSep (Finset.univ : Finset Xf) fun t => atPos ER (sndCell c t) 0 ∅ 0)
    ∗ (bigSep (Finset.univ : Finset Xf) fun t => atPos ER (rcvCellX c t) 0 ∅ 0))

def start (c : Dev nD) : sProp 𝕄 :=
  iprop((∃ K, ghost m K c) ∗ cred (tallyAt (barCell c) () 3)
    ∗ (bigSep (Finset.univ : Finset Xf) fun t => cred (tallyAt (rcvCellX c t) () (NK t.1))) ∗ levAts L lv)

def Φ₀ (c : Dev nD) : sProp 𝕄 := iprop(start m c ∗ scratchAny (F := F) c)

def Φ₁ (c : Dev nD) : sProp 𝕄 :=
  iprop(scratchAny (F := F) c ∗ (bigSep (Finset.univ : Finset Xf) fun t => semVal (sndCell c t) 0)
    ∗ (bigSep (Finset.univ : Finset Xf) fun t => semVal (rcvCellX c t) 0))

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => KV.stg0 m c
    | ⟨1, _⟩ => KV.stg1 m c
    | ⟨2, _⟩ => KV.stg2 m c
    | ⟨3, _⟩ => KV.stg3 m c
    | ⟨4, _⟩ => KV.stg4 m c
    | ⟨5, _⟩ => KV.outVal m c
  Φ t := match t with
    | ⟨0, _⟩ => Φ₀ m c
    | ⟨_ + 1, _⟩ => Φ₁ (F := F) c
  q _ := fullShare
  owed t := match t with
    | ⟨0, _⟩ => O₀ c
    | ⟨_ + 1, _⟩ => 0

abbrev stg (c : Dev nD) (b : Ref sig .tc) (X : b.ty.Contents (Elt F)) : sProp 𝕄 := ((c : Thread nD τ).loc b) ↦{fullShare} X

def bodyPre' (c : Dev nD) : sProp 𝕄 :=
  iprop(Φ₀ m c ∗ (dats m ρ 0 c).owesAt () t0_0.castSucc
    ∗ (∃ d, stg c cc0_stg0_0 ((dats m ρ 0 c).before (0 : Fin 6) t0_0 d))
    ∗ (∃ d, stg c cc0_stg1_0 ((dats m ρ 0 c).before (1 : Fin 6) t0_0 d))
    ∗ (∃ d, stg c cc0_stg2_0 ((dats m ρ 0 c).before (2 : Fin 6) t0_0 d))
    ∗ (∃ d, stg c cc0_stg3_0 ((dats m ρ 0 c).before (3 : Fin 6) t0_0 d))
    ∗ (∃ d, stg c cc0_stg4_0 ((dats m ρ 0 c).before (4 : Fin 6) t0_0 d))
    ∗ (∃ d, stg c cc0_stg5_0 ((dats m ρ 0 c).before (5 : Fin 6) t0_0 d)))

def bodyPost (c : Dev nD) : sProp 𝕄 :=
  iprop(Φ₁ (F := F) c ∗ (dats m ρ 0 c).owesAt () t0_0.succ
    ∗ stg c cc0_stg0_0 (KV.stg0 m c) ∗ stg c cc0_stg1_0 (KV.stg1 m c) ∗ stg c cc0_stg2_0 (KV.stg2 m c)
    ∗ stg c cc0_stg3_0 (KV.stg3 m c) ∗ stg c cc0_stg4_0 (KV.stg4 m c) ∗ stg c cc0_stg5_0 (KV.outVal m c))

theorem stEnd_post (c : Dev nD) : StEnd m c ⊢ bodyPost m ρ c := by
  unfold StEnd bodyPost Φ₁ inP Dat.owesAt Pipeline.owesWithin
  rw [show (dats m ρ 0 c).owed t0_0.succ = 0 from rfl]
  iintro ⟨Hscr, HzS, HzR, ⟨H0, H1, H2, H3, H4⟩, H5, ⟨%W, HO⟩⟩
  iframe Hscr HzS HzR H0 H1 H2 H3 H4 H5
  iexists W; isplitr; · ipureintro; exact fun _ _ => Or.inl trivial
  iexact HO

theorem body_obligation (hbody : BodyHyp (F := F) m) (c : Dev nD) :
    BodyObligation (dats (F := F) m ρ 0 c) (defs₀ (F := F)) 𝒱₀ () Set.univ := fun t => by
  rw [fin_N0 t, bigSep_W0, bigSep_W0]
  simp only [owns_whole]
  show bodyPre' m ρ c ⊢ wp frame (wpE (defs₀ (F := F)) 𝒱₀ c none) Set.univ
    (atBufs (cc0_body (F := F))) (fun _ => bodyPost m ρ c)
  unfold bodyPre' Φ₀ start ghost Dat.owesAt Pipeline.owesWithin
  iintro ⟨⟨⟨⟨%K, Hrec, HaB, Hsig, Hsend, HaS, HaR⟩, HcB, HcR, Hlev⟩, Hscr⟩, ⟨%W, %hW, HO⟩, ⟨%d0, H0⟩, ⟨%d1, H1⟩, ⟨%d2, H2⟩, ⟨%d3, H3⟩, ⟨%d4, H4⟩, ⟨%d5, H5⟩⟩
  rw [show (dats m ρ 0 c).before 0 t0_0 d0 = KV.stg0 m c from (if_pos (fetch0_0 _)).trans rfl,
    show (dats m ρ 0 c).before 1 t0_0 d1 = KV.stg1 m c from (if_pos (fetch0_1 _)).trans rfl,
    show (dats m ρ 0 c).before 2 t0_0 d2 = KV.stg2 m c from (if_pos (fetch0_2 _)).trans rfl,
    show (dats m ρ 0 c).before 3 t0_0 d3 = KV.stg3 m c from (if_pos (fetch0_3 _)).trans rfl,
    show (dats m ρ 0 c).before 4 t0_0 d4 = KV.stg4 m c from (if_pos (fetch0_4 _)).trans rfl,
    show (dats m ρ 0 c).owed t0_0.castSucc = O₀ c from rfl]
  ihave HR := (Entails.of_eq (bigSep_sep' Finset.univ (fun t : Xf => (cred (tallyAt (rcvCellX c t) () (NK t.1)) : sProp 𝕄))
      (fun t : Xf => atPos ER (rcvCellX c t) 0 ∅ 0)).symm) $$ [HcR HaR]
  · iframe
  iapply (wp_mono _ _ _ fun _ => stEnd_post m ρ c)
  iapply (hbody K c ((dats m ρ 0 c).before 5 t0_0 d5))
  unfold St0 keep inP outP
  rw [outX]
  iframe Hrec Hlev H0 H1 H2 H3 H4 HaB HcB Hsig Hsend HaS HR Hscr H5
  iexists W; iexact HO

end Data

def xIx : Xf ⊕ Xf → DmaSem sig := Sum.elim (fun t => sendIx t.1 t.2.1 t.2.2) fun t => recvIx t.1 t.2.1 t.2.2
theorem xIx_injective : Function.Injective xIx := by decide +kernel

def cellMap : Unit ⊕ (Xf ⊕ Xf) → Fin 37
  | .inl _ => 0
  | .inr (.inl t) => sIdx t.1 t.2.1 t.2.2
  | .inr (.inr t) => rIdx t.1 t.2.1 t.2.2
theorem cellMap_bijective : Function.Bijective cellMap := by decide +kernel
def cellEquiv : Unit ⊕ (Xf ⊕ Xf) ≃ Fin 37 := Equiv.ofBijective cellMap cellMap_bijective

def semMap (x : Xf ⊕ Xf) : Fin 36 := ⟨((xIx x).val - 6) % 36, Nat.mod_lt _ (by decide)⟩
theorem semMap_bijective : Function.Bijective semMap := by decide +kernel
def semEquiv : Xf ⊕ Xf ≃ Fin 36 := Equiv.ofBijective semMap semMap_bijective

def flipE : Xf ≃ Xf where
  toFun t := (t.1, slotOf t.2.1, t.2.2)
  invFun t := (t.1, slotOf t.2.1, t.2.2)
  left_inv t := by revert t; decide
  right_inv t := by revert t; decide

def rot (j : Fin 3) : Dev nD ≃ Dev nD where
  toFun c := pl c (j.val + 1)
  invFun c := pl c (3 - j.val)
  left_inv c := by revert c j; decide
  right_inv c := by revert c j; decide

abbrev osem : Fin 36 → SemLoc sig := fun i => .dma ⟨i.val + 6, by show _ < 42; omega⟩

theorem ownSemFacts : Pipeline.OwnSemFacts cfg0.spec osem := by decide

theorem osem_xIx : ∀ x, osem (semEquiv x) = .dma (xIx x) := by decide +kernel

section Launch
variable (m : (ℓ : Loc nD τ sig) → Buf (Elt F) ℓ) (ρ : Dev nD → PrngReg)

theorem share_eq (c : Dev nD) (w : Fin cfg0.W) : (dats m ρ 0 c).share w = fullShare := by unfold Dat.share; split <;> rfl

def protoCells : Finset (GSem nD τ sig) := Finset.univ.map ⟨kcell, kcell_injective⟩

abbrev tokOf (cj : Dev nD × (Fin 3 ⊕ (Xf ⊕ Xf))) : GSem nD τ sig × ℕ × Fin 3 := match cj.2 with
  | .inl j => (barCell cj.1, 0, j)
  | .inr x => (((cj.1 : Thread nD τ), .dma (xIx x)), 0, 0)
theorem tokOf_injective : Function.Injective (tokOf : Dev nD × (Fin 3 ⊕ (Xf ⊕ Xf)) → GSem nD τ sig × ℕ × Fin 3) := by
  rintro ⟨c, j⟩ ⟨c', j'⟩ h
  have hs := congrArg (·.1.2) h
  have hd := congrArg (·.2.2) h
  rcases j with j | x <;> rcases j' with j' | x' <;> obtain rfl : c = c' := congrArg (·.1.1.1) h
  · rw [show j = j' from hd]
  · cases hs
  · cases hs
  · rw [xIx_injective (SemLoc.dma.inj hs)]
def protoToks : Finset (GSem nD τ sig × ℕ × Fin 3) := Finset.univ.map ⟨tokOf, tokOf_injective⟩

def u₀ : UU :=
  (initOf (Pipeline.cells cfgs cellOf_inj) (Pipeline.launchToks cfgs cellOf_inj), initOf protoCells protoToks)

def toks (c : Dev nD) : sProp 𝕄 :=
  iprop((bigSep Finset.univ fun j : Fin 3 => dutyTok ER (barCell c) 0 j)
    ∗ (bigSep (Finset.univ : Finset Xf) fun t => dutyTok ER (sndCell c t) 0 0)
    ∗ (bigSep (Finset.univ : Finset Xf) fun t => dutyTok ER (rcvCellX c t) 0 0))

def G (c : Dev nD) : sProp 𝕄 :=
  iprop((bigSep Finset.univ fun k : Fin 37 => roundState ER (Rd m) (kcell (c, k)) 0)
    ∗ (bigSep Finset.univ fun k : Fin 37 => iprop(atPos ER (kcell (c, k)) 0 ∅ 0 ∗ reached ER (kcell (c, k)) 0)) ∗ toks (F := F) c)

def G' (c : Dev nD) : sProp 𝕄 := iprop(∃ K, ghost m K c)

theorem bigSep_fin3 (Φ : Fin 3 → sProp 𝕄) : bigSep Finset.univ Φ = iprop(Φ 0 ∗ Φ 1 ∗ Φ 2) := bigSep_univ_eq_bigSepL [0, 1, 2] (by decide) (by decide) Φ

theorem bigSep_fin37 (Φ : Fin 37 → sProp 𝕄) :
    bigSep Finset.univ Φ = iprop(Φ 0 ∗ (bigSep (Finset.univ : Finset Xf) fun t => Φ (sIdx t.1 t.2.1 t.2.2))
      ∗ bigSep (Finset.univ : Finset Xf) fun t => Φ (rIdx t.1 t.2.1 t.2.2)) := by
  rw [bigSep_univ_equiv cellEquiv Φ, bigSep_univ_sum, bigSep_univ_sum, bigSep_univ_of_subsingleton ()]
  rfl

theorem fund_proto : BI.own (ER (initOf protoCells protoToks)) ⊢ (|==> bigSep Finset.univ (G m) : sProp 𝕄) := by
  have hX (Φ : GSem nD τ sig → sProp 𝕄) : bigSep protoCells Φ = bigSep Finset.univ fun c : Dev nD => bigSep Finset.univ fun k : Fin 37 => Φ (kcell (c, k)) := by
    unfold protoCells; rw [bigSep_map, bigSep_univ_prod]; rfl
  have hT : bigSep protoToks (fun x => (dutyTok ER x.1 x.2.1 x.2.2 : sProp 𝕄)) = bigSep Finset.univ fun c : Dev nD => toks c := by
    unfold protoToks; rw [bigSep_map, bigSep_univ_prod]
    exact bigSep_congr fun c _ => by unfold toks; rw [bigSep_univ_sum, bigSep_univ_sum]; rfl
  have h := Rounds.fund ER (Rd m) protoCells protoToks
  rw [hX, hX, hX, hT] at h
  iintro HX
  imod h $$ HX with ⟨Hst, Hr, Hat, Htok⟩
  imodintro
  unfold G; simp only [bigSep_sep']
  iframe

theorem ownSems0_eq (c : Dev nD) : (Pipeline.ownSems0 osem c : sProp 𝕄)
    = iprop((bigSep (Finset.univ : Finset Xf) fun t => semVal (sndCell c t) 0) ∗ bigSep (Finset.univ : Finset Xf) fun t => semVal (rcvCellX c t) 0) := by
  unfold Pipeline.ownSems0
  rw [bigSep_univ_equiv semEquiv]
  simp only [osem_xIx]
  rw [bigSep_univ_sum]
  rfl

theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 osem c ∗ unscopedSems0 c)
      ⊢ (bigSep Finset.univ fun k : Fin 37 => semVal (kcell (c, k)) 0 : sProp 𝕄) := by
  rw [ownSems0_eq, unscopedSems0_eq, bigSep_fin37]
  simp only [kcell_bar, kcell_send, kcell_recv]
  iintro ⟨⟨HS, HV⟩, HB⟩
  iframe

def G₁ (c : Dev nD) : sProp 𝕄 :=
  iprop((bigSep Finset.univ fun k => iprop(∃ κ : ℕ, cellInv ER (Rd m) κ (kcell (c, k))))
    ∗ (bigSep Finset.univ fun k : Fin 37 => iprop(atPos ER (kcell (c, k)) 0 ∅ 0 ∗ reached ER (kcell (c, k)) 0)) ∗ toks (F := F) c)

theorem core_alloc (c : Dev nD) :
    iprop(Pipeline.ownSems0 osem c ∗ unscopedSems0 c ∗ G m c)
      ⊢ |={Set.univ}=> G₁ m c := by
  unfold G G₁
  iintro ⟨Hos, Hus, Hst, Hat, Htok⟩
  ihave Hv := (sems0_eq (F := F) c) $$ [Hos Hus]
  · iframe
  imod (show iprop((bigSep Finset.univ fun k : Fin 37 => semVal (kcell (c, k)) 0) ∗ bigSep Finset.univ fun k : Fin 37 => roundState ER (Rd m) (kcell (c, k)) 0)
      ⊢ (|={Set.univ}=> bigSep Finset.univ fun k => iprop(∃ κ : ℕ, cellInv ER (Rd m) κ (kcell (c, k))) : sProp 𝕄) from by
        rw [← bigSep_sep']
        exact (bigSep_mono fun k _ => (Rounds.body_intro ER (Rd m) (kcell (c, k))).trans inv_alloc).trans (bigSep_fupd _ _)) $$ [Hv Hst] with Hinv
  · iframe
  imodintro
  iframe

def payToks (c : Dev nD) : sProp 𝕄 :=
  iprop((sigTok (F := F) c 0 ∗ sigTok (F := F) c 1 ∗ sigTok (F := F) c 2) ∗ bigSep (Finset.univ : Finset Xf) fun t => sendTok (F := F) c t)

theorem ghost_intro (K : Dev nD × Fin 37 → ℕ) (c : Dev nD) :
    iprop(records m K ∗ (bigSep Finset.univ fun k : Fin 37 => atPos ER (kcell (c, k)) 0 ∅ 0) ∗ payToks (F := F) c) ⊢ G' m c := by
  unfold payToks G' ghost
  rw [bigSep_fin37]
  simp only [kcell_bar, kcell_send, kcell_recv]
  iintro ⟨#HR, ⟨HaB, HaS, HaV⟩, Hsig, Hsend⟩
  iexists K
  iframe # ∗

theorem rcv_around (Φ : GSem nD τ sig → sProp 𝕄) :
    (bigSep Finset.univ fun c : Dev nD => bigSep (Finset.univ : Finset Xf) fun t => Φ (rcvCellX c t))
      = bigSep Finset.univ fun c : Dev nD => bigSep (Finset.univ : Finset Xf) fun t => Φ (dstCell c t) := by
  rw [bigSep_univ_comm (fun (c : Dev nD) (t : Xf) => Φ (rcvCellX c t)), bigSep_univ_comm (fun (c : Dev nD) (t : Xf) => Φ (dstCell c t)),
    bigSep_univ_equiv flipE (fun t : Xf => bigSep Finset.univ fun c : Dev nD => Φ (rcvCellX c t))]
  refine bigSep_congr fun t _ => ?_
  show (bigSep Finset.univ fun c : Dev nD => Φ (rcvCellX c (flipE t))) = _
  rw [bigSep_univ_equiv (rot t.2.1) (fun c : Dev nD => Φ (rcvCellX c (flipE t)))]
  rfl

theorem toks_around : (bigSep Finset.univ fun c : Dev nD => (toks c : sProp 𝕄)) ⊢ bigSep Finset.univ fun c : Dev nD => payToks c := by
  unfold toks payToks sendTok sigTok
  simp only [bigSep_sep', bigSep_fin3]
  rw [← rcv_around (dutyTok ER · 0 0)]
  iintro ⟨⟨H0, H1, H2⟩, HS, HR⟩
  have hr (j k : Fin 3) := Entails.of_eq (bigSep_univ_equiv (rot j) (fun c : Dev nD => (dutyTok ER (barCell c) 0 k : sProp 𝕄)))
  ihave H0' := hr 2 0 $$ H0
  ihave H1' := hr 1 1 $$ H1
  ihave H2' := hr 0 2 $$ H2
  iframe
  isplitl [H2']; · iexact H2'
  isplitl [H1']; · iexact H1'
  iexact H0'

theorem regroup : bigSep Finset.univ (G₁ m) ⊢ bigSep Finset.univ (G' m) := by
  unfold G₁
  simp only [bigSep_sep']
  rw [← bigSep_univ_prod (fun ck : Dev nD × Fin 37 => iprop(∃ κ : ℕ, cellInv ER (Rd m) κ (kcell ck))),
    ← bigSep_univ_prod (fun ck : Dev nD × Fin 37 => (reached ER (kcell ck) 0 : sProp 𝕄))]
  iintro ⟨HI, ⟨Hat, #HR⟩, Htok⟩
  ihave HK := (BI.bigSep_exists_pi Finset.univ (fun (ck : Dev nD × Fin 37) (κ : ℕ) => (cellInv ER (Rd m) κ (kcell ck) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · iapply (Entails.of_eq (bigSep_sep' Finset.univ (fun c : Dev nD => bigSep Finset.univ fun k : Fin 37 => (atPos ER (kcell (c, k)) 0 ∅ 0 : sProp 𝕄)) payToks).symm)
    iframe

theorem glob : (bigSep Finset.univ fun c => iprop(Pipeline.ownSems0 osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

theorem creds (c : Dev nD) :
    (Pipeline.launchCred O₀ c : sProp 𝕄) ⊢ iprop(cred (tallyAt (barCell c) () 3)
      ∗ bigSep (Finset.univ : Finset Xf) fun t => cred (tallyAt (rcvCellX c t) () (NK t.1))) := by
  have hO : (O₀ : Dev nD → CellTallies nD τ sig Unit) = fun d => (∑ t : Xf, tallyAt (dstCell d t) () (NK t.1))
      + ∑ j : Fin 3, tallyAt (barCell (pl d (j.val + 1))) () 1 := by
    funext d; unfold O₀ owedSends owedSigs
    rw [Finset.filter_true_of_mem fun _ _ => Nat.zero_le _, Finset.filter_true_of_mem fun _ _ => Nat.zero_le _]
  rw [hO, Pipeline.launchCred_add, Pipeline.launchCred_sum, Pipeline.launchCred_sum]
  iintro ⟨HS, HB⟩
  isplitl [HB]
  ·
    have hB : (bigSep Finset.univ fun j : Fin 3 => (Pipeline.launchCred (fun d => tallyAt (barCell (pl d (j.val + 1))) () 1) c : sProp 𝕄))
        ⊢ bigSep Finset.univ fun _ : Fin 3 => (cred (tallyAt (barCell c) () 1) : sProp 𝕄) :=
      bigSep_mono fun j _ => Pipeline.launchCred_tallyAt (SemLoc.reg barS) (fun d => pl d (j.val + 1)) (fun c => pl c (3 - j.val))
        (rot j).right_inv (rot j).left_inv () 1 c
    ihave HB' := hB $$ HB
    ihave HB3 := (Entails.of_eq (bigSep_fin3 (fun _ => (cred (tallyAt (barCell c) () 1) : sProp 𝕄)))) $$ HB'
    icases HB3 with ⟨C0, C1, C2⟩
    rw [← tallyAt_add _ _ 1 2, ← tallyAt_add _ _ 1 1]
    iapply (cred_add _ _).2
    iframe C0
    iapply (cred_add _ _).2
    iframe
  ·
    have hS : (bigSep Finset.univ fun t : Xf => (Pipeline.launchCred (fun d => tallyAt (dstCell d t) () (NK t.1)) c : sProp 𝕄))
        ⊢ bigSep Finset.univ fun t : Xf => (cred (tallyAt (rcvCellX c (flipE t)) () (NK (flipE t).1)) : sProp 𝕄) :=
      bigSep_mono fun t _ => Pipeline.launchCred_tallyAt (SemLoc.dma (recvIx t.1 (slotOf t.2.1) t.2.2)) (fun d => pl d (t.2.1.val + 1))
        (fun c => pl c (3 - t.2.1.val)) (rot t.2.1).right_inv (rot t.2.1).left_inv () (NK t.1) c
    ihave HS' := hS $$ HS
    iapply (Entails.of_eq (bigSep_univ_equiv flipE (fun t : Xf => (cred (tallyAt (rcvCellX c t) () (NK t.1)) : sProp 𝕄))).symm)
    iexact HS'

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  icases Hc with ⟨H1, HN⟩
  imodintro
  unfold start G'
  iframe

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ scratchAny
  iintro ⟨Hs, -, Hr⟩
  iframe

theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ (F := F) c from rfl, scopedRest0_eq, ownSems0_eq]
  unfold Φ₁ scratchAny
  iintro ⟨Hr, HzS, HzV⟩
  iframe

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

theorem run_main (hbody : BodyHyp (F := F) m) : θ_run defs (onTc (τ := τ) (main (F := F))) (s₀ m ρ)
    (fun r => ∀ c : Dev nD, ∀ w : Fin cfg0.W, r.2.mem ((cfg0.win w).arr.view.loc (c : Thread nD τ)) = (dats m ρ 0 c).arrAt w cfg0.N) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ hbody) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := fun g h => if_neg h) (hwaits := waits m ρ)
    (G := G m) (G' := G' m) (u₀ := u₀)
    (hu₀ := by
      unfold u₀
      iintro Hu
      ihave H := (ownU_pair _ _) $$ Hu
      icases H with ⟨HP, HX⟩
      imod (fund_proto m) $$ HX with HG
      imodintro
      iframe)
    (hglob := glob m)
    (hA := fun _ _ => rfl) (hpf := fun _ k => k.elim0)
    (X := start m) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

theorem input_eq (c : Dev nD) (w : Fin cfg0.W) (hw : (cfg0.win w).isOut = false) :
    (dats m ρ 0 c).arrAt w cfg0.N = (s₀ m ρ).mem ((cfg0.win w).arr.view.loc (c : Thread nD τ)) :=
  (dats (F := F) m ρ 0 c).arrAt_in w hw _

theorem result_eq (c : Dev nD) : (dats m ρ 0 c).arrAt (5 : Fin 6) cfg0.N = KV.outVal m c := by
  rw [show cfg0.N = ((0 : Fin 1) : Fin cfg0.N).val + 1 from rfl, (dats m ρ 0 c).arrAt_succ (5 : Fin 6) (0 : Fin 1)]
  rw [show (cfg0.win (5 : Fin 6)).flush (0 : Fin 1) = true from flush0_5 _, if_pos rfl]
  exact Memref.write_access_unit_zero_univ (Elt F) main_v1 (by funext a; fin_cases a <;> rfl) _ _ _

end Launch

theorem kernel_run (m : (ℓ : Loc nD τ sig) → Buf (Elt F) ℓ) (ρ : Dev nD → PrngReg)
    (hbody : ∀ (K : Dev nD × Fin 37 → ℕ) (c : Dev nD) (d : (cc0_stg5_0 : Ref sig .tc).ty.Contents (Elt F)), St0 m K c d ⊢ wp frame (wpE (defs₀ (F := F)) 𝒱₀ (c : Thread nD τ) none) Set.univ (atBufs (cc0_body (F := F))) (fun _ => StEnd m c)) :
    θ_run (defs (F := F)) (onTc (τ := τ) (main (F := F))) ⟨m, fun _ => 0, ρ⟩ (fun r => ∀ c : Dev nD,
      r.2.mem ((c.tc : Thread nD τ).loc main_v1) = KV.outVal m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run (defs (F := F)) _ _).mono (fun r h c =>
    ⟨(h c (5 : Fin 6)).trans (result_eq m ρ c),
     (h c (0 : Fin 6)).trans (input_eq m ρ c (0 : Fin 6) rfl), (h c (1 : Fin 6)).trans (input_eq m ρ c (1 : Fin 6) rfl),
     (h c (2 : Fin 6)).trans (input_eq m ρ c (2 : Fin 6) rfl), (h c (3 : Fin 6)).trans (input_eq m ρ c (3 : Fin 6) rfl),
     (h c (4 : Fin 6)).trans (input_eq m ρ c (4 : Fin 6) rfl)⟩) (run_main m ρ hbody)

end Cert.KernelIdeal.Proto

end
-- ==== Proof.lean ====
/-
  Four devices each hold 128 of the 512 keys and values; each forms its partial softmax numerators and
  denominators, the owners of the query rows add the four partial sums, divide, apply the output weights
  and pass their finished rows round, so every device ends with the whole result.  Over the reals this is
  the reference's attention: the stabilising factor exp (-max s) cancels in the quotient, given finite inputs.
  The run is proved once, for any float instance; the printed program and its idealization are one term.
-/
import proofs.«900757_g7700000000000758_dist_attn_cross_mha_kvseq_b2_sq128_skv128_d512_hq8_dh64_v7x_i4_f32_1_alg».proof.Proof.Gen.Kernel
import proofs.«900757_g7700000000000758_dist_attn_cross_mha_kvseq_b2_sq128_skv128_d512_hq8_dh64_v7x_i4_f32_1_alg».proof.Proof.Gen.ReferenceIdeal
import proofs.«900757_g7700000000000758_dist_attn_cross_mha_kvseq_b2_sq128_skv128_d512_hq8_dh64_v7x_i4_f32_1_alg».proof.Proof.Gen.Pre_finite_inputs_ReferenceIdeal
import proofs.«900757_g7700000000000758_dist_attn_cross_mha_kvseq_b2_sq128_skv128_d512_hq8_dh64_v7x_i4_f32_1_alg».proof.Proof.Assembly
import proofs.«900757_g7700000000000758_dist_attn_cross_mha_kvseq_b2_sq128_skv128_d512_hq8_dh64_v7x_i4_f32_1_alg».proof.Proof.Stages
import proofs.«900757_g7700000000000758_dist_attn_cross_mha_kvseq_b2_sq128_skv128_d512_hq8_dh64_v7x_i4_f32_1_alg».proof.Proof.LaunchK

noncomputable section

namespace Cert.Proof

open Idealize.ShloMosaic Idealize.SL.Sem

variable {F : FTy → Type} [FloatOps F]

-- the two body tables agree label by label: the one label's body is the same term
theorem defs_eq : Cert.Kernel.defs (F := F) = Cert.KernelIdeal.defs (F := F) := by
  unfold Cert.Kernel.defs Cert.KernelIdeal.defs Cert.Kernel.defs₀ Cert.KernelIdeal.defs₀
  refine congrArg (Pipeline.defs _) (congrArg Defs.onTc ?_)
  funext l a
  match l, a with
  | 0, (_, _) => rfl
  | ⟨_ + 1, h⟩, _ => exact absurd h (by omega)

-- the word-level frame is the generic run at the word instance, its result forgotten
theorem frame_Kernel : Cert.frame_Kernel := fun m g _ => by
  have h := Cert.KernelIdeal.Proto.kernel_run (F := Bits) m g fun K c d => Cert.KernelIdeal.Proto.body_main m K c d
  rw [← defs_eq] at h
  exact (θ_run _ _ _).mono (fun _ h c => (h c).2) h

theorem claim : Cert.Claim :=
  ⟨Cert.Kernel.Gen.facts, Cert.KernelIdeal.Gen.facts, Cert.ReferenceIdeal.Gen.facts, Cert.Pre_finite_inputs_Kernel.Gen.facts,
    Cert.Pre_finite_inputs_ReferenceIdeal.Gen.facts,
    frame_Kernel,
    fun m g _ => (θ_run _ _ _).mono (fun _ h c => (h c).2)
      (Cert.KernelIdeal.Proto.kernel_run (F := Ideal) m g fun K c d => Cert.KernelIdeal.Proto.body_main m K c d),
    Cert.Assembly.frame_ReferenceIdeal,
    trivial,
    Cert.Assembly.algebraic fun m g =>
      Cert.KernelIdeal.Proto.kernel_run (F := Ideal) m g fun K c d => Cert.KernelIdeal.Proto.body_main m K c d⟩

end Cert.Proof

end
